-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg16 : FVec F S8 .f32) (main_v63 : IVec S_ 1) (main_v67 : IVec S_ 1) : IVec S_ 1 :=
  let main_v68 : IVec S_ 1 := andi main_v63 main_v67
  let main_v69 : FVec F S8 .f32 := Host.absf main_arg16
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x8 .f32) (main_arg16 : FVec F S8 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x8 .f32 := Host.absf main_arg15
  let main_cst_24 : FVec F S_ .f32 := constant S_ .f32 0x7F800000#32
  let main_v65 : FVec F S128x8 .f32 := broadcastInDim S128x8 ![] bcast_S_S128x8 main_cst_24
  let main_v66 : IVec S128x8 1 := cmpf .olt main_v64 main_v65
  let main_c_25 : IVec S_ 1 := constantI S_ 1 1#1
  let main_v67 : IVec S_ 1 := (fun x v => Host.reduce IntOp.andi x v reducesTo_S128x8_S_d0_1 h_S_) main_v66 main_c_25
  fn_part4 (F := F) main_arg16 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x8 .f32) (main_arg16 : FVec F S8 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x8 .f32) (main_arg16 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x8 .f32) (main_arg16 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S5000x128 : Shape := ⟨2, ![5000, 128]⟩
abbrev S600000x128 : Shape := ⟨2, ![600000, 128]⟩
abbrev S1x128 : Shape := ⟨2, ![1, 128]⟩
abbrev S50000x1 : Shape := ⟨2, ![50000, 1]⟩
abbrev S1x8 : Shape := ⟨2, ![1, 8]⟩
abbrev S64x8 : Shape := ⟨2, ![64, 8]⟩
abbrev S5000x1 : Shape := ⟨2, ![5000, 1]⟩
abbrev S64x128 : Shape := ⟨2, ![64, 128]⟩
abbrev S64x1 : Shape := ⟨2, ![64, 1]⟩
abbrev S5000x64 : Shape := ⟨2, ![5000, 64]⟩

abbrev nBuf : Space → Nat
  | .hbm => 156
  | .vmem => 66
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x8, .f32⟩
  | 16 => ⟨S8, .f32⟩
  | 17 => ⟨S1x600000, .i32⟩
  | 18 => ⟨S600000, .i32⟩
  | 19 => ⟨S1x600000, .i32⟩
  | 20 => ⟨S600000, .i32⟩
  | 21 => ⟨S_, .f32⟩
  | 22 => ⟨S600000, .f32⟩
  | 23 => ⟨S_, .f32⟩
  | 24 => ⟨S50000, .f32⟩
  | 25 => ⟨S600000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000, .f32⟩
  | 56 => ⟨S600000, .f32⟩
  | 57 => ⟨S50000x128, .f32⟩
  | 58 => ⟨S600000x1, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x128, .f32⟩
  | 68 => ⟨S600000x128, .f32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S1x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S50000x128, .f32⟩
  | 89 => ⟨S50000x128, .f32⟩
  | 90 => ⟨S600000x1, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S600000x128, .f32⟩
  | 101 => ⟨S600000x128, .f32⟩
  | 102 => ⟨S_, .f32⟩
  | 103 => ⟨S50000x128, .f32⟩
  | 104 => ⟨S600000x1, .i32⟩
  | 105 => ⟨S50000x128, .f32⟩
  | 106 => ⟨S1x128, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S50000x128, .f32⟩
  | 121 => ⟨S50000x128, .f32⟩
  | 122 => ⟨S600000x1, .f32⟩
  | 123 => ⟨S_, .i32⟩
  | 124 => ⟨S600000, .i32⟩
  | 125 => ⟨S600000, .i1⟩
  | 126 => ⟨S_, .i32⟩
  | 127 => ⟨S600000, .i32⟩
  | _ => ⟨S50000x128, .f32⟩

abbrev hbmTy0_1 (i : Nat) : BufTy := match i % 128 with
  | 0 => ⟨S600000, .i32⟩
  | 1 => ⟨S600000, .i32⟩
  | 2 => ⟨S600000x1, .i32⟩
  | 3 => ⟨S600000x128, .f32⟩
  | 4 => ⟨S600000x128, .f32⟩
  | 5 => ⟨S600000x128, .f32⟩
  | 6 => ⟨S_, .f32⟩
  | 7 => ⟨S50000x128, .f32⟩
  | 8 => ⟨S600000x1, .i32⟩
  | 9 => ⟨S50000x128, .f32⟩
  | 10 => ⟨S1x128, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S50000x128, .f32⟩
  | 25 => ⟨S50000x1, .i32⟩
  | 26 => ⟨S1x8, .f32⟩
  | 27 => ⟨S64x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x1, .i32⟩
  | .local _ .vmem, ⟨60, _⟩ => ⟨S5000x1, .i32⟩
  | .local _ .vmem, ⟨61, _⟩ => ⟨S128x8, .f32⟩
  | .local _ .vmem, ⟨62, _⟩ => ⟨S1x8, .f32⟩
  | .local _ .vmem, ⟨63, _⟩ => ⟨S64x8, .f32⟩
  | .local _ .vmem, ⟨64, _⟩ => ⟨S64x128, .f32⟩
  | .local _ .vmem, ⟨65, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_c_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44_0 : Ref sig .tc := ⟨.hbm, 75, rfl⟩
abbrev main_v44_1 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_c_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70_0 : Ref sig .tc := ⟨.hbm, 107, rfl⟩
abbrev main_v70_1 : Ref sig .tc := ⟨.hbm, 108, rfl⟩
abbrev main_cst_15 : Ref sig .tc := ⟨.hbm, 109, rfl⟩
abbrev main_v71 : Ref sig .tc := ⟨.hbm, 110, rfl⟩
abbrev main_v72 : Ref sig .tc := ⟨.hbm, 111, rfl⟩
abbrev main_cst_16 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_17 : Ref sig .tc := ⟨.hbm, 123, rfl⟩
abbrev main_v83 : Ref sig .tc := ⟨.hbm, 124, rfl⟩
abbrev main_v84 : Ref sig .tc := ⟨.hbm, 125, rfl⟩
abbrev main_c_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96_0 : Ref sig .tc := ⟨.hbm, 139, rfl⟩
abbrev main_v96_1 : Ref sig .tc := ⟨.hbm, 140, rfl⟩
abbrev main_cst_20 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg6_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg4_0 : Ref sig .tc := ⟨.vmem, 63, rfl⟩
abbrev cc9_scratch0 : Ref sig .tc := ⟨.vmem, 64, rfl⟩
abbrev cc9_scratch1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem3_0 : DmaSem sig := 62
abbrev cc9_sem4_0 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_14 : BitVec 32 := 0#32
  let v27 : BitVec 1 := Scalar.cmpi .ne v26 c0_i32_14
  v27

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x8 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x8 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x8 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S50000_S50000x1 : S50000.ShapeCasts S50000x1
  shapeCasts_S8_S1x8 : S8.ShapeCasts S1x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  broadcasts_S64x1_S64x128 : S64x1.Broadcasts S64x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S64x8_S64x8_0_0 : ∀ a, (![0, 0] : Fin 2 → Nat) a + S64x8.size a ≤ S64x8.size a
  h_S64x8 : 0 < S64x8.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x8_S64x8_1_0_0_1_n_n_wf : DotDims.WF S64x128 S128x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .i32 = 32 ∨ (Rect.block (s := S50000x1) S5000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x8.size a ≤ S128x8.size a
  hwx9_2 : ∀ i : grid9.Coords, EltTy.bits .f32 = 32 ∨ (Rect.block (s := S128x8) S128x8.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x8.size a ≤ S1x8.size a
  hwx9_3 : ∀ i : grid9.Coords, EltTy.bits .f32 = 32 ∨ (Rect.block (s := S1x8) S1x8.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x8.size a ≤ S64x8.size a
  hwx9_4 : ∀ i : grid9.Coords, EltTy.bits .f32 = 32 ∨ (Rect.block (s := S64x8) S64x8.size (cc9_transform_4 i) (hinb9_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v68) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v80) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v80) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v94) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v96_0) S1x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96_1) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v94) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v103) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v105) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v98) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v102) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v106) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v106) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v107) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg15) S128x8.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v108) S1x8.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v109) S64x8.size cc9_transform_4 reads9_4 true true 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev idle9 : Fin 5 → grid9.Coords → Bool := fun | 0 => fun _ => false | 1 => fun _ => false | 2 => fun _ => false | 3 => fun _ => false | 4 => fun i => !(k9_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x8 : Shape := ⟨2, ![64, 8]⟩
abbrev S1x8 : Shape := ⟨2, ![1, 8]⟩

abbrev nBuf : Space → Nat
  | .hbm => 238
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x8, .f32⟩
  | 16 => ⟨S8, .f32⟩
  | 17 => ⟨S1x600000, .i32⟩
  | 18 => ⟨S600000, .i32⟩
  | 19 => ⟨S1x600000, .i32⟩
  | 20 => ⟨S600000, .i32⟩
  | 21 => ⟨S_, .f32⟩
  | 22 => ⟨S600000, .f32⟩
  | 23 => ⟨S_, .f32⟩
  | 24 => ⟨S50000, .f32⟩
  | 25 => ⟨S600000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000, .f32⟩
  | 56 => ⟨S50000x128, .f32⟩
  | 57 => ⟨S600000, .f32⟩
  | 58 => ⟨S600000x1, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x128, .f32⟩
  | 68 => ⟨S600000x128, .f32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S128, .f32⟩
  | 88 => ⟨S_, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S600000, .f32⟩
  | 112 => ⟨S600000x1, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S600000x128, .f32⟩
  | 123 => ⟨S600000x128, .f32⟩
  | 124 => ⟨S_, .f32⟩
  | 125 => ⟨S50000x128, .f32⟩
  | 126 => ⟨S600000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S128, .f32⟩
  | 5 => ⟨S_, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S_, .f32⟩
  | 21 => ⟨S128, .f32⟩
  | 22 => ⟨S128, .f32⟩
  | 23 => ⟨S128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S600000, .f32⟩
  | 38 => ⟨S600000x1, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x128, .f32⟩
  | 48 => ⟨S600000x128, .f32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .f32⟩
  | 91 => ⟨S64x128, .f32⟩
  | 92 => ⟨S50000x1, .i32⟩
  | 93 => ⟨S64x128, .f32⟩
  | 94 => ⟨S_, .f32⟩
  | 95 => ⟨S50000, .f32⟩
  | 96 => ⟨S_, .f32⟩
  | 97 => ⟨S64, .f32⟩
  | 98 => ⟨S50000x1, .i32⟩
  | 99 => ⟨S64, .f32⟩
  | 100 => ⟨S_, .f32⟩
  | 101 => ⟨S64, .f32⟩
  | 102 => ⟨S64, .f32⟩
  | 103 => ⟨S64x1, .f32⟩
  | 104 => ⟨S64x128, .f32⟩
  | 105 => ⟨S64x128, .f32⟩
  | 106 => ⟨S64x8, .f32⟩
  | 107 => ⟨S1x8, .f32⟩
  | 108 => ⟨S64x8, .f32⟩
  | 109 => ⟨S64x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_c_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_cst_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call1_cst : Ref sig .tc := ⟨.hbm, 107, rfl⟩
abbrev main_call1_v0 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_15 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_cst_19 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_20 : Ref sig .tc := ⟨.hbm, 140, rfl⟩
abbrev main_v97 : Ref sig .tc := ⟨.hbm, 141, rfl⟩
abbrev main_cst_21 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_22 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_call2_cst : Ref sig .tc := ⟨.hbm, 161, rfl⟩
abbrev main_call2_v0 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_23 : Ref sig .tc := ⟨.hbm, 167, rfl⟩
abbrev main_v119 : Ref sig .tc := ⟨.hbm, 168, rfl⟩
abbrev main_v120 : Ref sig .tc := ⟨.hbm, 169, rfl⟩
abbrev main_c_24 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_25 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_26 : Ref sig .tc := ⟨.hbm, 185, rfl⟩
abbrev main_v134 : Ref sig .tc := ⟨.hbm, 186, rfl⟩
abbrev main_cst_27 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_28 : Ref sig .tc := ⟨.hbm, 194, rfl⟩
abbrev main_v141 : Ref sig .tc := ⟨.hbm, 195, rfl⟩
abbrev main_cst_29 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_30 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_call3_cst : Ref sig .tc := ⟨.hbm, 215, rfl⟩
abbrev main_call3_v0 : Ref sig .tc := ⟨.hbm, 216, rfl⟩
abbrev main_v159 : Ref sig .tc := ⟨.hbm, 217, rfl⟩
abbrev main_cst_31 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_32 : Ref sig .tc := ⟨.hbm, 222, rfl⟩
abbrev main_v163 : Ref sig .tc := ⟨.hbm, 223, rfl⟩
abbrev main_cst_33 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_cst_34 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x8_S64x8_1_0_0_1_n_n_wf : DotDims.WF S64x128 S128x8 S64x8 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x8_S64x8_1_0_0_1_n_n : DotDims S64x128 S128x8 S64x8 where
  lhsContracting := [1]
  rhsContracting := [0]
  lhsNonContracting := [0]
  rhsNonContracting := [1]
  lhsBatch := []
  rhsBatch := []
  wf := dot_S64x128_S128x8_S64x8_1_0_0_1_n_n_wf

class Facts : Prop extends Facts₀ where

variable [Facts]
-- ==== Proof.RefRead.lean ====
import proofs.«421377_j77326591197791_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
section
variable (x0 : (⟨S50000x128, .f32⟩ : BufTy).Contents (Elt F)) (x1 : (⟨S2x600000, .i32⟩ : BufTy).Contents (Elt F)) (x2 : (⟨S50000, .i32⟩ : BufTy).Contents (Elt F)) (x3 : (⟨S128x128, .f32⟩ : BufTy).Contents (Elt F)) (x4 x5 x6 : (⟨S128, .f32⟩ : BufTy).Contents (Elt F)) (x7 : (⟨S128x128, .f32⟩ : BufTy).Contents (Elt F)) (x8 x9 x10 : (⟨S128, .f32⟩ : BufTy).Contents (Elt F)) (x11 : (⟨S128x128, .f32⟩ : BufTy).Contents (Elt F)) (x12 x13 x14 : (⟨S128, .f32⟩ : BufTy).Contents (Elt F)) (x15 : (⟨S128x8, .f32⟩ : BufTy).Contents (Elt F)) (x16 : (⟨S8, .f32⟩ : BufTy).Contents (Elt F))

def val_main_v0 : (⟨S1x600000, .i32⟩ : BufTy).Contents (Elt F) :=
  extractStridedSlice S1x600000 ![0, 0] x1 slices_S2x600000_S1x600000_0_0
def val_main_v1 : (⟨S600000, .i32⟩ : BufTy).Contents (Elt F) :=
  shapeCast _ (val_main_v0 x1) shapeCasts_S1x600000_S600000
def val_main_v2 : (⟨S1x600000, .i32⟩ : BufTy).Contents (Elt F) :=
  extractStridedSlice S1x600000 ![1, 0] x1 slices_S2x600000_S1x600000_1_0
def val_main_v3 : (⟨S600000, .i32⟩ : BufTy).Contents (Elt F) :=
  shapeCast _ (val_main_v2 x1) shapeCasts_S1x600000_S600000
def val_main_cst : (⟨S_, .f32⟩ : BufTy).Contents (Elt F) :=
  constant S_ .f32 0x3F800000#32
def val_main_v4 : (⟨S600000, .f32⟩ : BufTy).Contents (Elt F) :=
  broadcastInDim S600000 ![] bcast_S_S600000 val_main_cst
def val_main_cst_0 : (⟨S_, .f32⟩ : BufTy).Contents (Elt F) :=
  constant S_ .f32 0x00000000#32
def val_main_v5 : (⟨S50000, .f32⟩ : BufTy).Contents (Elt F) :=
  broadcastInDim S50000 ![] bcast_S_S50000 val_main_cst_0
def val_main_v6 : (⟨S600000x1, .i32⟩ : BufTy).Contents (Elt F) :=
  broadcastInDim S600000x1 ![0] bcast_S600000_S600000x1_0 (val_main_v3 x1)
def val_main_v7 : (⟨S50000, .f32⟩ : BufTy).Contents (Elt F) :=
  Host.scatterAdd scatter_S50000_S600000x1_S600000_n_0_0_1 val_main_v5 (val_main_v6 x1) val_main_v4

def val_main_v9 : (⟨S50000, .i1⟩ : BufTy).Contents (Elt F) :=
  cmpf .ogt (val_main_v7 x1) val_main_v5
def val_main_v10 : (⟨S50000, .f32⟩ : BufTy).Contents (Elt F) :=
  broadcastInDim S50000 ![] bcast_S_S50000 val_main_cst
def val_main_v11 : (⟨S50000, .f32⟩ : BufTy).Contents (Elt F) :=
  maximumf (val_main_v7 x1) val_main_v10
def val_main_v12 : (⟨S50000, .f32⟩ : BufTy).Contents (Elt F) :=
  Host.rsqrt (val_main_v11 x1)
def val_main_call0_v0 : (⟨S_, .f32⟩ : BufTy).Contents (Elt F) :=
  id val_main_cst_0
def val_main_call0_v1 : (⟨S50000, .f32⟩ : BufTy).Contents (Elt F) :=
  broadcastInDim S50000 ![] bcast_S_S50000 val_main_call0_v0
def val_main_v13 : (⟨S50000, .f32⟩ : BufTy).Contents (Elt F) :=
  select (val_main_v9 x1) (val_main_v12 x1) val_main_call0_v1
def val_main_c : (⟨S_, .i32⟩ : BufTy).Contents (Elt F) :=
  constantI S_ 32 0#32
def val_main_v14 : (⟨S600000, .i32⟩ : BufTy).Contents (Elt F) :=
  broadcastInDim S600000 ![] bcast_S_S600000 (val_main_c (F := F))
def val_main_v15 : (⟨S600000, .i1⟩ : BufTy).Contents (Elt F) :=
  cmpi .slt (val_main_v1 x1) (val_main_v14 (F := F))
def val_main_c_4 : (⟨S_, .i32⟩ : BufTy).Contents (Elt F) :=
  constantI S_ 32 50000#32
def val_main_v16 : (⟨S600000, .i32⟩ : BufTy).Contents (Elt F) :=
  broadcastInDim S600000 ![] bcast_S_S600000 (val_main_c_4 (F := F))
def val_main_v17 : (⟨S600000, .i32⟩ : BufTy).Contents (Elt F) :=
  addi (val_main_v1 x1) (val_main_v16 (F := F))
def val_main_v18 : (⟨S600000, .i32⟩ : BufTy).Contents (Elt F) :=
  select (val_main_v15 x1) (val_main_v17 x1) (val_main_v1 x1)
def val_main_v19 : (⟨S600000x1, .i32⟩ : BufTy).Contents (Elt F) :=
  broadcastInDim S600000x1 ![0] bcast_S600000_S600000x1_0 (val_main_v18 x1)
def val_main_v20 : (⟨S600000, .f32⟩ : BufTy).Contents (Elt F) :=
  Host.gather gather_S50000_S600000x1_S600000_n_0_n_n_0_1_1 (val_main_v13 x1) (val_main_v19 x1)

def val_main_v22 : (⟨S600000, .i1⟩ : BufTy).Contents (Elt F) :=
  cmpi .slt (val_main_v3 x1) (val_main_v14 (F := F))
def val_main_v24 : (⟨S600000, .i32⟩ : BufTy).Contents (Elt F) :=
  addi (val_main_v3 x1) (val_main_v16 (F := F))
def val_main_v25 : (⟨S600000, .i32⟩ : BufTy).Contents (Elt F) :=
  select (val_main_v22 x1) (val_main_v24 x1) (val_main_v3 x1)
def val_main_v26 : (⟨S600000x1, .i32⟩ : BufTy).Contents (Elt F) :=
  broadcastInDim S600000x1 ![0] bcast_S600000_S600000x1_0 (val_main_v25 x1)
def val_main_v27 : (⟨S600000, .f32⟩ : BufTy).Contents (Elt F) :=
  Host.gather gather_S50000_S600000x1_S600000_n_0_n_n_0_1_1 (val_main_v13 x1) (val_main_v26 x1)

def val_main_v28 : (⟨S50000x128, .f32⟩ : BufTy).Contents (Elt F) :=
  Host.dotGeneral dot_S50000x128_S128x128_S50000x128_1_0_0_1_n_n none x0 x3
abbrev lidx_main_v28 (i : S50000x128.Idx) (k : Fin 128) : S50000x128.Idx := fun a => match a with
  | ⟨0, _⟩ => ⟨(i 0).val, (i 0).isLt⟩
  | ⟨1, _⟩ => ⟨k.val, k.isLt⟩
abbrev ridx_main_v28 (i : S50000x128.Idx) (k : Fin 128) : S128x128.Idx := fun a => match a with
  | ⟨0, _⟩ => ⟨k.val, k.isLt⟩
  | ⟨1, _⟩ => ⟨(i 1).val, (i 1).isLt⟩

def val_main_v29 : (⟨S600000, .f32⟩ : BufTy).Contents (Elt F) :=
  mulf (val_main_v20 x1) (val_main_v27 x1)
def val_main_v30 : (⟨S600000x1, .f32⟩ : BufTy).Contents (Elt F) :=
  broadcastInDim S600000x1 ![0] bcast_S600000_S600000x1_0 (val_main_v29 x1)
def val_main_v37 : (⟨S600000x128, .f32⟩ : BufTy).Contents (Elt F) :=
  Host.gather gather_S50000x128_S600000x1_S600000x128_1_0_n_n_0_1_1128 (val_main_v28 x0 x3) (val_main_v19 x1)

def val_main_v38 : (⟨S600000x128, .f32⟩ : BufTy).Contents (Elt F) :=
  broadcastInDim S600000x128 ![0, 1] bcast_S600000x1_S600000x128_0_1 (val_main_v30 x1)
def val_main_v39 : (⟨S600000x128, .f32⟩ : BufTy).Contents (Elt F) :=
  mulf (val_main_v38 x1) (val_main_v37 x0 x1 x3)
def val_main_v40 : (⟨S50000x128, .f32⟩ : BufTy).Contents (Elt F) :=
  broadcastInDim S50000x128 ![] bcast_S_S50000x128 val_main_cst_0
def val_main_v41 : (⟨S600000x1, .i32⟩ : BufTy).Contents (Elt F) :=
  broadcastInDim S600000x1 ![0] bcast_S600000_S600000x1_0 (val_main_v3 x1)
def val_main_v42 : (⟨S50000x128, .f32⟩ : BufTy).Contents (Elt F) :=
  Host.scatterAdd scatter_S50000x128_S600000x1_S600000x128_1_0_0_1 val_main_v40 (val_main_v41 x1) (val_main_v39 x0 x1 x3)

def val_main_v43 : (⟨S1x128, .f32⟩ : BufTy).Contents (Elt F) :=
  broadcastInDim S1x128 ![1] bcast_S128_S1x128_1 x4
def val_main_v44 : (⟨S50000x128, .f32⟩ : BufTy).Contents (Elt F) :=
  broadcastInDim S50000x128 ![0, 1] bcast_S1x128_S50000x128_0_1 (val_main_v43 x4)
def val_main_v45 : (⟨S50000x128, .f32⟩ : BufTy).Contents (Elt F) :=
  addf (val_main_v42 x0 x1 x3) (val_main_v44 x4)
def val_main_v46 : (⟨S128, .f32⟩ : BufTy).Contents (Elt F) :=
  Host.reduceAdd (val_main_v45 x0 x1 x3 x4) val_main_cst_0 reducesTo_S50000x128_S128_d0 h_S_
def val_main_cst_11 : (⟨S_, .f32⟩ : BufTy).Contents (Elt F) :=
  constant S_ .f32 0x47435000#32
def val_main_v47 : (⟨S128, .f32⟩ : BufTy).Contents (Elt F) :=
  broadcastInDim S128 ![] bcast_S_S128 val_main_cst_11
def val_main_v48 : (⟨S128, .f32⟩ : BufTy).Contents (Elt F) :=
  Host.divf (val_main_v46 x0 x1 x3 x4) val_main_v47
def val_main_v49 : (⟨S1x128, .f32⟩ : BufTy).Contents (Elt F) :=
  broadcastInDim S1x128 ![1] bcast_S128_S1x128_1 (val_main_v48 x0 x1 x3 x4)
def val_main_v50 : (⟨S50000x128, .f32⟩ : BufTy).Contents (Elt F) :=
  broadcastInDim S50000x128 ![0, 1] bcast_S1x128_S50000x128_0_1 (val_main_v49 x0 x1 x3 x4)
def val_main_v51 : (⟨S50000x128, .f32⟩ : BufTy).Contents (Elt F) :=
  subf (val_main_v45 x0 x1 x3 x4) (val_main_v50 x0 x1 x3 x4)
def val_main_v52 : (⟨S50000x128, .f32⟩ : BufTy).Contents (Elt F) :=
  mulf (val_main_v51 x0 x1 x3 x4) (val_main_v51 x0 x1 x3 x4)
def val_main_v53 : (⟨S128, .f32⟩ : BufTy).Contents (Elt F) :=
  Host.reduceAdd (val_main_v52 x0 x1 x3 x4) val_main_cst_0 reducesTo_S50000x128_S128_d0 h_S_
def val_main_v54 : (⟨S128, .f32⟩ : BufTy).Contents (Elt F) :=
  broadcastInDim S128 ![] bcast_S_S128 val_main_cst_11
def val_main_v55 : (⟨S128, .f32⟩ : BufTy).Contents (Elt F) :=
  Host.divf (val_main_v53 x0 x1 x3 x4) val_main_v54
def val_main_cst_14 : (⟨S_, .f32⟩ : BufTy).Contents (Elt F) :=
  constant S_ .f32 0x3727C5AC#32
def val_main_v59 : (⟨S128, .f32⟩ : BufTy).Contents (Elt F) :=
  broadcastInDim S128 ![] bcast_S_S128 val_main_cst_14
def val_main_v60 : (⟨S128, .f32⟩ : BufTy).Contents (Elt F) :=
  addf (val_main_v55 x0 x1 x3 x4) val_main_v59
def val_main_v61 : (⟨S128, .f32⟩ : BufTy).Contents (Elt F) :=
  Host.rsqrt (val_main_v60 x0 x1 x3 x4)
def val_main_v62 : (⟨S1x128, .f32⟩ : BufTy).Contents (Elt F) :=
  broadcastInDim S1x128 ![1] bcast_S128_S1x128_1 (val_main_v61 x0 x1 x3 x4)
def val_main_v63 : (⟨S50000x128, .f32⟩ : BufTy).Contents (Elt F) :=
  broadcastInDim S50000x128 ![0, 1] bcast_S1x128_S50000x128_0_1 (val_main_v62 x0 x1 x3 x4)
def val_main_v64 : (⟨S50000x128, .f32⟩ : BufTy).Contents (Elt F) :=
  mulf (val_main_v51 x0 x1 x3 x4) (val_main_v63 x0 x1 x3 x4)
def val_main_v65 : (⟨S1x128, .f32⟩ : BufTy).Contents (Elt F) :=
  broadcastInDim S1x128 ![1] bcast_S128_S1x128_1 x5
def val_main_v66 : (⟨S50000x128, .f32⟩ : BufTy).Contents (Elt F) :=
  broadcastInDim S50000x128 ![0, 1] bcast_S1x128_S50000x128_0_1 (val_main_v65 x5)
def val_main_v67 : (⟨S50000x128, .f32⟩ : BufTy).Contents (Elt F) :=
  mulf (val_main_v64 x0 x1 x3 x4) (val_main_v66 x5)
def val_main_v68 : (⟨S1x128, .f32⟩ : BufTy).Contents (Elt F) :=
  broadcastInDim S1x128 ![1] bcast_S128_S1x128_1 x6
def val_main_v69 : (⟨S50000x128, .f32⟩ : BufTy).Contents (Elt F) :=
  broadcastInDim S50000x128 ![0, 1] bcast_S1x128_S50000x128_0_1 (val_main_v68 x6)
def val_main_v70 : (⟨S50000x128, .f32⟩ : BufTy).Contents (Elt F) :=
  addf (val_main_v67 x0 x1 x3 x4 x5) (val_main_v69 x6)
def val_main_call1_v0 : (⟨S50000x128, .f32⟩ : BufTy).Contents (Elt F) :=
  broadcastInDim S50000x128 ![] bcast_S_S50000x128 val_main_cst_0
def val_main_v71 : (⟨S50000x128, .f32⟩ : BufTy).Contents (Elt F) :=
  maximumf (val_main_v70 x0 x1 x3 x4 x5 x6) val_main_call1_v0
def val_main_v72 : (⟨S50000x128, .f32⟩ : BufTy).Contents (Elt F) :=
  Host.dotGeneral dot_S50000x128_S128x128_S50000x128_1_0_0_1_n_n none (val_main_v71 x0 x1 x3 x4 x5 x6) x7
def val_main_v81 : (⟨S600000x128, .f32⟩ : BufTy).Contents (Elt F) :=
  Host.gather gather_S50000x128_S600000x1_S600000x128_1_0_n_n_0_1_1128 (val_main_v72 x0 x1 x3 x4 x5 x6 x7) (val_main_v19 x1)

def val_main_v83 : (⟨S600000x128, .f32⟩ : BufTy).Contents (Elt F) :=
  mulf (val_main_v38 x1) (val_main_v81 x0 x1 x3 x4 x5 x6 x7)
def val_main_v84 : (⟨S50000x128, .f32⟩ : BufTy).Contents (Elt F) :=
  broadcastInDim S50000x128 ![] bcast_S_S50000x128 val_main_cst_0
def val_main_v85 : (⟨S600000x1, .i32⟩ : BufTy).Contents (Elt F) :=
  broadcastInDim S600000x1 ![0] bcast_S600000_S600000x1_0 (val_main_v3 x1)
def val_main_v86 : (⟨S50000x128, .f32⟩ : BufTy).Contents (Elt F) :=
  Host.scatterAdd scatter_S50000x128_S600000x1_S600000x128_1_0_0_1 val_main_v84 (val_main_v85 x1) (val_main_v83 x0 x1 x3 x4 x5 x6 x7)

def val_main_v87 : (⟨S1x128, .f32⟩ : BufTy).Contents (Elt F) :=
  broadcastInDim S1x128 ![1] bcast_S128_S1x128_1 x8
def val_main_v88 : (⟨S50000x128, .f32⟩ : BufTy).Contents (Elt F) :=
  broadcastInDim S50000x128 ![0, 1] bcast_S1x128_S50000x128_0_1 (val_main_v87 x8)
def val_main_v89 : (⟨S50000x128, .f32⟩ : BufTy).Contents (Elt F) :=
  addf (val_main_v86 x0 x1 x3 x4 x5 x6 x7) (val_main_v88 x8)
def val_main_v90 : (⟨S128, .f32⟩ : BufTy).Contents (Elt F) :=
  Host.reduceAdd (val_main_v89 x0 x1 x3 x4 x5 x6 x7 x8) val_main_cst_0 reducesTo_S50000x128_S128_d0 h_S_
def val_main_v91 : (⟨S128, .f32⟩ : BufTy).Contents (Elt F) :=
  broadcastInDim S128 ![] bcast_S_S128 val_main_cst_11
def val_main_v92 : (⟨S128, .f32⟩ : BufTy).Contents (Elt F) :=
  Host.divf (val_main_v90 x0 x1 x3 x4 x5 x6 x7 x8) val_main_v91
def val_main_v93 : (⟨S1x128, .f32⟩ : BufTy).Contents (Elt F) :=
  broadcastInDim S1x128 ![1] bcast_S128_S1x128_1 (val_main_v92 x0 x1 x3 x4 x5 x6 x7 x8)
def val_main_v94 : (⟨S50000x128, .f32⟩ : BufTy).Contents (Elt F) :=
  broadcastInDim S50000x128 ![0, 1] bcast_S1x128_S50000x128_0_1 (val_main_v93 x0 x1 x3 x4 x5 x6 x7 x8)
def val_main_v95 : (⟨S50000x128, .f32⟩ : BufTy).Contents (Elt F) :=
  subf (val_main_v89 x0 x1 x3 x4 x5 x6 x7 x8) (val_main_v94 x0 x1 x3 x4 x5 x6 x7 x8)
def val_main_v96 : (⟨S50000x128, .f32⟩ : BufTy).Contents (Elt F) :=
  mulf (val_main_v95 x0 x1 x3 x4 x5 x6 x7 x8) (val_main_v95 x0 x1 x3 x4 x5 x6 x7 x8)
def val_main_v97 : (⟨S128, .f32⟩ : BufTy).Contents (Elt F) :=
  Host.reduceAdd (val_main_v96 x0 x1 x3 x4 x5 x6 x7 x8) val_main_cst_0 reducesTo_S50000x128_S128_d0 h_S_
def val_main_v98 : (⟨S128, .f32⟩ : BufTy).Contents (Elt F) :=
  broadcastInDim S128 ![] bcast_S_S128 val_main_cst_11
def val_main_v99 : (⟨S128, .f32⟩ : BufTy).Contents (Elt F) :=
  Host.divf (val_main_v97 x0 x1 x3 x4 x5 x6 x7 x8) val_main_v98
def val_main_v103 : (⟨S128, .f32⟩ : BufTy).Contents (Elt F) :=
  broadcastInDim S128 ![] bcast_S_S128 val_main_cst_14
def val_main_v104 : (⟨S128, .f32⟩ : BufTy).Contents (Elt F) :=
  addf (val_main_v99 x0 x1 x3 x4 x5 x6 x7 x8) val_main_v103
def val_main_v105 : (⟨S128, .f32⟩ : BufTy).Contents (Elt F) :=
  Host.rsqrt (val_main_v104 x0 x1 x3 x4 x5 x6 x7 x8)
def val_main_v106 : (⟨S1x128, .f32⟩ : BufTy).Contents (Elt F) :=
  broadcastInDim S1x128 ![1] bcast_S128_S1x128_1 (val_main_v105 x0 x1 x3 x4 x5 x6 x7 x8)
def val_main_v107 : (⟨S50000x128, .f32⟩ : BufTy).Contents (Elt F) :=
  broadcastInDim S50000x128 ![0, 1] bcast_S1x128_S50000x128_0_1 (val_main_v106 x0 x1 x3 x4 x5 x6 x7 x8)
def val_main_v108 : (⟨S50000x128, .f32⟩ : BufTy).Contents (Elt F) :=
  mulf (val_main_v95 x0 x1 x3 x4 x5 x6 x7 x8) (val_main_v107 x0 x1 x3 x4 x5 x6 x7 x8)
def val_main_v109 : (⟨S1x128, .f32⟩ : BufTy).Contents (Elt F) :=
  broadcastInDim S1x128 ![1] bcast_S128_S1x128_1 x9
def val_main_v110 : (⟨S50000x128, .f32⟩ : BufTy).Contents (Elt F) :=
  broadcastInDim S50000x128 ![0, 1] bcast_S1x128_S50000x128_0_1 (val_main_v109 x9)
def val_main_v111 : (⟨S50000x128, .f32⟩ : BufTy).Contents (Elt F) :=
  mulf (val_main_v108 x0 x1 x3 x4 x5 x6 x7 x8) (val_main_v110 x9)
def val_main_v112 : (⟨S1x128, .f32⟩ : BufTy).Contents (Elt F) :=
  broadcastInDim S1x128 ![1] bcast_S128_S1x128_1 x10
def val_main_v113 : (⟨S50000x128, .f32⟩ : BufTy).Contents (Elt F) :=
  broadcastInDim S50000x128 ![0, 1] bcast_S1x128_S50000x128_0_1 (val_main_v112 x10)
def val_main_v114 : (⟨S50000x128, .f32⟩ : BufTy).Contents (Elt F) :=
  addf (val_main_v111 x0 x1 x3 x4 x5 x6 x7 x8 x9) (val_main_v113 x10)
def val_main_call2_v0 : (⟨S50000x128, .f32⟩ : BufTy).Contents (Elt F) :=
  broadcastInDim S50000x128 ![] bcast_S_S50000x128 val_main_cst_0
def val_main_v115 : (⟨S50000x128, .f32⟩ : BufTy).Contents (Elt F) :=
  maximumf (val_main_v114 x0 x1 x3 x4 x5 x6 x7 x8 x9 x10) val_main_call2_v0
def val_main_v116 : (⟨S50000x128, .f32⟩ : BufTy).Contents (Elt F) :=
  Host.dotGeneral dot_S50000x128_S128x128_S50000x128_1_0_0_1_n_n none (val_main_v115 x0 x1 x3 x4 x5 x6 x7 x8 x9 x10) x11
def val_main_v125 : (⟨S600000x128, .f32⟩ : BufTy).Contents (Elt F) :=
  Host.gather gather_S50000x128_S600000x1_S600000x128_1_0_n_n_0_1_1128 (val_main_v116 x0 x1 x3 x4 x5 x6 x7 x8 x9 x10 x11) (val_main_v19 x1)

def val_main_v127 : (⟨S600000x128, .f32⟩ : BufTy).Contents (Elt F) :=
  mulf (val_main_v38 x1) (val_main_v125 x0 x1 x3 x4 x5 x6 x7 x8 x9 x10 x11)
def val_main_v128 : (⟨S50000x128, .f32⟩ : BufTy).Contents (Elt F) :=
  broadcastInDim S50000x128 ![] bcast_S_S50000x128 val_main_cst_0
def val_main_v129 : (⟨S600000x1, .i32⟩ : BufTy).Contents (Elt F) :=
  broadcastInDim S600000x1 ![0] bcast_S600000_S600000x1_0 (val_main_v3 x1)
def val_main_v130 : (⟨S50000x128, .f32⟩ : BufTy).Contents (Elt F) :=
  Host.scatterAdd scatter_S50000x128_S600000x1_S600000x128_1_0_0_1 val_main_v128 (val_main_v129 x1) (val_main_v127 x0 x1 x3 x4 x5 x6 x7 x8 x9 x10 x11)

def val_main_v131 : (⟨S1x128, .f32⟩ : BufTy).Contents (Elt F) :=
  broadcastInDim S1x128 ![1] bcast_S128_S1x128_1 x12
def val_main_v132 : (⟨S50000x128, .f32⟩ : BufTy).Contents (Elt F) :=
  broadcastInDim S50000x128 ![0, 1] bcast_S1x128_S50000x128_0_1 (val_main_v131 x12)
def val_main_v133 : (⟨S50000x128, .f32⟩ : BufTy).Contents (Elt F) :=
  addf (val_main_v130 x0 x1 x3 x4 x5 x6 x7 x8 x9 x10 x11) (val_main_v132 x12)
def val_main_v134 : (⟨S128, .f32⟩ : BufTy).Contents (Elt F) :=
  Host.reduceAdd (val_main_v133 x0 x1 x3 x4 x5 x6 x7 x8 x9 x10 x11 x12) val_main_cst_0 reducesTo_S50000x128_S128_d0 h_S_
def val_main_v136 : (⟨S128, .f32⟩ : BufTy).Contents (Elt F) :=
  Host.divf (val_main_v134 x0 x1 x3 x4 x5 x6 x7 x8 x9 x10 x11 x12) val_main_v47
def val_main_v137 : (⟨S1x128, .f32⟩ : BufTy).Contents (Elt F) :=
  broadcastInDim S1x128 ![1] bcast_S128_S1x128_1 (val_main_v136 x0 x1 x3 x4 x5 x6 x7 x8 x9 x10 x11 x12)
def val_main_v138 : (⟨S50000x128, .f32⟩ : BufTy).Contents (Elt F) :=
  broadcastInDim S50000x128 ![0, 1] bcast_S1x128_S50000x128_0_1 (val_main_v137 x0 x1 x3 x4 x5 x6 x7 x8 x9 x10 x11 x12)
def val_main_v139 : (⟨S50000x128, .f32⟩ : BufTy).Contents (Elt F) :=
  subf (val_main_v133 x0 x1 x3 x4 x5 x6 x7 x8 x9 x10 x11 x12) (val_main_v138 x0 x1 x3 x4 x5 x6 x7 x8 x9 x10 x11 x12)
def val_main_v140 : (⟨S50000x128, .f32⟩ : BufTy).Contents (Elt F) :=
  mulf (val_main_v139 x0 x1 x3 x4 x5 x6 x7 x8 x9 x10 x11 x12) (val_main_v139 x0 x1 x3 x4 x5 x6 x7 x8 x9 x10 x11 x12)
def val_main_v141 : (⟨S128, .f32⟩ : BufTy).Contents (Elt F) :=
  Host.reduceAdd (val_main_v140 x0 x1 x3 x4 x5 x6 x7 x8 x9 x10 x11 x12) val_main_cst_0 reducesTo_S50000x128_S128_d0 h_S_
def val_main_v143 : (⟨S128, .f32⟩ : BufTy).Contents (Elt F) :=
  Host.divf (val_main_v141 x0 x1 x3 x4 x5 x6 x7 x8 x9 x10 x11 x12) val_main_v47
def val_main_v148 : (⟨S128, .f32⟩ : BufTy).Contents (Elt F) :=
  addf (val_main_v143 x0 x1 x3 x4 x5 x6 x7 x8 x9 x10 x11 x12) val_main_v59
def val_main_v149 : (⟨S128, .f32⟩ : BufTy).Contents (Elt F) :=
  Host.rsqrt (val_main_v148 x0 x1 x3 x4 x5 x6 x7 x8 x9 x10 x11 x12)
def val_main_v150 : (⟨S1x128, .f32⟩ : BufTy).Contents (Elt F) :=
  broadcastInDim S1x128 ![1] bcast_S128_S1x128_1 (val_main_v149 x0 x1 x3 x4 x5 x6 x7 x8 x9 x10 x11 x12)
def val_main_v151 : (⟨S50000x128, .f32⟩ : BufTy).Contents (Elt F) :=
  broadcastInDim S50000x128 ![0, 1] bcast_S1x128_S50000x128_0_1 (val_main_v150 x0 x1 x3 x4 x5 x6 x7 x8 x9 x10 x11 x12)
def val_main_v152 : (⟨S50000x128, .f32⟩ : BufTy).Contents (Elt F) :=
  mulf (val_main_v139 x0 x1 x3 x4 x5 x6 x7 x8 x9 x10 x11 x12) (val_main_v151 x0 x1 x3 x4 x5 x6 x7 x8 x9 x10 x11 x12)
def val_main_v153 : (⟨S1x128, .f32⟩ : BufTy).Contents (Elt F) :=
  broadcastInDim S1x128 ![1] bcast_S128_S1x128_1 x13
def val_main_v154 : (⟨S50000x128, .f32⟩ : BufTy).Contents (Elt F) :=
  broadcastInDim S50000x128 ![0, 1] bcast_S1x128_S50000x128_0_1 (val_main_v153 x13)
def val_main_v155 : (⟨S50000x128, .f32⟩ : BufTy).Contents (Elt F) :=
  mulf (val_main_v152 x0 x1 x3 x4 x5 x6 x7 x8 x9 x10 x11 x12) (val_main_v154 x13)
def val_main_v156 : (⟨S1x128, .f32⟩ : BufTy).Contents (Elt F) :=
  broadcastInDim S1x128 ![1] bcast_S128_S1x128_1 x14
def val_main_v157 : (⟨S50000x128, .f32⟩ : BufTy).Contents (Elt F) :=
  broadcastInDim S50000x128 ![0, 1] bcast_S1x128_S50000x128_0_1 (val_main_v156 x14)
def val_main_v158 : (⟨S50000x128, .f32⟩ : BufTy).Contents (Elt F) :=
  addf (val_main_v155 x0 x1 x3 x4 x5 x6 x7 x8 x9 x10 x11 x12 x13) (val_main_v157 x14)
def val_main_call3_v0 : (⟨S50000x128, .f32⟩ : BufTy).Contents (Elt F) :=
  broadcastInDim S50000x128 ![] bcast_S_S50000x128 val_main_cst_0
def val_main_v159 : (⟨S50000x128, .f32⟩ : BufTy).Contents (Elt F) :=
  maximumf (val_main_v158 x0 x1 x3 x4 x5 x6 x7 x8 x9 x10 x11 x12 x13 x14) val_main_call3_v0
def val_main_cst_31 : (⟨S_, .f32⟩ : BufTy).Contents (Elt F) :=
  constant S_ .f32 0x00000000#32
theorem val_main_cst_31_apply (i : S_.Idx) :
    val_main_cst_31 (F := F) i = FloatOps.ofBits .f32 0x00000000#32 := rfl

def val_main_v160 : (⟨S64x128, .f32⟩ : BufTy).Contents (Elt F) :=
  broadcastInDim S64x128 ![] bcast_S_S64x128 val_main_cst_31
abbrev idx_main_v160 (i : S64x128.Idx) : S_.Idx := fun a => a.elim0
theorem val_main_v160_apply (i : S64x128.Idx) :
    val_main_v160 (F := F) i = val_main_cst_31 (F := F) (idx_main_v160 i) :=
  broadcastInDim_apply _ bcast_S_S64x128 _ i _ fun a => a.elim0

def val_main_v161 : (⟨S50000x1, .i32⟩ : BufTy).Contents (Elt F) :=
  broadcastInDim S50000x1 ![0] bcast_S50000_S50000x1_0 x2
abbrev idx_main_v161 (i : S50000x1.Idx) : S50000.Idx := fun a => match a with
  | ⟨0, _⟩ => ⟨(i 0).val, (i 0).isLt⟩
theorem val_main_v161_apply (i : S50000x1.Idx) :
    val_main_v161 x2 i = x2 (idx_main_v161 i) :=
  broadcastInDim_apply _ bcast_S50000_S50000x1_0 _ i _ fun a => match a with | ⟨0, _⟩ => rfl

def val_main_v162 : (⟨S64x128, .f32⟩ : BufTy).Contents (Elt F) :=
  Host.scatterAdd scatter_S64x128_S50000x1_S50000x128_1_0_0_1 val_main_v160 (val_main_v161 x2) (val_main_v159 x0 x1 x3 x4 x5 x6 x7 x8 x9 x10 x11 x12 x13 x14)

def val_main_cst_32 : (⟨S_, .f32⟩ : BufTy).Contents (Elt F) :=
  constant S_ .f32 0x3F800000#32
theorem val_main_cst_32_apply (i : S_.Idx) :
    val_main_cst_32 (F := F) i = FloatOps.ofBits .f32 0x3F800000#32 := rfl

def val_main_v163 : (⟨S50000, .f32⟩ : BufTy).Contents (Elt F) :=
  broadcastInDim S50000 ![] bcast_S_S50000 val_main_cst_32
abbrev idx_main_v163 (i : S50000.Idx) : S_.Idx := fun a => a.elim0
theorem val_main_v163_apply (i : S50000.Idx) :
    val_main_v163 (F := F) i = val_main_cst_32 (F := F) (idx_main_v163 i) :=
  broadcastInDim_apply _ bcast_S_S50000 _ i _ fun a => a.elim0

def val_main_cst_33 : (⟨S_, .f32⟩ : BufTy).Contents (Elt F) :=
  constant S_ .f32 0x00000000#32
theorem val_main_cst_33_apply (i : S_.Idx) :
    val_main_cst_33 (F := F) i = FloatOps.ofBits .f32 0x00000000#32 := rfl

def val_main_v164 : (⟨S64, .f32⟩ : BufTy).Contents (Elt F) :=
  broadcastInDim S64 ![] bcast_S_S64 val_main_cst_33
abbrev idx_main_v164 (i : S64.Idx) : S_.Idx := fun a => a.elim0
theorem val_main_v164_apply (i : S64.Idx) :
    val_main_v164 (F := F) i = val_main_cst_33 (F := F) (idx_main_v164 i) :=
  broadcastInDim_apply _ bcast_S_S64 _ i _ fun a => a.elim0

def val_main_v165 : (⟨S50000x1, .i32⟩ : BufTy).Contents (Elt F) :=
  broadcastInDim S50000x1 ![0] bcast_S50000_S50000x1_0 x2
abbrev idx_main_v165 (i : S50000x1.Idx) : S50000.Idx := fun a => match a with
  | ⟨0, _⟩ => ⟨(i 0).val, (i 0).isLt⟩
theorem val_main_v165_apply (i : S50000x1.Idx) :
    val_main_v165 x2 i = x2 (idx_main_v165 i) :=
  val_main_v161_apply x2 i

def val_main_v166 : (⟨S64, .f32⟩ : BufTy).Contents (Elt F) :=
  Host.scatterAdd scatter_S64_S50000x1_S50000_n_0_0_1 val_main_v164 (val_main_v165 x2) val_main_v163

def val_main_cst_34 : (⟨S_, .f32⟩ : BufTy).Contents (Elt F) :=
  constant S_ .f32 0x3F800000#32
theorem val_main_cst_34_apply (i : S_.Idx) :
    val_main_cst_34 (F := F) i = FloatOps.ofBits .f32 0x3F800000#32 := rfl

def val_main_v167 : (⟨S64, .f32⟩ : BufTy).Contents (Elt F) :=
  broadcastInDim S64 ![] bcast_S_S64 val_main_cst_34
abbrev idx_main_v167 (i : S64.Idx) : S_.Idx := fun a => a.elim0
theorem val_main_v167_apply (i : S64.Idx) :
    val_main_v167 (F := F) i = val_main_cst_34 (F := F) (idx_main_v167 i) :=
  broadcastInDim_apply _ bcast_S_S64 _ i _ fun a => a.elim0

def val_main_v168 : (⟨S64, .f32⟩ : BufTy).Contents (Elt F) :=
  maximumf (val_main_v166 x2) val_main_v167
theorem val_main_v168_apply (i : S64.Idx) :
    val_main_v168 x2 i = FloatOps.maximumf (val_main_v166 x2 i) (val_main_v167 (F := F) i) := rfl

def val_main_v169 : (⟨S64x1, .f32⟩ : BufTy).Contents (Elt F) :=
  broadcastInDim S64x1 ![0] bcast_S64_S64x1_0 (val_main_v168 x2)
abbrev idx_main_v169 (i : S64x1.Idx) : S64.Idx := fun a => match a with
  | ⟨0, _⟩ => ⟨(i 0).val, (i 0).isLt⟩
theorem val_main_v169_apply (i : S64x1.Idx) :
    val_main_v169 x2 i = val_main_v168 x2 (idx_main_v169 i) :=
  broadcastInDim_apply _ bcast_S64_S64x1_0 _ i _ fun a => match a with | ⟨0, _⟩ => rfl

def val_main_v170 : (⟨S64x128, .f32⟩ : BufTy).Contents (Elt F) :=
  broadcastInDim S64x128 ![0, 1] bcast_S64x1_S64x128_0_1 (val_main_v169 x2)
abbrev idx_main_v170 (i : S64x128.Idx) : S64x1.Idx := fun a => match a with
  | ⟨0, _⟩ => ⟨(i 0).val, (i 0).isLt⟩
  | ⟨1, _⟩ => ⟨0, Nat.one_pos⟩
theorem val_main_v170_apply (i : S64x128.Idx) :
    val_main_v170 x2 i = val_main_v169 x2 (idx_main_v170 i) :=
  broadcastInDim_apply _ bcast_S64x1_S64x128_0_1 _ i _ fun a => match a with | ⟨0, _⟩ => rfl | ⟨1, _⟩ => rfl

def val_main_v171 : (⟨S64x128, .f32⟩ : BufTy).Contents (Elt F) :=
  Host.divf (val_main_v162 x0 x1 x2 x3 x4 x5 x6 x7 x8 x9 x10 x11 x12 x13 x14) (val_main_v170 x2)
theorem val_main_v171_apply (i : S64x128.Idx) :
    val_main_v171 x0 x1 x2 x3 x4 x5 x6 x7 x8 x9 x10 x11 x12 x13 x14 i = FloatOps.hostDivf (val_main_v162 x0 x1 x2 x3 x4 x5 x6 x7 x8 x9 x10 x11 x12 x13 x14 i) (val_main_v170 x2 i) := rfl

def val_main_v172 : (⟨S64x8, .f32⟩ : BufTy).Contents (Elt F) :=
  Host.dotGeneral dot_S64x128_S128x8_S64x8_1_0_0_1_n_n none (val_main_v171 x0 x1 x2 x3 x4 x5 x6 x7 x8 x9 x10 x11 x12 x13 x14) x15
abbrev lidx_main_v172 (i : S64x8.Idx) (k : Fin 128) : S64x128.Idx := fun a => match a with
  | ⟨0, _⟩ => ⟨(i 0).val, (i 0).isLt⟩
  | ⟨1, _⟩ => ⟨k.val, k.isLt⟩
abbrev ridx_main_v172 (i : S64x8.Idx) (k : Fin 128) : S128x8.Idx := fun a => match a with
  | ⟨0, _⟩ => ⟨k.val, k.isLt⟩
  | ⟨1, _⟩ => ⟨(i 1).val, (i 1).isLt⟩

def val_main_v173 : (⟨S1x8, .f32⟩ : BufTy).Contents (Elt F) :=
  broadcastInDim S1x8 ![1] bcast_S8_S1x8_1 x16
abbrev idx_main_v173 (i : S1x8.Idx) : S8.Idx := fun a => match a with
  | ⟨0, _⟩ => ⟨(i 1).val, (i 1).isLt⟩
theorem val_main_v173_apply (i : S1x8.Idx) :
    val_main_v173 x16 i = x16 (idx_main_v173 i) :=
  broadcastInDim_apply _ bcast_S8_S1x8_1 _ i _ fun a => match a with | ⟨0, _⟩ => rfl

def val_main_v174 : (⟨S64x8, .f32⟩ : BufTy).Contents (Elt F) :=
  broadcastInDim S64x8 ![0, 1] bcast_S1x8_S64x8_0_1 (val_main_v173 x16)
abbrev idx_main_v174 (i : S64x8.Idx) : S1x8.Idx := fun a => match a with
  | ⟨0, _⟩ => ⟨0, Nat.one_pos⟩
  | ⟨1, _⟩ => ⟨(i 1).val, (i 1).isLt⟩
theorem val_main_v174_apply (i : S64x8.Idx) :
    val_main_v174 x16 i = val_main_v173 x16 (idx_main_v174 i) :=
  broadcastInDim_apply _ bcast_S1x8_S64x8_0_1 _ i _ fun a => match a with | ⟨0, _⟩ => rfl | ⟨1, _⟩ => rfl

def val_main_v175 : (⟨S64x8, .f32⟩ : BufTy).Contents (Elt F) :=
  addf (val_main_v172 x0 x1 x2 x3 x4 x5 x6 x7 x8 x9 x10 x11 x12 x13 x14 x15) (val_main_v174 x16)
theorem val_main_v175_apply (i : S64x8.Idx) :
    val_main_v175 x0 x1 x2 x3 x4 x5 x6 x7 x8 x9 x10 x11 x12 x13 x14 x15 x16 i = FloatOps.addf (val_main_v172 x0 x1 x2 x3 x4 x5 x6 x7 x8 x9 x10 x11 x12 x13 x14 x15 i) (val_main_v174 x16 i) := rfl
end

section
variable (x0 : (⟨S50000x128, .f32⟩ : BufTy).Contents (Elt Ideal)) (x1 : (⟨S2x600000, .i32⟩ : BufTy).Contents (Elt Ideal)) (x2 : (⟨S50000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x128, .f32⟩ : BufTy).Contents (Elt Ideal)) (x12 x13 x14 : (⟨S128, .f32⟩ : BufTy).Contents (Elt Ideal)) (x15 : (⟨S128x8, .f32⟩ : BufTy).Contents (Elt Ideal)) (x16 : (⟨S8, .f32⟩ : BufTy).Contents (Elt Ideal))
theorem val_main_v28_apply (i : S50000x128.Idx) :
    val_main_v28 x0 x3 i = ∑ k : Fin 128, x0 (lidx_main_v28 i k) * x3 (ridx_main_v28 i k) := by
  unfold val_main_v28
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  congr 2
  · exact funext fun a => Fin.ext (by match a with | ⟨0, _⟩ => rfl | ⟨1, _⟩ => exact hk)
  · exact funext fun a => Fin.ext (by match a with | ⟨0, _⟩ => exact hk | ⟨1, _⟩ => rfl)
theorem val_main_v172_apply (i : S64x8.Idx) :
    val_main_v172 x0 x1 x2 x3 x4 x5 x6 x7 x8 x9 x10 x11 x12 x13 x14 x15 i = ∑ k : Fin 128, (val_main_v171 x0 x1 x2 x3 x4 x5 x6 x7 x8 x9 x10 x11 x12 x13 x14) (lidx_main_v172 i k) * x15 (ridx_main_v172 i k) := by
  unfold val_main_v172
  simp only [Host.dotGeneral]
  rw [Ideal.dotGeneral_apply, ← Equiv.sum_comp (ValueIdx.contrEquiv1 dot_S64x128_S128x8_S64x8_1_0_0_1_n_n 128 rfl rfl).symm]
  refine Finset.sum_congr rfl fun k _ => ?_
  have hk := ValueIdx.contrEquiv1_symm_val dot_S64x128_S128x8_S64x8_1_0_0_1_n_n 128 rfl rfl k
  congr 2
  · exact funext fun a => Fin.ext (by match a with | ⟨0, _⟩ => rfl | ⟨1, _⟩ => exact hk)
  · exact funext fun a => Fin.ext (by match a with | ⟨0, _⟩ => exact hk | ⟨1, _⟩ => rfl)
end

end Cert.ReferenceIdeal.ReadP

end
-- ==== Proof.Val.RefVal.lean ====
import proofs.«421377_j77326591197791_1_alg».proof.Proof.RefRun
import proofs.«421377_j77326591197791_1_alg».proof.Proof.RefRead
import Idealize.ShloMosaic.Lib.StableHlo.Run
import Idealize.ShloMosaic.Lib.Pipeline.Frame
import Mathlib.Data.List.Forall2

noncomputable section

namespace Cert.ReferenceIdeal.RefVal
open Cert.ReferenceIdeal Cert.ReferenceIdeal.Gen Idealize.ShloMosaic Idealize.ShloMosaic.TcCoe Idealize.SL.Sem Idealize.ShloMosaic.StableHlo
variable {F : FTy → Type} [FloatOps F] {W V : Valuation τ sig (Elt F)} {l : List (HloOp τ sig (Elt F))} {ks : List Nat}

/-- The operations of `l` write, one reference each and in order, the references whose indices are `ks`. -/
def Writes (l : List (HloOp τ sig (Elt F))) (ks : List Nat) : Prop :=
  List.Forall₂ (fun op k => ∃ r : Ref sig .tc, op.writes = {Proc.devRef .tc r} ∧ r.idx.val = k) l ks

theorem Writes.seg (h : Writes l ks) (a b : Nat) : Writes ((l.drop a).take b) ((ks.drop a).take b) :=
  List.forall₂_take b (List.forall₂_drop a h)

/-- A reference whose index is below every written index keeps its contents. -/
theorem Writes.keep (h : Writes l ks) {n : Nat} (hk : ∀ k ∈ ks, n ≤ k) {r : Ref sig .tc} (hr : r.idx.val < n) :
    after l V (Proc.devRef .tc r) = V (Proc.devRef .tc r) := by
  induction h generalizing V with
  | nil => rfl
  | cons hd _ ih =>
    obtain ⟨y, hw, hy⟩ := hd
    rw [after_cons, ih fun k hm => hk k (List.mem_cons_of_mem _ hm), HloOp.result_of_not_mem]
    rw [hw, Finset.mem_singleton]
    intro e
    rw [Proc.devRef_injective _ e, hy] at hr
    exact Nat.not_le.2 hr (hk _ List.mem_cons_self)

/-- The `k`-th operation writes the reference of index `17 + k`: the seventeen arguments come first. -/
theorem ops_writes : Writes (RunP.ops (F := F)) (List.range' 17 221) := by
  unfold Writes
  repeat' first | exact List.Forall₂.nil | refine List.Forall₂.cons ⟨_, rfl, rfl⟩ ?_

theorem after_drop (n : Nat) : after l V = after (l.drop n) (after (l.take n) V) := by
  rw [← after_append, List.take_append_drop]

theorem after_seg (a b : Nat) : after (l.drop a) V = after (l.drop (a + b)) (after ((l.drop a).take b) V) := by
  rw [after_drop (l := l.drop a) b, List.drop_drop]

/-- `W` holds `V`'s arguments and the four edge vectors computed from `V`'s edge list. -/
def E (W V : Valuation τ sig (Elt F)) : Prop :=
  (∀ r : Ref sig .tc, r.idx.val < 17 → W (Proc.devRef .tc r) = V (Proc.devRef .tc r)) ∧
  W (Proc.devRef .tc main_v20) = ReadP.val_main_v20 (V (Proc.devRef .tc main_arg1)) ∧
  W (Proc.devRef .tc main_v27) = ReadP.val_main_v27 (V (Proc.devRef .tc main_arg1)) ∧
  W (Proc.devRef .tc main_v1) = ReadP.val_main_v1 (V (Proc.devRef .tc main_arg1)) ∧
  W (Proc.devRef .tc main_v3) = ReadP.val_main_v3 (V (Proc.devRef .tc main_arg1))

theorem E.one (V : Valuation τ sig (Elt F)) : E (after (RunP.ops.take 39) V) V := by
  refine ⟨fun r hr => (ops_writes.seg 0 39).keep (by decide) hr, ?_⟩
  simp only [RunP.ops, List.take_succ_cons, List.take_zero]
  refine ⟨?_, ?_, ?_, ?_⟩ <;> (after_results_simp; rfl)

/-- Operations that write only references of index 56 and above leave `E` alone. -/
theorem E.step (h : E W V) (hl : Writes l ks) (hk : ∀ k ∈ ks, 56 ≤ k) : E (after l W) V :=
  ⟨fun r hr => (hl.keep hk (Nat.lt_trans hr (by decide))).trans (h.1 r hr),
    (hl.keep hk (by decide)).trans h.2.1, (hl.keep hk (by decide)).trans h.2.2.1,
    (hl.keep hk (by decide)).trans h.2.2.2.1, (hl.keep hk (by decide)).trans h.2.2.2.2⟩

def r71 (V : Valuation τ sig (Elt F)) := ReadP.val_main_v71 (V (Proc.devRef .tc main_arg0)) (V (Proc.devRef .tc main_arg1)) (V (Proc.devRef .tc main_arg3)) (V (Proc.devRef .tc main_arg4)) (V (Proc.devRef .tc main_arg5)) (V (Proc.devRef .tc main_arg6))
def r115 (V : Valuation τ sig (Elt F)) := ReadP.val_main_v115 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
def r159 (V : Valuation τ sig (Elt F)) := ReadP.val_main_v159 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))

theorem c2 (h : E W V) : after ((RunP.ops.drop 39).take 54) W (Proc.devRef .tc main_v71) = r71 V := by
  simp only [RunP.ops, List.drop_succ_cons, List.drop_zero, List.take_succ_cons, List.take_zero]
  after_results_simp
  rw [h.1 main_arg0 (by decide), h.1 main_arg3 (by decide), h.1 main_arg4 (by decide), h.1 main_arg5 (by decide), h.1 main_arg6 (by decide), h.2.1, h.2.2.1, h.2.2.2.1, h.2.2.2.2]
  rfl

theorem c3 (h : E W V) (hp : W (Proc.devRef .tc main_v71) = r71 V) :
    after ((RunP.ops.drop 93).take 54) W (Proc.devRef .tc main_v115) = r115 V := by
  simp only [RunP.ops, List.drop_succ_cons, List.drop_zero, List.take_succ_cons, List.take_zero]
  after_results_simp
  rw [hp, h.1 main_arg7 (by decide), h.1 main_arg8 (by decide), h.1 main_arg9 (by decide), h.1 main_arg10 (by decide), h.2.1, h.2.2.1, h.2.2.2.1, h.2.2.2.2]
  rfl

theorem c4 (h : E W V) (hp : W (Proc.devRef .tc main_v115) = r115 V) :
    after ((RunP.ops.drop 147).take 54) W (Proc.devRef .tc main_v159) = r159 V := by
  simp only [RunP.ops, List.drop_succ_cons, List.drop_zero, List.take_succ_cons, List.take_zero]
  after_results_simp
  rw [hp, h.1 main_arg11 (by decide), h.1 main_arg12 (by decide), h.1 main_arg13 (by decide), h.1 main_arg14 (by decide), h.2.1, h.2.2.1, h.2.2.2.1, h.2.2.2.2]
  rfl

theorem c5 (h : E W V) (hp : W (Proc.devRef .tc main_v159) = r159 V) :
    after (RunP.ops.drop 201) W (Proc.devRef .tc main_v175) = ReadP.val_main_v175 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp only [RunP.ops, List.drop_succ_cons, List.drop_zero]
  after_results_simp
  rw [hp, h.1 main_arg2 (by decide), h.1 main_arg15 (by decide), h.1 main_arg16 (by decide)]
  rfl

theorem ref_result (m : (ℓ : Loc nD τ sig) → Buf (Elt F) ℓ) (c : Dev nD) :
    StableHlo.after (Cert.ReferenceIdeal.RunP.ops (F := F)) (launchContents m c) (Proc.devRef .tc main_v175)
      = Cert.ReferenceIdeal.ReadP.val_main_v175 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have e1 := E.one (launchContents m c)
  have e2 := e1.step (ops_writes.seg 39 54) (by decide)
  have e3 := e2.step (ops_writes.seg 93 54) (by decide)
  have e4 := e3.step (ops_writes.seg 147 54) (by decide)
  rw [after_drop 39, after_seg 39 54, after_seg 93 54, after_seg 147 54]
  exact c5 e4 (c4 e3 (c3 e2 (c2 e1)))

end Cert.ReferenceIdeal.RefVal
end
-- ==== Proof.K.Reg0.lean ====
-- sib.js proof/Proof/KI/Reg0.lean proof/Proof/K/Reg0.lean --kernel
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0

def out0_2 (x0 : Vec F S5000x128 .f32) (x1 : Vec F S128x128 .f32) : Vec F S5000x128 .f32 :=
  View.canon [⟨r0_0, k0_pay1 (View.ld x0 r0_0) (View.ld x1 (Rect.unit (s := S128x128) ![0, 0] S128x128.size inb_S128x128_S128x128_0_0))⟩]

theorem sound_kernel0 {c : Dev nD} {E : Set ℕ} {i : grid0.Coords} {arg1 arg3 : Memref sig .tc .vmem S5000x128 .f32}
    {arg2 : Memref sig .tc .vmem S128x128 .f32} {harg1 : arg1.IsWhole} {harg2 : arg2.IsWhole} {harg3 : arg3.IsWhole}
    {x0 d : Vec F S5000x128 .f32} {x1 : Vec F S128x128 .f32} {K : PUnit → sProp 𝕄} :
    iprop(owns c.tc arg1 fullShare x0 ∗ owns c.tc arg2 fullShare x1 ∗ owns c.tc arg3 fullShare d
        ∗ (iprop(owns c.tc arg1 fullShare x0 ∗ owns c.tc arg2 fullShare x1 ∗ owns c.tc arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel owns
  iintro ⟨⟨%f0, %hf0, H0⟩, ⟨%f1, %hf1, H1⟩, ⟨%f2, -, H2⟩, Hk⟩
  subst hf0 hf1
  sl_exec
  sl_step
  iapply Hk
  isplitl [H0]; · istop; exact owns_intro _ _ _ _
  isplitl [H1]; · istop; exact owns_intro _ _ _ _
  iexists _; iframe
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) (w : Fin cfg0.W) (hw : w ≠ 2) (d) :
    (dat0 V c).before w t d = (dat0 V c).after w t := by
  fin_cases w <;> first | exact absurd rfl hw | exact (dat0 V c).before_in_eq_fetched _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp +decide only [before0 V c t]
  sl_whnfR [defs₀, Defs.onTc]
  rw [show (dat0 V c).Φ t.succ = (dat0 V c).Φ t.castSucc from rfl,
    show (dat0 V c).owesAt () t.succ = (dat0 V c).owesAt () t.castSucc from rfl, after0_2]
  iintro ⟨HΦ, Ho, ⟨%d0, H0⟩, ⟨%d1, H1⟩, %d2, H2⟩
  iapply sound_kernel0
  iframe H0 H1 H2
  iintro ⟨H0, H1, H2⟩
  iframe; iexact H2

end Cert.Kernel.Gen
-- ==== Proof.K.Reg1.lean ====
-- sib.js proof/Proof/KI/Reg1.lean proof/Proof/K/Reg1.lean --kernel
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

def outsAt1 (c : Dev nD) : (n : ℕ) → n < cfg1.N → Vec F S1x128 .f32 × Vec F S1x128 .f32
  | 0, hn => (k1_pay4 (iblk1 V c 0 ⟨0, hn⟩) (iblk1 V c 1 ⟨0, hn⟩) k1_pay1,
              k1_pay5 (iblk1 V c 0 ⟨0, hn⟩) (iblk1 V c 1 ⟨0, hn⟩) k1_pay2)
  | n + 1, hn => (k1_pay4 (iblk1 V c 0 ⟨n + 1, hn⟩) (iblk1 V c 1 ⟨n + 1, hn⟩) (outsAt1 c n (Nat.lt_of_succ_lt hn)).1,
                  k1_pay5 (iblk1 V c 0 ⟨n + 1, hn⟩) (iblk1 V c 1 ⟨n + 1, hn⟩) (outsAt1 c n (Nat.lt_of_succ_lt hn)).2)

theorem outsAt1_zero (c : Dev nD) (h : 0 < cfg1.N) :
    outsAt1 V c 0 h = (k1_pay4 (iblk1 V c 0 ⟨0, h⟩) (iblk1 V c 1 ⟨0, h⟩) k1_pay1,
                       k1_pay5 (iblk1 V c 0 ⟨0, h⟩) (iblk1 V c 1 ⟨0, h⟩) k1_pay2) := rfl

theorem outsAt1_succ (c : Dev nD) (n : ℕ) (h : n + 1 < cfg1.N) :
    outsAt1 V c (n + 1) h = (k1_pay4 (iblk1 V c 0 ⟨n + 1, h⟩) (iblk1 V c 1 ⟨n + 1, h⟩) (outsAt1 V c n (Nat.lt_of_succ_lt h)).1,
                             k1_pay5 (iblk1 V c 0 ⟨n + 1, h⟩) (iblk1 V c 1 ⟨n + 1, h⟩) (outsAt1 V c n (Nat.lt_of_succ_lt h)).2) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = (outsAt1 V c t.val t.isLt).1 := rfl
theorem after1_3 (c : Dev nD) (t : Fin cfg1.N) : (dat1 V c).after 3 t = (outsAt1 V c t.val t.isLt).2 := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

def Step1 (b : Prop) (xa : Vec F S5000x128 .f32) (xb dc dd oc od : Vec F S1x128 .f32) : Prop :=
  b ∧ oc = k1_pay4 xa xb k1_pay1 ∧ od = k1_pay5 xa xb k1_pay2 ∨ ¬b ∧ oc = k1_pay4 xa xb dc ∧ od = k1_pay5 xa xb dd

theorem step1 (c : Dev nD) (t : Fin cfg1.N) (d2 d3) :
    Step1 (cond1_0 (grid1.coords t)) (iblk1 V c 0 t) (iblk1 V c 1 t) ((dat1 V c).before 2 t d2) ((dat1 V c).before 3 t d3)
      ((dat1 V c).after 2 t) ((dat1 V c).after 3 t) := by
  obtain ⟨n, hn⟩ := t
  have hN : n < 10 := lt_of_lt_of_eq hn (show cfg1.N = 10 from N_1)
  cases n with
  | zero => exact .inl ⟨(hcond1_0 _).mpr rfl, rfl, rfl⟩
  | succ n =>
    exact .inr ⟨fun h => Nat.succ_ne_zero n ((hcond1_0 _).mp h),
      congrArg (k1_pay4 _ _) ((dat1 V c).before_out_kept 2 rfl ⟨n + 1, hn⟩ (Nat.succ_ne_zero n)
        (Bool.eq_false_iff.mpr fun h => by have := (flush1_2 _).mp h; dsimp only at this; omega) (fun _ => rfl) (fun _ _ => rfl) d2).symm,
      congrArg (k1_pay5 _ _) ((dat1 V c).before_out_kept 3 rfl ⟨n + 1, hn⟩ (Nat.succ_ne_zero n)
        (Bool.eq_false_iff.mpr fun h => by have := (flush1_3 _).mp h; dsimp only at this; omega) (fun _ => rfl) (fun _ _ => rfl) d3).symm⟩

end Cert.Kernel.Gen

end
-- ==== Proof.K.Reg2.lean ====
-- sib.js proof/Proof/KI/Reg2.lean proof/Proof/K/Reg2.lean --kernel
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_6 (x0 : Vec F S5000x128 .f32) (x1 x2 x3 x4 x5 : Vec F S1x128 .f32) : Vec F S5000x128 .f32 :=
  View.canon [⟨Rect.unit (s := S5000x128) ![0, 0] S5000x128.size inb_S5000x128_S5000x128_0_0,
    k2_pay1 (View.ld x0 (Rect.unit (s := S5000x128) ![0, 0] S5000x128.size inb_S5000x128_S5000x128_0_0))
      (View.ld x1 (Rect.unit (s := S1x128) ![0, 0] S1x128.size inb_S1x128_S1x128_0_0))
      (View.ld x5 (Rect.unit (s := S1x128) ![0, 0] S1x128.size inb_S1x128_S1x128_0_0))
      (View.ld x4 (Rect.unit (s := S1x128) ![0, 0] S1x128.size inb_S1x128_S1x128_0_0))
      (View.ld x2 (Rect.unit (s := S1x128) ![0, 0] S1x128.size inb_S1x128_S1x128_0_0))
      (View.ld x3 (Rect.unit (s := S1x128) ![0, 0] S1x128.size inb_S1x128_S1x128_0_0))⟩]

theorem sound_kernel2 (c : Dev nD) (E : Set ℕ) (i : grid2.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2__norm_relu_kernel i arg0 harg0 arg1 harg1 arg2 harg2 arg3 harg3 arg4 harg4 arg5 harg5 arg6 harg6) K := by
  simp only [cc2__norm_relu_kernel_eq_skeleton]; unfold cc2__norm_relu_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  isplitl [H4]; · istop; exact owns_intro _ _ _ _
  isplitl [H5]; · istop; exact owns_intro _ _ _ _
  iexists _; iframe
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) (w : Fin cfg2.W) (hw : w ≠ 6) (d) :
    (dat2 V c).before w t d = (dat2 V c).after w t := by
  fin_cases w <;> first | exact absurd rfl hw | exact (dat2 V c).before_in_eq_fetched _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp +decide only [before2 V c t]
  sl_whnfR [defs₀, Defs.onTc]
  rw [show (dat2 V c).Φ t.succ = (dat2 V c).Φ t.castSucc from rfl,
    show (dat2 V c).owesAt () t.succ = (dat2 V c).owesAt () t.castSucc from rfl, after2_6]
  iintro ⟨HΦ, Ho, ⟨%d0, H0⟩, ⟨%d1, H1⟩, ⟨%d2, H2⟩, ⟨%d3, H3⟩, ⟨%d4, H4⟩, ⟨%d5, H5⟩, %d6, H6⟩
  iapply (sound_kernel2 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe; iexact H6

end Cert.Kernel.Gen

end
-- ==== Proof.K.Reg3.lean ====
-- sib.js proof/Proof/KI/Reg3.lean proof/Proof/K/Reg3.lean --kernel
-- sib.js proof/Proof/KI/Reg0.lean proof/Proof/KI/Reg3.lean 0 3
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0

def out3_2 (x0 : Vec F S5000x128 .f32) (x1 : Vec F S128x128 .f32) : Vec F S5000x128 .f32 :=
  View.canon [⟨r3_0, k3_pay1 (View.ld x0 r3_0) (View.ld x1 (Rect.unit (s := S128x128) ![0, 0] S128x128.size inb_S128x128_S128x128_0_0))⟩]

theorem sound_kernel3 {c : Dev nD} {E : Set ℕ} {i : grid3.Coords} {arg1 arg3 : Memref sig .tc .vmem S5000x128 .f32}
    {arg2 : Memref sig .tc .vmem S128x128 .f32} {harg1 : arg1.IsWhole} {harg2 : arg2.IsWhole} {harg3 : arg3.IsWhole}
    {x0 d : Vec F S5000x128 .f32} {x1 : Vec F S128x128 .f32} {K : PUnit → sProp 𝕄} :
    iprop(owns c.tc arg1 fullShare x0 ∗ owns c.tc arg2 fullShare x1 ∗ owns c.tc arg3 fullShare d
        ∗ (iprop(owns c.tc arg1 fullShare x0 ∗ owns c.tc arg2 fullShare x1 ∗ owns c.tc arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel owns
  iintro ⟨⟨%f0, %hf0, H0⟩, ⟨%f1, %hf1, H1⟩, ⟨%f2, -, H2⟩, Hk⟩
  subst hf0 hf1
  sl_exec
  sl_step
  iapply Hk
  isplitl [H0]; · istop; exact owns_intro _ _ _ _
  isplitl [H1]; · istop; exact owns_intro _ _ _ _
  iexists _; iframe
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_2 (c : Dev nD) (t : Fin cfg3.N) : (dat3 V c).after 2 t = out3_2 (iblk3 V c 0 t) (iblk3 V c 1 t) := by dsimp only [dat3]

theorem before3 (c : Dev nD) (t : Fin cfg3.N) (w : Fin cfg3.W) (hw : w ≠ 2) (d) :
    (dat3 V c).before w t d = (dat3 V c).after w t := by
  fin_cases w <;> first | exact absurd rfl hw | exact (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp +decide only [before3 V c t]
  sl_whnfR [defs₀, Defs.onTc]
  rw [show (dat3 V c).Φ t.succ = (dat3 V c).Φ t.castSucc from rfl,
    show (dat3 V c).owesAt () t.succ = (dat3 V c).owesAt () t.castSucc from rfl, after3_2]
  iintro ⟨HΦ, Ho, ⟨%d0, H0⟩, ⟨%d1, H1⟩, %d2, H2⟩
  iapply sound_kernel3
  iframe H0 H1 H2
  iintro ⟨H0, H1, H2⟩
  iframe; iexact H2

end Cert.Kernel.Gen
-- ==== Proof.K.Reg4.lean ====
-- sib.js proof/Proof/KI/Reg4.lean proof/Proof/K/Reg4.lean --kernel
-- sib.js proof/Proof/KI/Reg1.lean proof/Proof/KI/Reg4.lean 1 4
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

def outsAt4 (c : Dev nD) : (n : ℕ) → n < cfg4.N → Vec F S1x128 .f32 × Vec F S1x128 .f32
  | 0, hn => (k4_pay4 (iblk4 V c 0 ⟨0, hn⟩) (iblk4 V c 1 ⟨0, hn⟩) k4_pay1,
              k4_pay5 (iblk4 V c 0 ⟨0, hn⟩) (iblk4 V c 1 ⟨0, hn⟩) k4_pay2)
  | n + 1, hn => (k4_pay4 (iblk4 V c 0 ⟨n + 1, hn⟩) (iblk4 V c 1 ⟨n + 1, hn⟩) (outsAt4 c n (Nat.lt_of_succ_lt hn)).1,
                  k4_pay5 (iblk4 V c 0 ⟨n + 1, hn⟩) (iblk4 V c 1 ⟨n + 1, hn⟩) (outsAt4 c n (Nat.lt_of_succ_lt hn)).2)

theorem outsAt4_zero (c : Dev nD) (h : 0 < cfg4.N) :
    outsAt4 V c 0 h = (k4_pay4 (iblk4 V c 0 ⟨0, h⟩) (iblk4 V c 1 ⟨0, h⟩) k4_pay1,
                       k4_pay5 (iblk4 V c 0 ⟨0, h⟩) (iblk4 V c 1 ⟨0, h⟩) k4_pay2) := rfl

theorem outsAt4_succ (c : Dev nD) (n : ℕ) (h : n + 1 < cfg4.N) :
    outsAt4 V c (n + 1) h = (k4_pay4 (iblk4 V c 0 ⟨n + 1, h⟩) (iblk4 V c 1 ⟨n + 1, h⟩) (outsAt4 V c n (Nat.lt_of_succ_lt h)).1,
                             k4_pay5 (iblk4 V c 0 ⟨n + 1, h⟩) (iblk4 V c 1 ⟨n + 1, h⟩) (outsAt4 V c n (Nat.lt_of_succ_lt h)).2) := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = (outsAt4 V c t.val t.isLt).1 := rfl
theorem after4_3 (c : Dev nD) (t : Fin cfg4.N) : (dat4 V c).after 3 t = (outsAt4 V c t.val t.isLt).2 := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def Step4 (b : Prop) (xa : Vec F S5000x128 .f32) (xb dc dd oc od : Vec F S1x128 .f32) : Prop :=
  b ∧ oc = k4_pay4 xa xb k4_pay1 ∧ od = k4_pay5 xa xb k4_pay2 ∨ ¬b ∧ oc = k4_pay4 xa xb dc ∧ od = k4_pay5 xa xb dd

theorem step4 (c : Dev nD) (t : Fin cfg4.N) (d2 d3) :
    Step4 (cond4_0 (grid4.coords t)) (iblk4 V c 0 t) (iblk4 V c 1 t) ((dat4 V c).before 2 t d2) ((dat4 V c).before 3 t d3)
      ((dat4 V c).after 2 t) ((dat4 V c).after 3 t) := by
  obtain ⟨n, hn⟩ := t
  have hN : n < 10 := lt_of_lt_of_eq hn (show cfg4.N = 10 from N_4)
  cases n with
  | zero => exact .inl ⟨(hcond4_0 _).mpr rfl, rfl, rfl⟩
  | succ n =>
    exact .inr ⟨fun h => Nat.succ_ne_zero n ((hcond4_0 _).mp h),
      congrArg (k4_pay4 _ _) ((dat4 V c).before_out_kept 2 rfl ⟨n + 1, hn⟩ (Nat.succ_ne_zero n)
        (Bool.eq_false_iff.mpr fun h => by have := (flush4_2 _).mp h; dsimp only at this; omega) (fun _ => rfl) (fun _ _ => rfl) d2).symm,
      congrArg (k4_pay5 _ _) ((dat4 V c).before_out_kept 3 rfl ⟨n + 1, hn⟩ (Nat.succ_ne_zero n)
        (Bool.eq_false_iff.mpr fun h => by have := (flush4_3 _).mp h; dsimp only at this; omega) (fun _ => rfl) (fun _ _ => rfl) d3).symm⟩

end Cert.Kernel.Gen

end
-- ==== Proof.K.Reg5.lean ====
-- sib.js proof/Proof/KI/Reg5.lean proof/Proof/K/Reg5.lean --kernel
-- sib.js proof/Proof/KI/Reg2.lean proof/Proof/KI/Reg5.lean 2 5
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_6 (x0 : Vec F S5000x128 .f32) (x1 x2 x3 x4 x5 : Vec F S1x128 .f32) : Vec F S5000x128 .f32 :=
  View.canon [⟨Rect.unit (s := S5000x128) ![0, 0] S5000x128.size inb_S5000x128_S5000x128_0_0,
    k5_pay1 (View.ld x0 (Rect.unit (s := S5000x128) ![0, 0] S5000x128.size inb_S5000x128_S5000x128_0_0))
      (View.ld x1 (Rect.unit (s := S1x128) ![0, 0] S1x128.size inb_S1x128_S1x128_0_0))
      (View.ld x5 (Rect.unit (s := S1x128) ![0, 0] S1x128.size inb_S1x128_S1x128_0_0))
      (View.ld x4 (Rect.unit (s := S1x128) ![0, 0] S1x128.size inb_S1x128_S1x128_0_0))
      (View.ld x2 (Rect.unit (s := S1x128) ![0, 0] S1x128.size inb_S1x128_S1x128_0_0))
      (View.ld x3 (Rect.unit (s := S1x128) ![0, 0] S1x128.size inb_S1x128_S1x128_0_0))⟩]

theorem sound_kernel5 (c : Dev nD) (E : Set ℕ) (i : grid5.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out5_6 x0 x1 x2 x3 x4 x5)) -∗ K ⟨⟩))
      ⊢ wp frame (wpE (defs₀ (F := F)) Variants.none c none) E (cc5__norm_relu_kernel i arg0 harg0 arg1 harg1 arg2 harg2 arg3 harg3 arg4 harg4 arg5 harg5 arg6 harg6) K := by
  simp only [cc5__norm_relu_kernel_eq_skeleton]; unfold cc5__norm_relu_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  isplitl [H4]; · istop; exact owns_intro _ _ _ _
  isplitl [H5]; · istop; exact owns_intro _ _ _ _
  iexists _; iframe
  ipureintro
  exact View.read_writes_eq_canon _ _ _ (View.cover_of_tiled _ S5000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) (w : Fin cfg5.W) (hw : w ≠ 6) (d) :
    (dat5 V c).before w t d = (dat5 V c).after w t := by
  fin_cases w <;> first | exact absurd rfl hw | exact (dat5 V c).before_in_eq_fetched _ rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp +decide only [before5 V c t]
  sl_whnfR [defs₀, Defs.onTc]
  rw [show (dat5 V c).Φ t.succ = (dat5 V c).Φ t.castSucc from rfl,
    show (dat5 V c).owesAt () t.succ = (dat5 V c).owesAt () t.castSucc from rfl, after5_6]
  iintro ⟨HΦ, Ho, ⟨%d0, H0⟩, ⟨%d1, H1⟩, ⟨%d2, H2⟩, ⟨%d3, H3⟩, ⟨%d4, H4⟩, ⟨%d5, H5⟩, %d6, H6⟩
  iapply (sound_kernel5 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe; iexact H6

end Cert.Kernel.Gen

end
-- ==== Proof.K.Reg6.lean ====
-- sib.js proof/Proof/KI/Reg6.lean proof/Proof/K/Reg6.lean --kernel
-- sib.js proof/Proof/KI/Reg0.lean proof/Proof/KI/Reg6.lean 0 6
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0

def out6_2 (x0 : Vec F S5000x128 .f32) (x1 : Vec F S128x128 .f32) : Vec F S5000x128 .f32 :=
  View.canon [⟨r6_0, k6_pay1 (View.ld x0 r6_0) (View.ld x1 (Rect.unit (s := S128x128) ![0, 0] S128x128.size inb_S128x128_S128x128_0_0))⟩]

theorem sound_kernel6 {c : Dev nD} {E : Set ℕ} {i : grid6.Coords} {arg1 arg3 : Memref sig .tc .vmem S5000x128 .f32}
    {arg2 : Memref sig .tc .vmem S128x128 .f32} {harg1 : arg1.IsWhole} {harg2 : arg2.IsWhole} {harg3 : arg3.IsWhole}
    {x0 d : Vec F S5000x128 .f32} {x1 : Vec F S128x128 .f32} {K : PUnit → sProp 𝕄} :
    iprop(owns c.tc arg1 fullShare x0 ∗ owns c.tc arg2 fullShare x1 ∗ owns c.tc arg3 fullShare d
        ∗ (iprop(owns c.tc arg1 fullShare x0 ∗ owns c.tc arg2 fullShare x1 ∗ owns c.tc arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel owns
  iintro ⟨⟨%f0, %hf0, H0⟩, ⟨%f1, %hf1, H1⟩, ⟨%f2, -, H2⟩, Hk⟩
  subst hf0 hf1
  sl_exec
  sl_step
  iapply Hk
  isplitl [H0]; · istop; exact owns_intro _ _ _ _
  isplitl [H1]; · istop; exact owns_intro _ _ _ _
  iexists _; iframe
  ipureintro
  exact View.read_writes_eq_canon _ _ _ (View.cover_of_tiled _ S5000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by dsimp only [dat6]

theorem after6_2 (c : Dev nD) (t : Fin cfg6.N) : (dat6 V c).after 2 t = out6_2 (iblk6 V c 0 t) (iblk6 V c 1 t) := by dsimp only [dat6]

theorem before6 (c : Dev nD) (t : Fin cfg6.N) (w : Fin cfg6.W) (hw : w ≠ 2) (d) :
    (dat6 V c).before w t d = (dat6 V c).after w t := by
  fin_cases w <;> first | exact absurd rfl hw | exact (dat6 V c).before_in_eq_fetched _ rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  simp +decide only [before6 V c t]
  sl_whnfR [defs₀, Defs.onTc]
  rw [show (dat6 V c).Φ t.succ = (dat6 V c).Φ t.castSucc from rfl,
    show (dat6 V c).owesAt () t.succ = (dat6 V c).owesAt () t.castSucc from rfl, after6_2]
  iintro ⟨HΦ, Ho, ⟨%d0, H0⟩, ⟨%d1, H1⟩, %d2, H2⟩
  iapply sound_kernel6
  iframe H0 H1 H2
  iintro ⟨H0, H1, H2⟩
  iframe; iexact H2

end Cert.Kernel.Gen
-- ==== Proof.K.Reg7.lean ====
-- sib.js proof/Proof/KI/Reg7.lean proof/Proof/K/Reg7.lean --kernel
-- sib.js proof/Proof/KI/Reg1.lean proof/Proof/KI/Reg7.lean 1 7
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val = 0 :=
  (by decide +kernel : ∀ t : Fin grid7.N, cond7_0 (grid7.coords t) ↔ t.val = 0)

def outsAt7 (c : Dev nD) : (n : ℕ) → n < cfg7.N → Vec F S1x128 .f32 × Vec F S1x128 .f32
  | 0, hn => (k7_pay4 (iblk7 V c 0 ⟨0, hn⟩) (iblk7 V c 1 ⟨0, hn⟩) k7_pay1,
              k7_pay5 (iblk7 V c 0 ⟨0, hn⟩) (iblk7 V c 1 ⟨0, hn⟩) k7_pay2)
  | n + 1, hn => (k7_pay4 (iblk7 V c 0 ⟨n + 1, hn⟩) (iblk7 V c 1 ⟨n + 1, hn⟩) (outsAt7 c n (Nat.lt_of_succ_lt hn)).1,
                  k7_pay5 (iblk7 V c 0 ⟨n + 1, hn⟩) (iblk7 V c 1 ⟨n + 1, hn⟩) (outsAt7 c n (Nat.lt_of_succ_lt hn)).2)

theorem outsAt7_zero (c : Dev nD) (h : 0 < cfg7.N) :
    outsAt7 V c 0 h = (k7_pay4 (iblk7 V c 0 ⟨0, h⟩) (iblk7 V c 1 ⟨0, h⟩) k7_pay1,
                       k7_pay5 (iblk7 V c 0 ⟨0, h⟩) (iblk7 V c 1 ⟨0, h⟩) k7_pay2) := rfl

theorem outsAt7_succ (c : Dev nD) (n : ℕ) (h : n + 1 < cfg7.N) :
    outsAt7 V c (n + 1) h = (k7_pay4 (iblk7 V c 0 ⟨n + 1, h⟩) (iblk7 V c 1 ⟨n + 1, h⟩) (outsAt7 V c n (Nat.lt_of_succ_lt h)).1,
                             k7_pay5 (iblk7 V c 0 ⟨n + 1, h⟩) (iblk7 V c 1 ⟨n + 1, h⟩) (outsAt7 V c n (Nat.lt_of_succ_lt h)).2) := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2
  Φ _ := Pipeline.ΦA spec7 c
  q _ := fullShare
  owed _ := 0

theorem A_eq7 (c : Dev nD) (w : Fin cfg7.W) : (dat7 V c).A w = V c (Pipeline.arrRef spec7 w) := rfl

theorem after7_2 (c : Dev nD) (t : Fin cfg7.N) : (dat7 V c).after 2 t = (outsAt7 V c t.val t.isLt).1 := rfl
theorem after7_3 (c : Dev nD) (t : Fin cfg7.N) : (dat7 V c).after 3 t = (outsAt7 V c t.val t.isLt).2 := rfl

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

def Step7 (b : Prop) (xa : Vec F S5000x128 .f32) (xb dc dd oc od : Vec F S1x128 .f32) : Prop :=
  b ∧ oc = k7_pay4 xa xb k7_pay1 ∧ od = k7_pay5 xa xb k7_pay2 ∨ ¬b ∧ oc = k7_pay4 xa xb dc ∧ od = k7_pay5 xa xb dd

theorem step7 (c : Dev nD) (t : Fin cfg7.N) (d2 d3) :
    Step7 (cond7_0 (grid7.coords t)) (iblk7 V c 0 t) (iblk7 V c 1 t) ((dat7 V c).before 2 t d2) ((dat7 V c).before 3 t d3)
      ((dat7 V c).after 2 t) ((dat7 V c).after 3 t) := by
  obtain ⟨n, hn⟩ := t
  have hN : n < 10 := lt_of_lt_of_eq hn (show cfg7.N = 10 from N_7)
  cases n with
  | zero => exact .inl ⟨(hcond7_0 _).mpr rfl, rfl, rfl⟩
  | succ n =>
    exact .inr ⟨fun h => Nat.succ_ne_zero n ((hcond7_0 _).mp h),
      congrArg (k7_pay4 _ _) ((dat7 V c).before_out_kept 2 rfl ⟨n + 1, hn⟩ (Nat.succ_ne_zero n)
        (Bool.eq_false_iff.mpr fun h => by have := (flush7_2 _).mp h; dsimp only at this; omega) (fun _ => rfl) (fun _ _ => rfl) d2).symm,
      congrArg (k7_pay5 _ _) ((dat7 V c).before_out_kept 3 rfl ⟨n + 1, hn⟩ (Nat.succ_ne_zero n)
        (Bool.eq_false_iff.mpr fun h => by have := (flush7_3 _).mp h; dsimp only at this; omega) (fun _ => rfl) (fun _ _ => rfl) d3).symm⟩

end Cert.Kernel.Gen

end
-- ==== Proof.K.Reg8.lean ====
-- sib.js proof/Proof/KI/Reg8.lean proof/Proof/K/Reg8.lean --kernel
-- sib.js proof/Proof/KI/Reg2.lean proof/Proof/KI/Reg8.lean 2 8
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_6 (x0 : Vec F S5000x128 .f32) (x1 x2 x3 x4 x5 : Vec F S1x128 .f32) : Vec F S5000x128 .f32 :=
  View.canon [⟨Rect.unit (s := S5000x128) ![0, 0] S5000x128.size inb_S5000x128_S5000x128_0_0,
    k8_pay1 (View.ld x0 (Rect.unit (s := S5000x128) ![0, 0] S5000x128.size inb_S5000x128_S5000x128_0_0))
      (View.ld x1 (Rect.unit (s := S1x128) ![0, 0] S1x128.size inb_S1x128_S1x128_0_0))
      (View.ld x5 (Rect.unit (s := S1x128) ![0, 0] S1x128.size inb_S1x128_S1x128_0_0))
      (View.ld x4 (Rect.unit (s := S1x128) ![0, 0] S1x128.size inb_S1x128_S1x128_0_0))
      (View.ld x2 (Rect.unit (s := S1x128) ![0, 0] S1x128.size inb_S1x128_S1x128_0_0))
      (View.ld x3 (Rect.unit (s := S1x128) ![0, 0] S1x128.size inb_S1x128_S1x128_0_0))⟩]

theorem sound_kernel8 (c : Dev nD) (E : Set ℕ) (i : grid8.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out8_6 x0 x1 x2 x3 x4 x5)) -∗ K ⟨⟩))
      ⊢ wp frame (wpE (defs₀ (F := F)) Variants.none c none) E (cc8__norm_relu_kernel i arg0 harg0 arg1 harg1 arg2 harg2 arg3 harg3 arg4 harg4 arg5 harg5 arg6 harg6) K := by
  simp only [cc8__norm_relu_kernel_eq_skeleton]; unfold cc8__norm_relu_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  isplitl [H4]; · istop; exact owns_intro _ _ _ _
  isplitl [H5]; · istop; exact owns_intro _ _ _ _
  iexists _; iframe
  ipureintro
  exact View.read_writes_eq_canon _ _ _ (View.cover_of_tiled _ S5000x128.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := rfl

theorem after8_6 (c : Dev nD) (t : Fin cfg8.N) : (dat8 V c).after 6 t
    = out8_6 (iblk8 V c 0 t) (iblk8 V c 1 t) (iblk8 V c 2 t) (iblk8 V c 3 t) (iblk8 V c 4 t) (iblk8 V c 5 t) := by dsimp only [dat8]

theorem before8 (c : Dev nD) (t : Fin cfg8.N) (w : Fin cfg8.W) (hw : w ≠ 6) (d) :
    (dat8 V c).before w t d = (dat8 V c).after w t := by
  fin_cases w <;> first | exact absurd rfl hw | exact (dat8 V c).before_in_eq_fetched _ rfl (fun _ => rfl) (fun _ _ _ => rfl) (fun _ => rfl) t d

theorem body_obligation8 (c : Dev nD) : BodyObligation (dat8 (F := F) V c) (defs₀ (F := F)) Variants.none () Set.univ := fun t => by
  rw [bigSep_W8, bigSep_W8]
  simp +decide only [before8 V c t]
  sl_whnfR [defs₀, Defs.onTc]
  rw [show (dat8 V c).Φ t.succ = (dat8 V c).Φ t.castSucc from rfl,
    show (dat8 V c).owesAt () t.succ = (dat8 V c).owesAt () t.castSucc from rfl, after8_6]
  iintro ⟨HΦ, Ho, ⟨%d0, H0⟩, ⟨%d1, H1⟩, ⟨%d2, H2⟩, ⟨%d3, H3⟩, ⟨%d4, H4⟩, ⟨%d5, H5⟩, %d6, H6⟩
  iapply (sound_kernel8 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe; iexact H6

end Cert.Kernel.Gen

end
-- ==== Proof.K.Reg9Defs.lean ====
-- sib.js proof/Proof/KI/Reg9Defs.lean proof/Proof/K/Reg9Defs.lean --kernel
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev scM9_0 : Memref sig .tc .vmem S64x128 .f32 := Memref.whole cc9_scratch0
abbrev scM9_1 : Memref sig .tc .vmem S64x1 .f32 := Memref.whole cc9_scratch1

def scr9 (c : Dev nD) : Fin (cfg9.N + 1) → Vec F S64x128 .f32 × Vec F S64x1 .f32 :=
  Fin.induction (k9_pay1, k9_pay2) fun t s => (k9_pay4 (iblk9 V c 1 t) s.1 (iblk9 V c 0 t), k9_pay5 (iblk9 V c 1 t) s.2)

def out9 (c : Dev nD) (t : Fin cfg9.N) : Vec F S64x8 .f32 :=
  k9_pay6 (scr9 V c t.succ).1 (scr9 V c t.succ).2 (iblk9 V c 2 t) (iblk9 V c 3 t)

def Phi9 (c : Dev nD) (t : Fin (cfg9.N + 1)) : sProp 𝕄 :=
  iprop((∃ s, ⌜t ≠ 0 → s = scr9 V c t⌝ ∗ owns c scM9_0 fullShare s.1 ∗ owns c scM9_1 fullShare s.2)
    ∗ Pipeline.scopedRestBut spec9 c [cc9_scratch0, cc9_scratch1]
    ∗ (∃ r, prngReg c r))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9 V c t
  Φ := Phi9 V c
  q _ := fullShare
  owed _ := 0

theorem A_eq9 (c : Dev nD) (w : Fin cfg9.W) : (dat9 V c).A w = V c (Pipeline.arrRef spec9 w) := by
  dsimp only [dat9]

theorem before9 (c : Dev nD) (w : Fin cfg9.W) (hw : w ≠ 4) (t : Fin cfg9.N) (d) : (dat9 V c).before w t d = (dat9 V c).after w t := by
  match w, hw with
  | ⟨0, _⟩, _ | ⟨1, _⟩, _ | ⟨2, _⟩, _ | ⟨3, _⟩, _ =>
    exact (dat9 V c).before_in_eq_fetched _ rfl (fun _ => rfl) (fun _ _ _ => rfl) (fun _ => rfl) t d
  | ⟨4, _⟩, h => exact absurd rfl h

end Cert.Kernel.Gen

end
-- ==== Proof.K.FrameDefs.lean ====
-- sib.js proof/Proof/KI/FrameDefs.lean proof/Proof/K/FrameDefs.lean --kernel
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import proofs.«421377_j77326591197791_1_alg».proof.Proof.Gen.Kernel.Regions
import proofs.«421377_j77326591197791_1_alg».proof.Proof.K.Reg0
import proofs.«421377_j77326591197791_1_alg».proof.Proof.K.Reg1
import proofs.«421377_j77326591197791_1_alg».proof.Proof.K.Reg2
import proofs.«421377_j77326591197791_1_alg».proof.Proof.K.Reg3
import proofs.«421377_j77326591197791_1_alg».proof.Proof.K.Reg4
import proofs.«421377_j77326591197791_1_alg».proof.Proof.K.Reg5
import proofs.«421377_j77326591197791_1_alg».proof.Proof.K.Reg6
import proofs.«421377_j77326591197791_1_alg».proof.Proof.K.Reg7
import proofs.«421377_j77326591197791_1_alg».proof.Proof.K.Reg8
import proofs.«421377_j77326591197791_1_alg».proof.Proof.K.Reg9Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev T3 : (c : Dev nD) → (b : Ref sig .tc) → Buf (Elt F) ((c : Thread nD τ).loc b) := fun c b => V3 m c b

def o4 (c : Dev nD) : Buf (Elt F) ((c : Thread nD τ).loc main_v29) := (dat0 (T3 m) c).arrAt 2 cfg0.N

def X4 (c : Dev nD) : Valuation τ sig (Elt F) := Function.update (V3 m c) main_v29 (o4 m c)

def X5 (c : Dev nD) : Valuation τ sig (Elt F) := StableHlo.after hostOps1 (X4 m c)

abbrev T5 : (c : Dev nD) → (b : Ref sig .tc) → Buf (Elt F) ((c : Thread nD τ).loc b) := fun c b => X5 m c b

def o6a (c : Dev nD) : Buf (Elt F) ((c : Thread nD τ).loc main_v44_0) := (dat1 (T5 m) c).arrAt 2 cfg1.N

def o6b (c : Dev nD) : Buf (Elt F) ((c : Thread nD τ).loc main_v44_1) := (dat1 (T5 m) c).arrAt 3 cfg1.N

def X6 (c : Dev nD) : Valuation τ sig (Elt F) := Function.update (Function.update (X5 m c) main_v44_0 (o6a m c)) main_v44_1 (o6b m c)

def X7 (c : Dev nD) : Valuation τ sig (Elt F) := StableHlo.after hostOps2 (X6 m c)

abbrev T7 : (c : Dev nD) → (b : Ref sig .tc) → Buf (Elt F) ((c : Thread nD τ).loc b) := fun c b => X7 m c b

def o8 (c : Dev nD) : Buf (Elt F) ((c : Thread nD τ).loc main_v54) := (dat2 (T7 m) c).arrAt 6 cfg2.N

def X8 (c : Dev nD) : Valuation τ sig (Elt F) := Function.update (X7 m c) main_v54 (o8 m c)

abbrev T8 : (c : Dev nD) → (b : Ref sig .tc) → Buf (Elt F) ((c : Thread nD τ).loc b) := fun c b => X8 m c b

def o9 (c : Dev nD) : Buf (Elt F) ((c : Thread nD τ).loc main_v55) := (dat3 (T8 m) c).arrAt 2 cfg3.N

def X9 (c : Dev nD) : Valuation τ sig (Elt F) := Function.update (X8 m c) main_v55 (o9 m c)

def X10 (c : Dev nD) : Valuation τ sig (Elt F) := StableHlo.after hostOps4 (X9 m c)

abbrev T10 : (c : Dev nD) → (b : Ref sig .tc) → Buf (Elt F) ((c : Thread nD τ).loc b) := fun c b => X10 m c b

def o11a (c : Dev nD) : Buf (Elt F) ((c : Thread nD τ).loc main_v70_0) := (dat4 (T10 m) c).arrAt 2 cfg4.N

def o11b (c : Dev nD) : Buf (Elt F) ((c : Thread nD τ).loc main_v70_1) := (dat4 (T10 m) c).arrAt 3 cfg4.N

def X11 (c : Dev nD) : Valuation τ sig (Elt F) := Function.update (Function.update (X10 m c) main_v70_0 (o11a m c)) main_v70_1 (o11b m c)

def X12 (c : Dev nD) : Valuation τ sig (Elt F) := StableHlo.after hostOps5 (X11 m c)

abbrev T12 : (c : Dev nD) → (b : Ref sig .tc) → Buf (Elt F) ((c : Thread nD τ).loc b) := fun c b => X12 m c b

def o13 (c : Dev nD) : Buf (Elt F) ((c : Thread nD τ).loc main_v80) := (dat5 (T12 m) c).arrAt 6 cfg5.N

def X13 (c : Dev nD) : Valuation τ sig (Elt F) := Function.update (X12 m c) main_v80 (o13 m c)

abbrev T13 : (c : Dev nD) → (b : Ref sig .tc) → Buf (Elt F) ((c : Thread nD τ).loc b) := fun c b => X13 m c b

def o14 (c : Dev nD) : Buf (Elt F) ((c : Thread nD τ).loc main_v81) := (dat6 (T13 m) c).arrAt 2 cfg6.N

def X14 (c : Dev nD) : Valuation τ sig (Elt F) := Function.update (X13 m c) main_v81 (o14 m c)

def X15 (c : Dev nD) : Valuation τ sig (Elt F) := StableHlo.after hostOps7 (X14 m c)

abbrev T15 : (c : Dev nD) → (b : Ref sig .tc) → Buf (Elt F) ((c : Thread nD τ).loc b) := fun c b => X15 m c b

def o16a (c : Dev nD) : Buf (Elt F) ((c : Thread nD τ).loc main_v96_0) := (dat7 (T15 m) c).arrAt 2 cfg7.N

def o16b (c : Dev nD) : Buf (Elt F) ((c : Thread nD τ).loc main_v96_1) := (dat7 (T15 m) c).arrAt 3 cfg7.N

def X16 (c : Dev nD) : Valuation τ sig (Elt F) := Function.update (Function.update (X15 m c) main_v96_0 (o16a m c)) main_v96_1 (o16b m c)

def X17 (c : Dev nD) : Valuation τ sig (Elt F) := StableHlo.after hostOps8 (X16 m c)

abbrev T17 : (c : Dev nD) → (b : Ref sig .tc) → Buf (Elt F) ((c : Thread nD τ).loc b) := fun c b => X17 m c b

def o18 (c : Dev nD) : Buf (Elt F) ((c : Thread nD τ).loc main_v106) := (dat8 (T17 m) c).arrAt 6 cfg8.N

def X18 (c : Dev nD) : Valuation τ sig (Elt F) := Function.update (X17 m c) main_v106 (o18 m c)

def X19 (c : Dev nD) : Valuation τ sig (Elt F) := StableHlo.after hostOps9 (X18 m c)

abbrev T19 : (c : Dev nD) → (b : Ref sig .tc) → Buf (Elt F) ((c : Thread nD τ).loc b) := fun c b => X19 m c b

def o20 (c : Dev nD) : Buf (Elt F) ((c : Thread nD τ).loc main_v109) := (dat9 (T19 m) c).arrAt 4 cfg9.N

def X20 (c : Dev nD) : Valuation τ sig (Elt F) := Function.update (X19 m c) main_v109 (o20 m c)

def outs : Outs (F := F) := fun J r c =>
  match J with
  | 4 => X4 m c r
  | 6 => X6 m c r
  | 8 => X8 m c r
  | 9 => X9 m c r
  | 11 => X11 m c r
  | 13 => X13 m c r
  | 14 => X14 m c r
  | 16 => X16 m c r
  | 18 => X18 m c r
  | 20 => X20 m c r
  | _ => m ((c : Thread nD τ).loc r)

theorem X4_at (c : Dev nD) : X4 m c main_v29 = o4 m c := Function.update_self ..
theorem X6_at_0 (c : Dev nD) : X6 m c main_v44_0 = o6a m c :=
  (Function.update_of_ne (StableHlo.devRef_ne_of_ne (τ := τ) (by decide)) ..).trans (Function.update_self ..)
theorem X6_at_1 (c : Dev nD) : X6 m c main_v44_1 = o6b m c := Function.update_self ..
theorem X8_at (c : Dev nD) : X8 m c main_v54 = o8 m c := Function.update_self ..
theorem X9_at (c : Dev nD) : X9 m c main_v55 = o9 m c := Function.update_self ..
theorem X11_at_0 (c : Dev nD) : X11 m c main_v70_0 = o11a m c :=
  (Function.update_of_ne (StableHlo.devRef_ne_of_ne (τ := τ) (by decide)) ..).trans (Function.update_self ..)
theorem X11_at_1 (c : Dev nD) : X11 m c main_v70_1 = o11b m c := Function.update_self ..
theorem X13_at (c : Dev nD) : X13 m c main_v80 = o13 m c := Function.update_self ..
theorem X14_at (c : Dev nD) : X14 m c main_v81 = o14 m c := Function.update_self ..
theorem X16_at_0 (c : Dev nD) : X16 m c main_v96_0 = o16a m c :=
  (Function.update_of_ne (StableHlo.devRef_ne_of_ne (τ := τ) (by decide)) ..).trans (Function.update_self ..)
theorem X16_at_1 (c : Dev nD) : X16 m c main_v96_1 = o16b m c := Function.update_self ..
theorem X18_at (c : Dev nD) : X18 m c main_v106 = o18 m c := Function.update_self ..
theorem X20_at (c : Dev nD) : X20 m c main_v109 = o20 m c := Function.update_self ..

theorem upd_congr {V V' : Valuation τ sig (Elt F)} (h : V = V') (r : Ref sig .tc) {x y : (Proc.devRef (τ := τ) .tc r).ty.Contents (Elt F)} (hx : x = y) :
    Function.update V r x = Function.update V' r y := by rw [h, hx]
theorem V4_eq (c : Dev nD) : V4 m (outs m) c = X4 m c := upd_congr rfl main_v29 (X4_at m c)
theorem V5_eq (c : Dev nD) : V5 m (outs m) c = X5 m c := congrArg (StableHlo.after hostOps1) (V4_eq m c)
theorem V6_eq (c : Dev nD) : V6 m (outs m) c = X6 m c :=
  upd_congr (upd_congr (V5_eq m c) main_v44_0 (X6_at_0 m c)) main_v44_1 (X6_at_1 m c)
theorem V7_eq (c : Dev nD) : V7 m (outs m) c = X7 m c := congrArg (StableHlo.after hostOps2) (V6_eq m c)
theorem V8_eq (c : Dev nD) : V8 m (outs m) c = X8 m c := upd_congr (V7_eq m c) main_v54 (X8_at m c)
theorem V9_eq (c : Dev nD) : V9 m (outs m) c = X9 m c := upd_congr (V8_eq m c) main_v55 (X9_at m c)
theorem V10_eq (c : Dev nD) : V10 m (outs m) c = X10 m c := congrArg (StableHlo.after hostOps4) (V9_eq m c)
theorem V11_eq (c : Dev nD) : V11 m (outs m) c = X11 m c :=
  upd_congr (upd_congr (V10_eq m c) main_v70_0 (X11_at_0 m c)) main_v70_1 (X11_at_1 m c)
theorem V12_eq (c : Dev nD) : V12 m (outs m) c = X12 m c := congrArg (StableHlo.after hostOps5) (V11_eq m c)
theorem V13_eq (c : Dev nD) : V13 m (outs m) c = X13 m c := upd_congr (V12_eq m c) main_v80 (X13_at m c)
theorem V14_eq (c : Dev nD) : V14 m (outs m) c = X14 m c := upd_congr (V13_eq m c) main_v81 (X14_at m c)
theorem V15_eq (c : Dev nD) : V15 m (outs m) c = X15 m c := congrArg (StableHlo.after hostOps7) (V14_eq m c)
theorem V16_eq (c : Dev nD) : V16 m (outs m) c = X16 m c :=
  upd_congr (upd_congr (V15_eq m c) main_v96_0 (X16_at_0 m c)) main_v96_1 (X16_at_1 m c)
theorem V17_eq (c : Dev nD) : V17 m (outs m) c = X17 m c := congrArg (StableHlo.after hostOps8) (V16_eq m c)
theorem V18_eq (c : Dev nD) : V18 m (outs m) c = X18 m c := upd_congr (V17_eq m c) main_v106 (X18_at m c)
theorem V19_eq (c : Dev nD) : V19 m (outs m) c = X19 m c := congrArg (StableHlo.after hostOps9) (V18_eq m c)
theorem V20_eq (c : Dev nD) : V20 m (outs m) c = X20 m c := upd_congr (V19_eq m c) main_v109 (X20_at m c)

theorem V20_result (c : Dev nD) : V20 m (outs m) c main_v109 = o20 m c := by
  rw [V20_eq]; exact X20_at m c

end Cert.Kernel.Gen

end
-- ==== Proof.K.FrameRegs.lean ====
-- sib.js proof/Proof/KI/FrameRegs.lean proof/Proof/K/FrameRegs.lean --kernel
import proofs.«421377_j77326591197791_1_alg».proof.Proof.K.FrameDefs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 10) → (c : Dev nD) → Dat τ (Elt F) Unit ℕ (UR sig nD τ) ℕ (cfgs p) c
  | ⟨0, _⟩ => fun c => dat0 (T3 m) c
  | ⟨1, _⟩ => fun c => dat1 (T5 m) c
  | ⟨2, _⟩ => fun c => dat2 (T7 m) c
  | ⟨3, _⟩ => fun c => dat3 (T8 m) c
  | ⟨4, _⟩ => fun c => dat4 (T10 m) c
  | ⟨5, _⟩ => fun c => dat5 (T12 m) c
  | ⟨6, _⟩ => fun c => dat6 (T13 m) c
  | ⟨7, _⟩ => fun c => dat7 (T15 m) c
  | ⟨8, _⟩ => fun c => dat8 (T17 m) c
  | ⟨9, _⟩ => fun c => dat9 (T19 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

section
variable {p : Fin 10} {c : Dev nD} (d : Dat τ (Elt F) Unit ℕ (UR sig nD τ) ℕ (cfgs p) c) (hw : Pipeline.WinFacts (cfgs p).spec)

abbrev wr (V : Valuation τ sig (Elt F)) (w : Fin (cfgs p).W) : Valuation τ sig (Elt F) :=
  Function.update V (Pipeline.arrRef (cfgs p).spec w) (d.arrAt w (cfgs p).N)

include hw in
/-- Overwriting `V` at the windows of `O` with their final contents gives every window's final contents, if the others end as `V` has them; off the arrays nothing changes. -/
theorem exits (O : List (Fin (cfgs p).W)) : ∀ V : Valuation τ sig (Elt F), (∀ w, w ∉ O → d.arrAt w (cfgs p).N = V (Pipeline.arrRef (cfgs p).spec w)) →
    (∀ w, d.arrAt w (cfgs p).N = O.foldl (wr d) V (Pipeline.arrRef (cfgs p).spec w))
      ∧ ∀ b : Ref sig .tc, b ∉ Finset.univ.image (Pipeline.arrRef (cfgs p).spec) → O.foldl (wr d) V b = V b := by
  induction O with
  | nil => exact fun V h => ⟨fun w => h w List.not_mem_nil, fun _ _ => rfl⟩
  | cons o O ih =>
    intro V h
    obtain ⟨h1, h2⟩ := ih (wr d V o) fun w hw' => by
      by_cases e : w = o
      · subst e; exact Eq.symm (Function.update_self _ _ _)
      · exact (h w fun h' => (List.mem_cons.1 h').elim e hw').trans (Eq.symm (Function.update_of_ne (StableHlo.devRef_ne_of_ne (τ := τ) (hw.arr_inj.ne e)) _ _))
    exact ⟨h1, fun b hb => (h2 b hb).trans (Function.update_of_ne (StableHlo.devRef_ne_of_ne (τ := τ) fun e => hb (Finset.mem_image.mpr ⟨o, Finset.mem_univ _, e.symm⟩)) _ _)⟩

end

theorem hinA {gr W : ℕ} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp

theorem houtA {gr W : ℕ} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

set_option backward.isDefEq.respectTransparency.types false in
/-- Region `p` as a step between valuations: entered at `V`, left at `V` overwritten at its output windows `O` with their final contents. -/
def reg (p : Fin 10) (l : Pipeline.LaunchFacts (nD := nD) (τ := τ) cfgs p) (V : Dev nD → Valuation τ sig (Elt F)) (O : List (Fin (cfgs p).W))
    (hb : ∀ c, BodyObligation (pdats m p c) defs₀ 𝒱₀ () Set.univ)
    (hA : ∀ c w, (pdats m p c).A w = V c (Pipeline.arrRef (cfgs p).spec w))
    (hi : ∀ w, w ∉ O → ((cfgs p).win w).isOut = false)
    (hin : ∀ c, iprop((∃ r, prngReg c r) ∗ Pipeline.prefHeld (pcfgs (F := F) p).pre c (fun _ => fullShare) (adm p).1 ∗ Pipeline.scopedRest (cfgs p).spec c) ⊢ (pdats m p c).Φ 0)
    (hout : ∀ c, (pdats m p c).Φ (Fin.last (cfgs p).N) ⊢ iprop((∃ r, prngReg c r) ∗ Pipeline.ownSems0 (fun k : PEmpty => k.elim) c ∗ Pipeline.scopedRest (cfgs p).spec c))
    (h0 : ∀ c t, (pdats m p c).owed t = 0 := by exact fun _ _ => rfl)
    (hr : ∀ c x, x ∈ (pdats m p c).recorded 0 := by exact fun _ _ => trivial)
    (hq : ∀ c w, (pdats m p c).q w = fullShare := by exact fun _ _ => rfl) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig) (O.foldl (wr (pdats m p c)) (V c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) l.win l.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0 c 0]
      icases HO with ⟨%W, HO⟩; iexists W; isplitr; · ipureintro; exact fun x _ => Or.inl (hr c x)
      iexact HO
    isplitl [Hp]; · iexact Hp
    iexact Hrest
  hin := hin
  hout := hout
  hexit c := by
    obtain ⟨hF, hrest⟩ := exits (pdats m p c) l.win O (V c) fun w hw => ((pdats m p c).arrAt_in w (hi w hw) _).trans (hA c w)
    have hjoin := Pipeline.unscopedBufs_of_arrays (p := p) (pcfgs (F := F)) adm (Ix := Unit) (Name := ℕ) (U := UR sig nD τ) (Lvl := ℕ)
      l.win l.arr_whole c (pdats m) ((pdats m p c).share_full (hq c))
      (fun b => V c b) (fun b => O.foldl (wr (pdats m p c)) (V c) b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c (Fin.last _)]
    icases HO with ⟨%W, -, HO⟩; iexists W; iexact HO

end Cert.Kernel.Gen

end
-- ==== Proof.K.Reg1Run.lean ====
-- sib.js proof/Proof/KI/Reg1Run.lean proof/Proof/K/Reg1Run.lean --kernel
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import proofs.«421377_j77326591197791_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem hz : (![0, 0] : Fin 2 → Nat) = fun _ => 0 := funext fun a => by fin_cases a <;> rfl

theorem out1_last (v : View sig .tc .vmem S1x128 .f32) (f : v.ty.Contents (Elt F)) (w : S1x128.Idx → Elt F .f32)
    (L : List (View.Piece (Elt F) S1x128 .f32)) :
    v.read (Elt F) (v.writes (Elt F) f (⟨Rect.unit (s := S1x128) ![0, 0] S1x128.size inb_S1x128_S1x128_0_0, w⟩ :: L)) = w :=
  (View.read_writes_eq_canon v f _ fun y => ⟨_, List.mem_cons_self, View.mem_set_unit_zero (S := S1x128) hz inb_S1x128_S1x128_0_0 y⟩).trans
    (View.canon_cons_unit_zero (S := S1x128) hz inb_S1x128_S1x128_0_0 w L)

theorem sound_kernel1 (c : Dev nD) (E : Set ℕ) (i : grid1.Coords)
    (argA : Memref sig .tc .vmem S5000x128 .f32) (hargA : argA.IsWhole) (argB : Memref sig .tc .vmem S1x128 .f32) (hargB : argB.IsWhole)
    (argC : Memref sig .tc .vmem S1x128 .f32) (hargC : argC.IsWhole) (argD : Memref sig .tc .vmem S1x128 .f32) (hargD : argD.IsWhole)
    (xa : Vec F S5000x128 .f32) (xb dc dd oc od : Vec F S1x128 .f32) (h : Step1 (cond1_0 i) xa xb dc dd oc od) (K : PUnit → sProp 𝕄) :
    iprop(owns (c : Thread nD τ) argA fullShare xa ∗ owns (c : Thread nD τ) argB fullShare xb
        ∗ owns (c : Thread nD τ) argC fullShare dc ∗ owns (c : Thread nD τ) argD fullShare dd
        ∗ (iprop(owns (c : Thread nD τ) argA fullShare xa ∗ owns (c : Thread nD τ) argB fullShare xb
            ∗ owns (c : Thread nD τ) argC fullShare oc ∗ owns (c : Thread nD τ) argD fullShare od) -∗ K ⟨⟩))
      ⊢ wp frame (wpE (defs₀ (F := F)) Variants.none c none) E (cc1__stats_kernel i argA hargA argB hargB argC hargC argD hargD) K := by
  simp only [cc1__stats_kernel_eq_skeleton]; unfold cc1__stats_kernel_skel owns
  iintro ⟨⟨%fa, %hfa, Ha⟩, ⟨%fb, %hfb, Hb⟩, ⟨%fc, %hfc, Hc⟩, ⟨%fd, %hfd, Hd⟩, Hk⟩
  obtain rfl := hargA.eq_unread hfa; obtain rfl := hargB.eq_unread hfb
  obtain rfl := hargC.eq_unread hfc; obtain rfl := hargD.eq_unread hfd
  rcases h with ⟨hc0, rfl, rfl⟩ | ⟨hc0, rfl, rfl⟩ <;>
  · sl_exec (disch := first | exact hc0)
    sl_step
    iapply Hk
    isplitl [Ha]
    · iexists _; isplitr; · ipureintro; exact hargA.read_unread _
      iexact Ha
    isplitl [Hb]
    · iexists _; isplitr; · ipureintro; exact hargB.read_unread _
      iexact Hb
    isplitl [Hc] <;>
    · iexists _; isplitr
      swap; · iassumption
      ipureintro
      sl_unfold_words
      refine (out1_last _ _ _ _).trans ?_
      simp only [View.readCov_unit_zero (S := S1x128) _ hz, View.readAt_eq_ld, hargA.read_unread, hargB.read_unread, hargC.read_unread,
        hargD.read_unread, View.ld_unit_zero (S := S5000x128) hz, View.ld_unit_zero (S := S1x128) hz]

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) fun _ =>
      iprop((dat1 V c).Φ t.castSucc ∗ (dat1 V c).owesAt () t.castSucc
        ∗ owns (c : Thread nD τ) (st1_0 t) fullShare (iblk1 V c 0 t)
        ∗ owns (c : Thread nD τ) (st1_1 t) fullShare (iblk1 V c 1 t)
        ∗ owns (c : Thread nD τ) (st1_2 t) fullShare ((dat1 V c).after 2 t)
        ∗ owns (c : Thread nD τ) (st1_3 t) fullShare ((dat1 V c).after 3 t)) := by
  simp only [before1_0, before1_1]
  iintro ⟨HΦ, Ho, ⟨%da, Ha⟩, ⟨%db, Hb⟩, ⟨%dc, Hc⟩, ⟨%dd, Hd⟩⟩
  iapply sound_kernel1 c Set.univ (grid1.coords t) _ _ _ _ _ _ _ _ _ _ _ _ _ _ (step1 V c t dc dd)
  iframe Ha Hb Hc Hd
  iintro ⟨Ha, Hb, Hc, Hd⟩
  iframe

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Reg4Run.lean ====
-- sib.js proof/Proof/KI/Reg4Run.lean proof/Proof/K/Reg4Run.lean --kernel
-- sib.js proof/Proof/KI/Reg1Run.lean proof/Proof/KI/Reg4Run.lean 1 4
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import proofs.«421377_j77326591197791_1_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem hz : (![0, 0] : Fin 2 → Nat) = fun _ => 0 := funext fun a => by fin_cases a <;> rfl

theorem out4_last (v : View sig .tc .vmem S1x128 .f32) (f : v.ty.Contents (Elt F)) (w : S1x128.Idx → Elt F .f32)
    (L : List (View.Piece (Elt F) S1x128 .f32)) :
    v.read (Elt F) (v.writes (Elt F) f (⟨Rect.unit (s := S1x128) ![0, 0] S1x128.size inb_S1x128_S1x128_0_0, w⟩ :: L)) = w :=
  (View.read_writes_eq_canon v f _ fun y => ⟨_, List.mem_cons_self, View.mem_set_unit_zero (S := S1x128) hz inb_S1x128_S1x128_0_0 y⟩).trans
    (View.canon_cons_unit_zero (S := S1x128) hz inb_S1x128_S1x128_0_0 w L)

theorem sound_kernel4 (c : Dev nD) (E : Set ℕ) (i : grid4.Coords)
    (argA : Memref sig .tc .vmem S5000x128 .f32) (hargA : argA.IsWhole) (argB : Memref sig .tc .vmem S1x128 .f32) (hargB : argB.IsWhole)
    (argC : Memref sig .tc .vmem S1x128 .f32) (hargC : argC.IsWhole) (argD : Memref sig .tc .vmem S1x128 .f32) (hargD : argD.IsWhole)
    (xa : Vec F S5000x128 .f32) (xb dc dd oc od : Vec F S1x128 .f32) (h : Step4 (cond4_0 i) xa xb dc dd oc od) (K : PUnit → sProp 𝕄) :
    iprop(owns (c : Thread nD τ) argA fullShare xa ∗ owns (c : Thread nD τ) argB fullShare xb
        ∗ owns (c : Thread nD τ) argC fullShare dc ∗ owns (c : Thread nD τ) argD fullShare dd
        ∗ (iprop(owns (c : Thread nD τ) argA fullShare xa ∗ owns (c : Thread nD τ) argB fullShare xb
            ∗ owns (c : Thread nD τ) argC fullShare oc ∗ owns (c : Thread nD τ) argD fullShare od) -∗ K ⟨⟩))
      ⊢ wp frame (wpE (defs₀ (F := F)) Variants.none c none) E (cc4__stats_kernel i argA hargA argB hargB argC hargC argD hargD) K := by
  simp only [cc4__stats_kernel_eq_skeleton]; unfold cc4__stats_kernel_skel owns
  iintro ⟨⟨%fa, %hfa, Ha⟩, ⟨%fb, %hfb, Hb⟩, ⟨%fc, %hfc, Hc⟩, ⟨%fd, %hfd, Hd⟩, Hk⟩
  obtain rfl := hargA.eq_unread hfa; obtain rfl := hargB.eq_unread hfb
  obtain rfl := hargC.eq_unread hfc; obtain rfl := hargD.eq_unread hfd
  rcases h with ⟨hc0, rfl, rfl⟩ | ⟨hc0, rfl, rfl⟩ <;>
  · sl_exec (disch := first | exact hc0)
    sl_step
    iapply Hk
    isplitl [Ha]
    · iexists _; isplitr; · ipureintro; exact hargA.read_unread _
      iexact Ha
    isplitl [Hb]
    · iexists _; isplitr; · ipureintro; exact hargB.read_unread _
      iexact Hb
    isplitl [Hc] <;>
    · iexists _; isplitr
      swap; · iassumption
      ipureintro
      sl_unfold_words
      refine (out4_last _ _ _ _).trans ?_
      simp only [View.readCov_unit_zero (S := S1x128) _ hz, View.readAt_eq_ld, hargA.read_unread, hargB.read_unread, hargC.read_unread,
        hargD.read_unread, View.ld_unit_zero (S := S5000x128) hz, View.ld_unit_zero (S := S1x128) hz]

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) fun _ =>
      iprop((dat4 V c).Φ t.castSucc ∗ (dat4 V c).owesAt () t.castSucc
        ∗ owns (c : Thread nD τ) (st4_0 t) fullShare (iblk4 V c 0 t)
        ∗ owns (c : Thread nD τ) (st4_1 t) fullShare (iblk4 V c 1 t)
        ∗ owns (c : Thread nD τ) (st4_2 t) fullShare ((dat4 V c).after 2 t)
        ∗ owns (c : Thread nD τ) (st4_3 t) fullShare ((dat4 V c).after 3 t)) := by
  simp only [before4_0, before4_1]
  iintro ⟨HΦ, Ho, ⟨%da, Ha⟩, ⟨%db, Hb⟩, ⟨%dc, Hc⟩, ⟨%dd, Hd⟩⟩
  iapply sound_kernel4 c Set.univ (grid4.coords t) _ _ _ _ _ _ _ _ _ _ _ _ _ _ (step4 V c t dc dd)
  iframe Ha Hb Hc Hd
  iintro ⟨Ha, Hb, Hc, Hd⟩
  iframe

theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.K.Reg7Run.lean ====
-- sib.js proof/Proof/KI/Reg7Run.lean proof/Proof/K/Reg7Run.lean --kernel
-- sib.js proof/Proof/KI/Reg1Run.lean proof/Proof/KI/Reg7Run.lean 1 7
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import proofs.«421377_j77326591197791_1_alg».proof.Proof.K.Reg7
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem hz : (![0, 0] : Fin 2 → Nat) = fun _ => 0 := funext fun a => by fin_cases a <;> rfl

theorem out7_last (v : View sig .tc .vmem S1x128 .f32) (f : v.ty.Contents (Elt F)) (w : S1x128.Idx → Elt F .f32)
    (L : List (View.Piece (Elt F) S1x128 .f32)) :
    v.read (Elt F) (v.writes (Elt F) f (⟨Rect.unit (s := S1x128) ![0, 0] S1x128.size inb_S1x128_S1x128_0_0, w⟩ :: L)) = w :=
  (View.read_writes_eq_canon v f _ fun y => ⟨_, List.mem_cons_self, View.mem_set_unit_zero (S := S1x128) hz inb_S1x128_S1x128_0_0 y⟩).trans
    (View.canon_cons_unit_zero (S := S1x128) hz inb_S1x128_S1x128_0_0 w L)

theorem sound_kernel7 (c : Dev nD) (E : Set ℕ) (i : grid7.Coords)
    (argA : Memref sig .tc .vmem S5000x128 .f32) (hargA : argA.IsWhole) (argB : Memref sig .tc .vmem S1x128 .f32) (hargB : argB.IsWhole)
    (argC : Memref sig .tc .vmem S1x128 .f32) (hargC : argC.IsWhole) (argD : Memref sig .tc .vmem S1x128 .f32) (hargD : argD.IsWhole)
    (xa : Vec F S5000x128 .f32) (xb dc dd oc od : Vec F S1x128 .f32) (h : Step7 (cond7_0 i) xa xb dc dd oc od) (K : PUnit → sProp 𝕄) :
    iprop(owns (c : Thread nD τ) argA fullShare xa ∗ owns (c : Thread nD τ) argB fullShare xb
        ∗ owns (c : Thread nD τ) argC fullShare dc ∗ owns (c : Thread nD τ) argD fullShare dd
        ∗ (iprop(owns (c : Thread nD τ) argA fullShare xa ∗ owns (c : Thread nD τ) argB fullShare xb
            ∗ owns (c : Thread nD τ) argC fullShare oc ∗ owns (c : Thread nD τ) argD fullShare od) -∗ K ⟨⟩))
      ⊢ wp frame (wpE (defs₀ (F := F)) Variants.none c none) E (cc7__stats_kernel i argA hargA argB hargB argC hargC argD hargD) K := by
  simp only [cc7__stats_kernel_eq_skeleton]; unfold cc7__stats_kernel_skel owns
  iintro ⟨⟨%fa, %hfa, Ha⟩, ⟨%fb, %hfb, Hb⟩, ⟨%fc, %hfc, Hc⟩, ⟨%fd, %hfd, Hd⟩, Hk⟩
  obtain rfl := hargA.eq_unread hfa; obtain rfl := hargB.eq_unread hfb
  obtain rfl := hargC.eq_unread hfc; obtain rfl := hargD.eq_unread hfd
  rcases h with ⟨hc0, rfl, rfl⟩ | ⟨hc0, rfl, rfl⟩ <;>
  · sl_exec (disch := first | exact hc0)
    sl_step
    iapply Hk
    isplitl [Ha]
    · iexists _; isplitr; · ipureintro; exact hargA.read_unread _
      iexact Ha
    isplitl [Hb]
    · iexists _; isplitr; · ipureintro; exact hargB.read_unread _
      iexact Hb
    isplitl [Hc] <;>
    · iexists _; isplitr
      swap; · iassumption
      ipureintro
      sl_unfold_words
      refine (out7_last _ _ _ _).trans ?_
      simp only [View.readCov_unit_zero (S := S1x128) _ hz, View.readAt_eq_ld, hargA.read_unread, hargB.read_unread, hargC.read_unread,
        hargD.read_unread, View.ld_unit_zero (S := S5000x128) hz, View.ld_unit_zero (S := S1x128) hz]

theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d)))
    ⊢ wp frame (wpE (defs₀ (F := F)) Variants.none c none) Set.univ (bodyAt7 t) fun _ =>
      iprop((dat7 V c).Φ t.castSucc ∗ (dat7 V c).owesAt () t.castSucc
        ∗ owns (c : Thread nD τ) (st7_0 t) fullShare (iblk7 V c 0 t)
        ∗ owns (c : Thread nD τ) (st7_1 t) fullShare (iblk7 V c 1 t)
        ∗ owns (c : Thread nD τ) (st7_2 t) fullShare ((dat7 V c).after 2 t)
        ∗ owns (c : Thread nD τ) (st7_3 t) fullShare ((dat7 V c).after 3 t)) := by
  simp only [before7_0, before7_1]
  iintro ⟨HΦ, Ho, ⟨%da, Ha⟩, ⟨%db, Hb⟩, ⟨%dc, Hc⟩, ⟨%dd, Hd⟩⟩
  iapply sound_kernel7 c Set.univ (grid7.coords t) _ _ _ _ _ _ _ _ _ _ _ _ _ _ (step7 V c t dc dd)
  iframe Ha Hb Hc Hd
  iintro ⟨Ha, Hb, Hc, Hd⟩
  iframe

theorem body_obligation7 (c : Dev nD) : BodyObligation (dat7 (F := F) V c) (defs₀ (F := F)) Variants.none () Set.univ := fun t => by
  rw [bigSep_W7, bigSep_W7]
  exact sound_body7 V c t

end Cert.Kernel.Gen

end
-- ==== Proof.K.Reg9.lean ====
-- sib.js proof/Proof/KI/Reg9.lean proof/Proof/K/Reg9.lean --kernel
import proofs.«421377_j77326591197791_1_alg».proof.Proof.Gen.Kernel.Launch
import proofs.«421377_j77326591197791_1_alg».proof.Proof.Gen.Kernel.Skeleton
import proofs.«421377_j77326591197791_1_alg».proof.Proof.Gen.Kernel.Points
import proofs.«421377_j77326591197791_1_alg».proof.Proof.K.Reg9Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz9 : (![0, 0] : Fin 2 → Nat) = fun _ => 0 := funext fun a => by fin_cases a <;> rfl

abbrev cond9_0 (i : grid9.Coords) : Prop := (Scalar.cmpi .ne (Scalar.extui (Scalar.cmpi .eq (BitVec.ofNat 32 (i 0).val) 0#32)) 0#32) = 1#1

theorem hcond9_0 : ∀ t : Fin cfg9.N, cond9_0 (grid9.coords t) ↔ t.val = 0 :=
  (by decide +kernel : ∀ t : Fin grid9.N, cond9_0 (grid9.coords t) ↔ t.val = 0)

abbrev cond9_1 (i : grid9.Coords) : Prop := k9_cond2 i = 1#1

theorem idleAt9_4 : ∀ t : Fin cfg9.N, ¬cond9_1 (grid9.coords t) → cfg9.idle 4 (grid9.coords t) = true := by decide +kernel
theorem noFlush9_4 : ∀ t : Fin cfg9.N, ¬cond9_1 (grid9.coords t) → (cfg9.win 4).flush t = false := by decide +kernel
theorem liveAt9_4 : ∀ t : Fin cfg9.N, cond9_1 (grid9.coords t) → cfg9.idle 4 (grid9.coords t) = false := by decide +kernel

theorem store9 (S : Shape) {κ : Kind} {sp : Space} {e : EltTy} (v : View sig κ sp S e) (f : v.ty.Contents (Elt F)) {off : Fin S.rank → Nat}
    (h : off = fun _ => 0) (inb) (w : S.Idx → Elt F e) (L) :
    v.read (Elt F) (v.writes (Elt F) f (⟨Rect.unit off S.size inb, w⟩ :: L)) = w := by
  rw [View.read_writes_eq_canon _ _ _ fun y => ⟨_, List.mem_cons.mpr (Or.inl rfl), View.mem_set_unit_zero h inb y⟩, View.canon_cons_unit_zero h]

theorem load9 (S : Shape) {κ : Kind} {sp : Space} {e : EltTy} (v : View sig κ sp S e) {off : Fin S.rank → Nat} (h : off = fun _ => 0) (inb)
    (w : S.Idx → Elt F e) (L) : v.readCov (⟨Rect.unit off S.size inb, w⟩ :: L) (Rect.unit off S.size inb).toLoadRect = w := by
  rw [View.readCov_eq_canon_ld _ _ _ fun y => ⟨_, List.mem_cons.mpr (Or.inl rfl), View.mem_set_unit_zero h inb y⟩, View.canon_cons_unit_zero h,
    View.ld_unit_zero h]

theorem sound_kernel9 (c : Dev nD) (E : Set ℕ) (i : grid9.Coords)
    (arg1 : Memref sig .tc .vmem S5000x128 .f32) (harg1 : arg1.IsWhole) (arg2 : Memref sig .tc .vmem S5000x1 .i32) (harg2 : arg2.IsWhole)
    (arg3 : Memref sig .tc .vmem S128x8 .f32) (harg3 : arg3.IsWhole) (arg4 : Memref sig .tc .vmem S1x8 .f32) (harg4 : arg4.IsWhole)
    (arg5 : Memref sig .tc .vmem S64x8 .f32) (harg5 : arg5.IsWhole) (arg6 : Memref sig .tc .vmem S64x128 .f32) (harg6 : arg6.IsWhole)
    (arg7 : Memref sig .tc .vmem S64x1 .f32) (harg7 : arg7.IsWhole)
    (x0 : Vec F S5000x128 .f32) (x1 : Vec F S5000x1 .i32) (x2 : Vec F S128x8 .f32) (x3 : Vec F S1x8 .f32) (x4 : Vec F S64x8 .f32)
    (s0 : Vec F S64x128 .f32) (s1 : Vec F S64x1 .f32) (K : PUnit → sProp 𝕄) :
    iprop(owns c arg1 fullShare x0 ∗ owns c arg2 fullShare x1 ∗ owns c arg3 fullShare x2
        ∗ owns c arg4 fullShare x3 ∗ owns c arg5 fullShare x4
        ∗ owns c arg6 fullShare s0 ∗ owns c arg7 fullShare s1
        ∗ (iprop(owns c arg1 fullShare x0 ∗ owns c arg2 fullShare x1 ∗ owns c arg3 fullShare x2
            ∗ owns c arg4 fullShare x3
            ∗ owns c arg5 fullShare (if cond9_1 i then k9_pay6 (k9_pay4 x1 (if cond9_0 i then (k9_pay1, k9_pay2) else (s0, s1)).1 x0)
                (k9_pay5 x1 (if cond9_0 i then (k9_pay1, k9_pay2) else (s0, s1)).2) x2 x3 else x4)
            ∗ owns c arg6 fullShare (k9_pay4 x1 (if cond9_0 i then (k9_pay1, k9_pay2) else (s0, s1)).1 x0)
            ∗ owns c arg7 fullShare (k9_pay5 x1 (if cond9_0 i then (k9_pay1, k9_pay2) else (s0, s1)).2)) -∗ K ⟨⟩))
      ⊢ wp frame (wpE (defs₀ (F := F)) Variants.none c none) E (cc9__pool_kernel i arg1 harg1 arg2 harg2 arg3 harg3 arg4 harg4 arg5 harg5 arg6 harg6 arg7 harg7) K := by
  simp only [cc9__pool_kernel_eq_skeleton]; unfold cc9__pool_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  by_cases hc0 : cond9_0 i <;> by_cases hc1 : cond9_1 i <;>
    (first | simp only [if_neg hc0] | simp only [if_pos hc0]) <;> (first | simp only [if_neg hc1] | simp only [if_pos hc1])
  all_goals
    sl_exec (disch := first | exact hc0 | exact hc1)
    sl_step
    iapply Hk
    isplitl [H0]; on_goal 2 => isplitl [H1]; on_goal 2 => isplitl [H2]; on_goal 2 => isplitl [H3]; on_goal 2 => isplitl [H4]; on_goal 2 => isplitl [H5]
    all_goals
      iexists _; isplitr; swap; · iassumption
      ipureintro
      first
      | sl_unfold_words
        simp only [store9 S64x8 _ _ hz9, store9 S64x128 _ _ hz9, store9 S64x1 _ _ hz9, View.readAt_eq_ld, View.ld_unit_zero (S := S5000x1) hz9,
          View.ld_unit_zero (S := S5000x128) hz9, View.ld_unit_zero (S := S64x128) hz9, View.ld_unit_zero (S := S64x1) hz9, View.ld_unit_zero (S := S128x8) hz9,
          View.ld_unit_zero (S := S1x8) hz9, load9 S64x128 _ hz9, load9 S64x1 _ hz9]
      | rfl

theorem leaves9_4 (c : Dev nD) (t : Fin cfg9.N) (d) :
    owns c (st9_4 t) fullShare (if cond9_1 (grid9.coords t) then out9 V c t else (dat9 V c).before 4 t d) ⊢ (dat9 V c).leavesExact 4 t := by
  by_cases h1 : cond9_1 (grid9.coords t)
  · rw [if_pos h1]; unfold Dat.leavesExact; rw [liveAt9_4 t h1]; exact .rfl
  · rw [if_neg h1, Dat.leavesExact_idle _ 4 t (idleAt9_4 t h1) (noFlush9_4 t h1)]; iintro H; iexists _; iexact H

theorem body_obligation9 (c : Dev nD) : BodyObligation (dat9 (F := F) V c) (defs₀ (F := F)) Variants.none () Set.univ := fun t => by
  rw [bigSep_W9, bigSep_W9, show (dat9 V c).Φ = Phi9 V c from rfl]
  show _ ⊢ wp _ _ _ (bodyAt9 t) _
  dsimp only
  simp (disch := decide) only [before9]
  unfold Phi9 bodyAt9
  iintro ⟨⟨⟨%s, %hs, HS0, HS1⟩, Hrest, Hg⟩, Ho, ⟨%d0, H0⟩, ⟨%d1, H1⟩, ⟨%d2, H2⟩, ⟨%d3, H3⟩, ⟨%d4, H4⟩⟩
  have e : (if cond9_0 (grid9.coords t) then (k9_pay1, k9_pay2) else (s.1, s.2)) = scr9 V c t.castSucc := by
    by_cases h : t.val = 0
    · rw [if_pos ((hcond9_0 t).mpr h), show t.castSucc = 0 from Fin.ext h]; rfl
    · rw [if_neg (mt (hcond9_0 t).mp h)]; exact hs fun h' => h (congrArg Fin.val h')
  iapply sound_kernel9 c Set.univ (grid9.coords t) _ _ _ _ _ _ _ _ _ _ _ _ _ _ _ _ _ _ _ s.1 s.2 _
  isplitl [H0]; on_goal 2 => isplitl [H1]; on_goal 2 => isplitl [H2]; on_goal 2 => isplitl [H3]; on_goal 2 => isplitl [H4]; on_goal 2 => isplitl [HS0]; on_goal 2 => isplitl [HS1]
  iterate 7 iassumption
  iintro ⟨H0, H1, H2, H3, H4, HS0, HS1⟩
  rw [e]
  isplitl [HS0 HS1 Hrest Hg]
  · isplitl [HS0 HS1]
    · iexists (_, _); isplitr; swap
      · isplitl [HS0] <;> iassumption
      ipureintro; exact fun _ => rfl
    isplitl [Hrest] <;> iassumption
  isplitl [Ho]; on_goal 2 => isplitl [H0]; on_goal 2 => isplitl [H1]; on_goal 2 => isplitl [H2]; on_goal 2 => isplitl [H3]
  iexact Ho; iexact H0; iexact H1; iexact H2; iexact H3
  iapply leaves9_4 V c t d4
  iexact H4

theorem hin9 (c : Dev nD) (T : (pcfgs (F := F) 9).pre.Contents (Elt F)) :
    iprop((∃ r, prngReg c r) ∗ Pipeline.prefHeld (Ix := Unit) (Name := ℕ) (U := UR sig nD τ) (Lvl := ℕ) (pcfgs (F := F) 9).pre c (fun _ => fullShare) T
        ∗ Pipeline.scopedRest (Ix := Unit) (Name := ℕ) (U := UR sig nD τ) (Lvl := ℕ) (Val := Elt F) spec9 c)
      ⊢ ((dat9 V c).Φ 0 : sProp 𝕄) := by
  rw [show (dat9 V c).Φ 0 = Phi9 V c 0 from rfl, scopedRest9_split]; unfold Phi9
  simp only [scM9_0, scM9_1, owns_whole]
  iintro ⟨Hp, -, ⟨⟨⟨%d0, HS0⟩, ⟨%d1, HS1⟩⟩, Hrest⟩⟩
  isplitl [HS0 HS1]
  · iexists (d0, d1); isplitr; · ipureintro; exact fun h => absurd rfl h
    isplitl [HS0] <;> iassumption
  isplitl [Hrest] <;> iassumption

theorem hout9 (c : Dev nD) :
    ((dat9 V c).Φ (Fin.last cfg9.N) : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec9 c) := by
  rw [Pipeline.ownSems0_none, show (dat9 V c).Φ (Fin.last cfg9.N) = Phi9 V c (Fin.last _) from rfl, scopedRest9_split]; unfold Phi9
  simp only [scM9_0, scM9_1, owns_whole]
  iintro ⟨⟨%s, -, HS0, HS1⟩, Hrest, Hg⟩
  isplitl [Hg]; · iexact Hg
  isplitr; · iempintro
  isplitl [HS0 HS1]
  · isplitl [HS0] <;> (iexists _; iassumption)
  iexact Hrest

end Cert.Kernel.Gen

end
-- ==== Proof.K.Frame.lean ====
import proofs.«421377_j77326591197791_1_alg».proof.Proof.K.FrameRegs
import proofs.«421377_j77326591197791_1_alg».proof.Proof.Gen.Kernel.Regions
import proofs.«421377_j77326591197791_1_alg».proof.Proof.K.Reg1Run
import proofs.«421377_j77326591197791_1_alg».proof.Proof.K.Reg4Run
import proofs.«421377_j77326591197791_1_alg».proof.Proof.K.Reg7Run
import proofs.«421377_j77326591197791_1_alg».proof.Proof.K.Reg9

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_cond (m := m) (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE10 := fun c => by
      iintro ⟨-, HO⟩; iexact HO)
    (R0 := reg m 0 launch0 (V3 m) [2] (body_obligation0 (T3 m)) (A_eq0 (T3 m)) (by decide) (fun c => hinA spec0 c _) (houtA spec0))
    (hpre0 := fun c => .rfl) (hpost0 := fun c => by rw [V4_eq m c]; exact .rfl)
    (R1 := reg m 1 launch1 (X5 m) [2, 3] (body_obligation1 (T5 m)) (A_eq1 (T5 m)) (by decide) (fun c => hinA spec1 c _) (houtA spec1))
    (hpre1 := fun c => by rw [V5_eq m c]; exact .rfl) (hpost1 := fun c => by rw [V6_eq m c]; exact .rfl)
    (R2 := reg m 2 launch2 (X7 m) [6] (body_obligation2 (T7 m)) (A_eq2 (T7 m)) (by decide) (fun c => hinA spec2 c _) (houtA spec2))
    (hpre2 := fun c => by rw [V7_eq m c]; exact .rfl) (hpost2 := fun c => by rw [V8_eq m c]; exact .rfl)
    (R3 := reg m 3 launch3 (X8 m) [2] (body_obligation3 (T8 m)) (A_eq3 (T8 m)) (by decide) (fun c => hinA spec3 c _) (houtA spec3))
    (hpre3 := fun c => by rw [V8_eq m c]; exact .rfl) (hpost3 := fun c => by rw [V9_eq m c]; exact .rfl)
    (R4 := reg m 4 launch4 (X10 m) [2, 3] (body_obligation4 (T10 m)) (A_eq4 (T10 m)) (by decide) (fun c => hinA spec4 c _) (houtA spec4))
    (hpre4 := fun c => by rw [V10_eq m c]; exact .rfl) (hpost4 := fun c => by rw [V11_eq m c]; exact .rfl)
    (R5 := reg m 5 launch5 (X12 m) [6] (body_obligation5 (T12 m)) (A_eq5 (T12 m)) (by decide) (fun c => hinA spec5 c _) (houtA spec5))
    (hpre5 := fun c => by rw [V12_eq m c]; exact .rfl) (hpost5 := fun c => by rw [V13_eq m c]; exact .rfl)
    (R6 := reg m 6 launch6 (X13 m) [2] (body_obligation6 (T13 m)) (A_eq6 (T13 m)) (by decide) (fun c => hinA spec6 c _) (houtA spec6))
    (hpre6 := fun c => by rw [V13_eq m c]; exact .rfl) (hpost6 := fun c => by rw [V14_eq m c]; exact .rfl)
    (R7 := reg m 7 launch7 (X15 m) [2, 3] (body_obligation7 (T15 m)) (A_eq7 (T15 m)) (by decide) (fun c => hinA spec7 c _) (houtA spec7))
    (hpre7 := fun c => by rw [V15_eq m c]; exact .rfl) (hpost7 := fun c => by rw [V16_eq m c]; exact .rfl)
    (R8 := reg m 8 launch8 (X17 m) [6] (body_obligation8 (T17 m)) (A_eq8 (T17 m)) (by decide) (fun c => hinA spec8 c _) (houtA spec8))
    (hpre8 := fun c => by rw [V17_eq m c]; exact .rfl) (hpost8 := fun c => by rw [V18_eq m c]; exact .rfl)
    (R9 := reg m 9 launch9 (X19 m) [4] (body_obligation9 (T19 m)) (A_eq9 (T19 m)) (by decide) (fun c => hin9 (T19 m) c _) (hout9 (T19 m)))
    (hpre9 := fun c => by rw [V19_eq m c]; exact .rfl) (hpost9 := fun c => by rw [V20_eq m c]; exact .rfl)

end Cert.Kernel.Gen

end
-- ==== Proof.KI.Reg0.lean ====
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0

def out0_2 (x0 : Vec F S5000x128 .f32) (x1 : Vec F S128x128 .f32) : Vec F S5000x128 .f32 :=
  View.canon [⟨r0_0, k0_pay1 (View.ld x0 r0_0) (View.ld x1 (Rect.unit (s := S128x128) ![0, 0] S128x128.size inb_S128x128_S128x128_0_0))⟩]

theorem sound_kernel0 {c : Dev nD} {E : Set ℕ} {i : grid0.Coords} {arg1 arg3 : Memref sig .tc .vmem S5000x128 .f32}
    {arg2 : Memref sig .tc .vmem S128x128 .f32} {harg1 : arg1.IsWhole} {harg2 : arg2.IsWhole} {harg3 : arg3.IsWhole}
    {x0 d : Vec F S5000x128 .f32} {x1 : Vec F S128x128 .f32} {K : PUnit → sProp 𝕄} :
    iprop(owns c.tc arg1 fullShare x0 ∗ owns c.tc arg2 fullShare x1 ∗ owns c.tc arg3 fullShare d
        ∗ (iprop(owns c.tc arg1 fullShare x0 ∗ owns c.tc arg2 fullShare x1 ∗ owns c.tc arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel owns
  iintro ⟨⟨%f0, %hf0, H0⟩, ⟨%f1, %hf1, H1⟩, ⟨%f2, -, H2⟩, Hk⟩
  subst hf0 hf1
  sl_exec
  sl_step
  iapply Hk
  isplitl [H0]; · istop; exact owns_intro _ _ _ _
  isplitl [H1]; · istop; exact owns_intro _ _ _ _
  iexists _; iframe
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_2 (c : Dev nD) (t : Fin cfg0.N) : (dat0 V c).after 2 t = out0_2 (iblk0 V c 0 t) (iblk0 V c 1 t) := by dsimp only [dat0]

theorem before0 (c : Dev nD) (t : Fin cfg0.N) (w : Fin cfg0.W) (hw : w ≠ 2) (d) :
    (dat0 V c).before w t d = (dat0 V c).after w t := by
  fin_cases w <;> first | exact absurd rfl hw | exact (dat0 V c).before_in_eq_fetched _ rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp +decide only [before0 V c t]
  sl_whnfR [defs₀, Defs.onTc]
  rw [show (dat0 V c).Φ t.succ = (dat0 V c).Φ t.castSucc from rfl,
    show (dat0 V c).owesAt () t.succ = (dat0 V c).owesAt () t.castSucc from rfl, after0_2]
  iintro ⟨HΦ, Ho, ⟨%d0, H0⟩, ⟨%d1, H1⟩, %d2, H2⟩
  iapply sound_kernel0
  iframe H0 H1 H2
  iintro ⟨H0, H1, H2⟩
  iframe; iexact H2

end Cert.KernelIdeal.Gen
-- ==== Proof.KI.Reg1.lean ====
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

def outsAt1 (c : Dev nD) : (n : ℕ) → n < cfg1.N → Vec F S1x128 .f32 × Vec F S1x128 .f32
  | 0, hn => (k1_pay4 (iblk1 V c 0 ⟨0, hn⟩) (iblk1 V c 1 ⟨0, hn⟩) k1_pay1,
              k1_pay5 (iblk1 V c 0 ⟨0, hn⟩) (iblk1 V c 1 ⟨0, hn⟩) k1_pay2)
  | n + 1, hn => (k1_pay4 (iblk1 V c 0 ⟨n + 1, hn⟩) (iblk1 V c 1 ⟨n + 1, hn⟩) (outsAt1 c n (Nat.lt_of_succ_lt hn)).1,
                  k1_pay5 (iblk1 V c 0 ⟨n + 1, hn⟩) (iblk1 V c 1 ⟨n + 1, hn⟩) (outsAt1 c n (Nat.lt_of_succ_lt hn)).2)

theorem outsAt1_zero (c : Dev nD) (h : 0 < cfg1.N) :
    outsAt1 V c 0 h = (k1_pay4 (iblk1 V c 0 ⟨0, h⟩) (iblk1 V c 1 ⟨0, h⟩) k1_pay1,
                       k1_pay5 (iblk1 V c 0 ⟨0, h⟩) (iblk1 V c 1 ⟨0, h⟩) k1_pay2) := rfl

theorem outsAt1_succ (c : Dev nD) (n : ℕ) (h : n + 1 < cfg1.N) :
    outsAt1 V c (n + 1) h = (k1_pay4 (iblk1 V c 0 ⟨n + 1, h⟩) (iblk1 V c 1 ⟨n + 1, h⟩) (outsAt1 V c n (Nat.lt_of_succ_lt h)).1,
                             k1_pay5 (iblk1 V c 0 ⟨n + 1, h⟩) (iblk1 V c 1 ⟨n + 1, h⟩) (outsAt1 V c n (Nat.lt_of_succ_lt h)).2) := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = (outsAt1 V c t.val t.isLt).1 := rfl
theorem after1_3 (c : Dev nD) (t : Fin cfg1.N) : (dat1 V c).after 3 t = (outsAt1 V c t.val t.isLt).2 := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

def Step1 (b : Prop) (xa : Vec F S5000x128 .f32) (xb dc dd oc od : Vec F S1x128 .f32) : Prop :=
  b ∧ oc = k1_pay4 xa xb k1_pay1 ∧ od = k1_pay5 xa xb k1_pay2 ∨ ¬b ∧ oc = k1_pay4 xa xb dc ∧ od = k1_pay5 xa xb dd

theorem step1 (c : Dev nD) (t : Fin cfg1.N) (d2 d3) :
    Step1 (cond1_0 (grid1.coords t)) (iblk1 V c 0 t) (iblk1 V c 1 t) ((dat1 V c).before 2 t d2) ((dat1 V c).before 3 t d3)
      ((dat1 V c).after 2 t) ((dat1 V c).after 3 t) := by
  obtain ⟨n, hn⟩ := t
  have hN : n < 10 := lt_of_lt_of_eq hn (show cfg1.N = 10 from N_1)
  cases n with
  | zero => exact .inl ⟨(hcond1_0 _).mpr rfl, rfl, rfl⟩
  | succ n =>
    exact .inr ⟨fun h => Nat.succ_ne_zero n ((hcond1_0 _).mp h),
      congrArg (k1_pay4 _ _) ((dat1 V c).before_out_kept 2 rfl ⟨n + 1, hn⟩ (Nat.succ_ne_zero n)
        (Bool.eq_false_iff.mpr fun h => by have := (flush1_2 _).mp h; dsimp only at this; omega) (fun _ => rfl) (fun _ _ => rfl) d2).symm,
      congrArg (k1_pay5 _ _) ((dat1 V c).before_out_kept 3 rfl ⟨n + 1, hn⟩ (Nat.succ_ne_zero n)
        (Bool.eq_false_iff.mpr fun h => by have := (flush1_3 _).mp h; dsimp only at this; omega) (fun _ => rfl) (fun _ _ => rfl) d3).symm⟩

end Cert.KernelIdeal.Gen

end
-- ==== Proof.KI.Reg2.lean ====
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_6 (x0 : Vec F S5000x128 .f32) (x1 x2 x3 x4 x5 : Vec F S1x128 .f32) : Vec F S5000x128 .f32 :=
  View.canon [⟨Rect.unit (s := S5000x128) ![0, 0] S5000x128.size inb_S5000x128_S5000x128_0_0,
    k2_pay1 (View.ld x0 (Rect.unit (s := S5000x128) ![0, 0] S5000x128.size inb_S5000x128_S5000x128_0_0))
      (View.ld x1 (Rect.unit (s := S1x128) ![0, 0] S1x128.size inb_S1x128_S1x128_0_0))
      (View.ld x5 (Rect.unit (s := S1x128) ![0, 0] S1x128.size inb_S1x128_S1x128_0_0))
      (View.ld x4 (Rect.unit (s := S1x128) ![0, 0] S1x128.size inb_S1x128_S1x128_0_0))
      (View.ld x2 (Rect.unit (s := S1x128) ![0, 0] S1x128.size inb_S1x128_S1x128_0_0))
      (View.ld x3 (Rect.unit (s := S1x128) ![0, 0] S1x128.size inb_S1x128_S1x128_0_0))⟩]

theorem sound_kernel2 (c : Dev nD) (E : Set ℕ) (i : grid2.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2__norm_relu_kernel i arg0 harg0 arg1 harg1 arg2 harg2 arg3 harg3 arg4 harg4 arg5 harg5 arg6 harg6) K := by
  simp only [cc2__norm_relu_kernel_eq_skeleton]; unfold cc2__norm_relu_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  isplitl [H4]; · istop; exact owns_intro _ _ _ _
  isplitl [H5]; · istop; exact owns_intro _ _ _ _
  iexists _; iframe
  ipureintro
  exact View.read_writes_eq_canon _ _ _ (View.cover_of_tiled _ S5000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) (w : Fin cfg2.W) (hw : w ≠ 6) (d) :
    (dat2 V c).before w t d = (dat2 V c).after w t := by
  fin_cases w <;> first | exact absurd rfl hw | exact (dat2 V c).before_in_eq_fetched _ rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp +decide only [before2 V c t]
  sl_whnfR [defs₀, Defs.onTc]
  rw [show (dat2 V c).Φ t.succ = (dat2 V c).Φ t.castSucc from rfl,
    show (dat2 V c).owesAt () t.succ = (dat2 V c).owesAt () t.castSucc from rfl, after2_6]
  iintro ⟨HΦ, Ho, ⟨%d0, H0⟩, ⟨%d1, H1⟩, ⟨%d2, H2⟩, ⟨%d3, H3⟩, ⟨%d4, H4⟩, ⟨%d5, H5⟩, %d6, H6⟩
  iapply (sound_kernel2 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe; iexact H6

end Cert.KernelIdeal.Gen

end
-- ==== Proof.KI.Reg3.lean ====
-- sib.js proof/Proof/KI/Reg0.lean proof/Proof/KI/Reg3.lean 0 3
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S5000x128 := Rect.unit (s := S5000x128) ![0, 0] S5000x128.size inb_S5000x128_S5000x128_0_0

def out3_2 (x0 : Vec F S5000x128 .f32) (x1 : Vec F S128x128 .f32) : Vec F S5000x128 .f32 :=
  View.canon [⟨r3_0, k3_pay1 (View.ld x0 r3_0) (View.ld x1 (Rect.unit (s := S128x128) ![0, 0] S128x128.size inb_S128x128_S128x128_0_0))⟩]

theorem sound_kernel3 {c : Dev nD} {E : Set ℕ} {i : grid3.Coords} {arg1 arg3 : Memref sig .tc .vmem S5000x128 .f32}
    {arg2 : Memref sig .tc .vmem S128x128 .f32} {harg1 : arg1.IsWhole} {harg2 : arg2.IsWhole} {harg3 : arg3.IsWhole}
    {x0 d : Vec F S5000x128 .f32} {x1 : Vec F S128x128 .f32} {K : PUnit → sProp 𝕄} :
    iprop(owns c.tc arg1 fullShare x0 ∗ owns c.tc arg2 fullShare x1 ∗ owns c.tc arg3 fullShare d
        ∗ (iprop(owns c.tc arg1 fullShare x0 ∗ owns c.tc arg2 fullShare x1 ∗ owns c.tc arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel owns
  iintro ⟨⟨%f0, %hf0, H0⟩, ⟨%f1, %hf1, H1⟩, ⟨%f2, -, H2⟩, Hk⟩
  subst hf0 hf1
  sl_exec
  sl_step
  iapply Hk
  isplitl [H0]; · istop; exact owns_intro _ _ _ _
  isplitl [H1]; · istop; exact owns_intro _ _ _ _
  iexists _; iframe
  ipureintro
  exact View.read_writes_eq_canon _ _ _ (View.cover_of_tiled _ S5000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_2 (c : Dev nD) (t : Fin cfg3.N) : (dat3 V c).after 2 t = out3_2 (iblk3 V c 0 t) (iblk3 V c 1 t) := by dsimp only [dat3]

theorem before3 (c : Dev nD) (t : Fin cfg3.N) (w : Fin cfg3.W) (hw : w ≠ 2) (d) :
    (dat3 V c).before w t d = (dat3 V c).after w t := by
  fin_cases w <;> first | exact absurd rfl hw | exact (dat3 V c).before_in_eq_fetched _ rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp +decide only [before3 V c t]
  sl_whnfR [defs₀, Defs.onTc]
  rw [show (dat3 V c).Φ t.succ = (dat3 V c).Φ t.castSucc from rfl,
    show (dat3 V c).owesAt () t.succ = (dat3 V c).owesAt () t.castSucc from rfl, after3_2]
  iintro ⟨HΦ, Ho, ⟨%d0, H0⟩, ⟨%d1, H1⟩, %d2, H2⟩
  iapply sound_kernel3
  iframe H0 H1 H2
  iintro ⟨H0, H1, H2⟩
  iframe; iexact H2

end Cert.KernelIdeal.Gen
-- ==== Proof.KI.Reg4.lean ====
-- sib.js proof/Proof/KI/Reg1.lean proof/Proof/KI/Reg4.lean 1 4
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

def outsAt4 (c : Dev nD) : (n : ℕ) → n < cfg4.N → Vec F S1x128 .f32 × Vec F S1x128 .f32
  | 0, hn => (k4_pay4 (iblk4 V c 0 ⟨0, hn⟩) (iblk4 V c 1 ⟨0, hn⟩) k4_pay1,
              k4_pay5 (iblk4 V c 0 ⟨0, hn⟩) (iblk4 V c 1 ⟨0, hn⟩) k4_pay2)
  | n + 1, hn => (k4_pay4 (iblk4 V c 0 ⟨n + 1, hn⟩) (iblk4 V c 1 ⟨n + 1, hn⟩) (outsAt4 c n (Nat.lt_of_succ_lt hn)).1,
                  k4_pay5 (iblk4 V c 0 ⟨n + 1, hn⟩) (iblk4 V c 1 ⟨n + 1, hn⟩) (outsAt4 c n (Nat.lt_of_succ_lt hn)).2)

theorem outsAt4_zero (c : Dev nD) (h : 0 < cfg4.N) :
    outsAt4 V c 0 h = (k4_pay4 (iblk4 V c 0 ⟨0, h⟩) (iblk4 V c 1 ⟨0, h⟩) k4_pay1,
                       k4_pay5 (iblk4 V c 0 ⟨0, h⟩) (iblk4 V c 1 ⟨0, h⟩) k4_pay2) := rfl

theorem outsAt4_succ (c : Dev nD) (n : ℕ) (h : n + 1 < cfg4.N) :
    outsAt4 V c (n + 1) h = (k4_pay4 (iblk4 V c 0 ⟨n + 1, h⟩) (iblk4 V c 1 ⟨n + 1, h⟩) (outsAt4 V c n (Nat.lt_of_succ_lt h)).1,
                             k4_pay5 (iblk4 V c 0 ⟨n + 1, h⟩) (iblk4 V c 1 ⟨n + 1, h⟩) (outsAt4 V c n (Nat.lt_of_succ_lt h)).2) := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = (outsAt4 V c t.val t.isLt).1 := rfl
theorem after4_3 (c : Dev nD) (t : Fin cfg4.N) : (dat4 V c).after 3 t = (outsAt4 V c t.val t.isLt).2 := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

def Step4 (b : Prop) (xa : Vec F S5000x128 .f32) (xb dc dd oc od : Vec F S1x128 .f32) : Prop :=
  b ∧ oc = k4_pay4 xa xb k4_pay1 ∧ od = k4_pay5 xa xb k4_pay2 ∨ ¬b ∧ oc = k4_pay4 xa xb dc ∧ od = k4_pay5 xa xb dd

theorem step4 (c : Dev nD) (t : Fin cfg4.N) (d2 d3) :
    Step4 (cond4_0 (grid4.coords t)) (iblk4 V c 0 t) (iblk4 V c 1 t) ((dat4 V c).before 2 t d2) ((dat4 V c).before 3 t d3)
      ((dat4 V c).after 2 t) ((dat4 V c).after 3 t) := by
  obtain ⟨n, hn⟩ := t
  have hN : n < 10 := lt_of_lt_of_eq hn (show cfg4.N = 10 from N_4)
  cases n with
  | zero => exact .inl ⟨(hcond4_0 _).mpr rfl, rfl, rfl⟩
  | succ n =>
    exact .inr ⟨fun h => Nat.succ_ne_zero n ((hcond4_0 _).mp h),
      congrArg (k4_pay4 _ _) ((dat4 V c).before_out_kept 2 rfl ⟨n + 1, hn⟩ (Nat.succ_ne_zero n)
        (Bool.eq_false_iff.mpr fun h => by have := (flush4_2 _).mp h; dsimp only at this; omega) (fun _ => rfl) (fun _ _ => rfl) d2).symm,
      congrArg (k4_pay5 _ _) ((dat4 V c).before_out_kept 3 rfl ⟨n + 1, hn⟩ (Nat.succ_ne_zero n)
        (Bool.eq_false_iff.mpr fun h => by have := (flush4_3 _).mp h; dsimp only at this; omega) (fun _ => rfl) (fun _ _ => rfl) d3).symm⟩

end Cert.KernelIdeal.Gen

end
-- ==== Proof.KI.Reg5.lean ====
-- sib.js proof/Proof/KI/Reg2.lean proof/Proof/KI/Reg5.lean 2 5
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_6 (x0 : Vec F S5000x128 .f32) (x1 x2 x3 x4 x5 : Vec F S1x128 .f32) : Vec F S5000x128 .f32 :=
  View.canon [⟨Rect.unit (s := S5000x128) ![0, 0] S5000x128.size inb_S5000x128_S5000x128_0_0,
    k5_pay1 (View.ld x0 (Rect.unit (s := S5000x128) ![0, 0] S5000x128.size inb_S5000x128_S5000x128_0_0))
      (View.ld x1 (Rect.unit (s := S1x128) ![0, 0] S1x128.size inb_S1x128_S1x128_0_0))
      (View.ld x5 (Rect.unit (s := S1x128) ![0, 0] S1x128.size inb_S1x128_S1x128_0_0))
      (View.ld x4 (Rect.unit (s := S1x128) ![0, 0] S1x128.size inb_S1x128_S1x128_0_0))
      (View.ld x2 (Rect.unit (s := S1x128) ![0, 0] S1x128.size inb_S1x128_S1x128_0_0))
      (View.ld x3 (Rect.unit (s := S1x128) ![0, 0] S1x128.size inb_S1x128_S1x128_0_0))⟩]

theorem sound_kernel5 (c : Dev nD) (E : Set ℕ) (i : grid5.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out5_6 x0 x1 x2 x3 x4 x5)) -∗ K ⟨⟩))
      ⊢ wp frame (wpE (defs₀ (F := F)) Variants.none c none) E (cc5__norm_relu_kernel i arg0 harg0 arg1 harg1 arg2 harg2 arg3 harg3 arg4 harg4 arg5 harg5 arg6 harg6) K := by
  simp only [cc5__norm_relu_kernel_eq_skeleton]; unfold cc5__norm_relu_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  isplitl [H4]; · istop; exact owns_intro _ _ _ _
  isplitl [H5]; · istop; exact owns_intro _ _ _ _
  iexists _; iframe
  ipureintro
  exact View.read_writes_eq_canon _ _ _ (View.cover_of_tiled _ S5000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) (w : Fin cfg5.W) (hw : w ≠ 6) (d) :
    (dat5 V c).before w t d = (dat5 V c).after w t := by
  fin_cases w <;> first | exact absurd rfl hw | exact (dat5 V c).before_in_eq_fetched _ rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp +decide only [before5 V c t]
  sl_whnfR [defs₀, Defs.onTc]
  rw [show (dat5 V c).Φ t.succ = (dat5 V c).Φ t.castSucc from rfl,
    show (dat5 V c).owesAt () t.succ = (dat5 V c).owesAt () t.castSucc from rfl, after5_6]
  iintro ⟨HΦ, Ho, ⟨%d0, H0⟩, ⟨%d1, H1⟩, ⟨%d2, H2⟩, ⟨%d3, H3⟩, ⟨%d4, H4⟩, ⟨%d5, H5⟩, %d6, H6⟩
  iapply (sound_kernel5 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe; iexact H6

end Cert.KernelIdeal.Gen

end
-- ==== Proof.KI.Reg6.lean ====
-- sib.js proof/Proof/KI/Reg0.lean proof/Proof/KI/Reg6.lean 0 6
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0

def out6_2 (x0 : Vec F S5000x128 .f32) (x1 : Vec F S128x128 .f32) : Vec F S5000x128 .f32 :=
  View.canon [⟨r6_0, k6_pay1 (View.ld x0 r6_0) (View.ld x1 (Rect.unit (s := S128x128) ![0, 0] S128x128.size inb_S128x128_S128x128_0_0))⟩]

theorem sound_kernel6 {c : Dev nD} {E : Set ℕ} {i : grid6.Coords} {arg1 arg3 : Memref sig .tc .vmem S5000x128 .f32}
    {arg2 : Memref sig .tc .vmem S128x128 .f32} {harg1 : arg1.IsWhole} {harg2 : arg2.IsWhole} {harg3 : arg3.IsWhole}
    {x0 d : Vec F S5000x128 .f32} {x1 : Vec F S128x128 .f32} {K : PUnit → sProp 𝕄} :
    iprop(owns c.tc arg1 fullShare x0 ∗ owns c.tc arg2 fullShare x1 ∗ owns c.tc arg3 fullShare d
        ∗ (iprop(owns c.tc arg1 fullShare x0 ∗ owns c.tc arg2 fullShare x1 ∗ owns c.tc arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel owns
  iintro ⟨⟨%f0, %hf0, H0⟩, ⟨%f1, %hf1, H1⟩, ⟨%f2, -, H2⟩, Hk⟩
  subst hf0 hf1
  sl_exec
  sl_step
  iapply Hk
  isplitl [H0]; · istop; exact owns_intro _ _ _ _
  isplitl [H1]; · istop; exact owns_intro _ _ _ _
  iexists _; iframe
  ipureintro
  exact View.read_writes_eq_canon _ _ _ (View.cover_of_tiled _ S5000x128.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by dsimp only [dat6]

theorem after6_2 (c : Dev nD) (t : Fin cfg6.N) : (dat6 V c).after 2 t = out6_2 (iblk6 V c 0 t) (iblk6 V c 1 t) := by dsimp only [dat6]

theorem before6 (c : Dev nD) (t : Fin cfg6.N) (w : Fin cfg6.W) (hw : w ≠ 2) (d) :
    (dat6 V c).before w t d = (dat6 V c).after w t := by
  fin_cases w <;> first | exact absurd rfl hw | exact (dat6 V c).before_in_eq_fetched _ rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  simp +decide only [before6 V c t]
  sl_whnfR [defs₀, Defs.onTc]
  rw [show (dat6 V c).Φ t.succ = (dat6 V c).Φ t.castSucc from rfl,
    show (dat6 V c).owesAt () t.succ = (dat6 V c).owesAt () t.castSucc from rfl, after6_2]
  iintro ⟨HΦ, Ho, ⟨%d0, H0⟩, ⟨%d1, H1⟩, %d2, H2⟩
  iapply sound_kernel6
  iframe H0 H1 H2
  iintro ⟨H0, H1, H2⟩
  iframe; iexact H2

end Cert.KernelIdeal.Gen
-- ==== Proof.KI.Reg7.lean ====
-- sib.js proof/Proof/KI/Reg1.lean proof/Proof/KI/Reg7.lean 1 7
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val = 0 :=
  (by decide +kernel : ∀ t : Fin grid7.N, cond7_0 (grid7.coords t) ↔ t.val = 0)

def outsAt7 (c : Dev nD) : (n : ℕ) → n < cfg7.N → Vec F S1x128 .f32 × Vec F S1x128 .f32
  | 0, hn => (k7_pay4 (iblk7 V c 0 ⟨0, hn⟩) (iblk7 V c 1 ⟨0, hn⟩) k7_pay1,
              k7_pay5 (iblk7 V c 0 ⟨0, hn⟩) (iblk7 V c 1 ⟨0, hn⟩) k7_pay2)
  | n + 1, hn => (k7_pay4 (iblk7 V c 0 ⟨n + 1, hn⟩) (iblk7 V c 1 ⟨n + 1, hn⟩) (outsAt7 c n (Nat.lt_of_succ_lt hn)).1,
                  k7_pay5 (iblk7 V c 0 ⟨n + 1, hn⟩) (iblk7 V c 1 ⟨n + 1, hn⟩) (outsAt7 c n (Nat.lt_of_succ_lt hn)).2)

theorem outsAt7_zero (c : Dev nD) (h : 0 < cfg7.N) :
    outsAt7 V c 0 h = (k7_pay4 (iblk7 V c 0 ⟨0, h⟩) (iblk7 V c 1 ⟨0, h⟩) k7_pay1,
                       k7_pay5 (iblk7 V c 0 ⟨0, h⟩) (iblk7 V c 1 ⟨0, h⟩) k7_pay2) := rfl

theorem outsAt7_succ (c : Dev nD) (n : ℕ) (h : n + 1 < cfg7.N) :
    outsAt7 V c (n + 1) h = (k7_pay4 (iblk7 V c 0 ⟨n + 1, h⟩) (iblk7 V c 1 ⟨n + 1, h⟩) (outsAt7 V c n (Nat.lt_of_succ_lt h)).1,
                             k7_pay5 (iblk7 V c 0 ⟨n + 1, h⟩) (iblk7 V c 1 ⟨n + 1, h⟩) (outsAt7 V c n (Nat.lt_of_succ_lt h)).2) := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt).1
    | ⟨3, _⟩ => (outsAt7 V c t.val t.isLt).2
  Φ _ := Pipeline.ΦA spec7 c
  q _ := fullShare
  owed _ := 0

theorem A_eq7 (c : Dev nD) (w : Fin cfg7.W) : (dat7 V c).A w = V c (Pipeline.arrRef spec7 w) := rfl

theorem after7_2 (c : Dev nD) (t : Fin cfg7.N) : (dat7 V c).after 2 t = (outsAt7 V c t.val t.isLt).1 := rfl
theorem after7_3 (c : Dev nD) (t : Fin cfg7.N) : (dat7 V c).after 3 t = (outsAt7 V c t.val t.isLt).2 := rfl

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

def Step7 (b : Prop) (xa : Vec F S5000x128 .f32) (xb dc dd oc od : Vec F S1x128 .f32) : Prop :=
  b ∧ oc = k7_pay4 xa xb k7_pay1 ∧ od = k7_pay5 xa xb k7_pay2 ∨ ¬b ∧ oc = k7_pay4 xa xb dc ∧ od = k7_pay5 xa xb dd

theorem step7 (c : Dev nD) (t : Fin cfg7.N) (d2 d3) :
    Step7 (cond7_0 (grid7.coords t)) (iblk7 V c 0 t) (iblk7 V c 1 t) ((dat7 V c).before 2 t d2) ((dat7 V c).before 3 t d3)
      ((dat7 V c).after 2 t) ((dat7 V c).after 3 t) := by
  obtain ⟨n, hn⟩ := t
  have hN : n < 10 := lt_of_lt_of_eq hn (show cfg7.N = 10 from N_7)
  cases n with
  | zero => exact .inl ⟨(hcond7_0 _).mpr rfl, rfl, rfl⟩
  | succ n =>
    exact .inr ⟨fun h => Nat.succ_ne_zero n ((hcond7_0 _).mp h),
      congrArg (k7_pay4 _ _) ((dat7 V c).before_out_kept 2 rfl ⟨n + 1, hn⟩ (Nat.succ_ne_zero n)
        (Bool.eq_false_iff.mpr fun h => by have := (flush7_2 _).mp h; dsimp only at this; omega) (fun _ => rfl) (fun _ _ => rfl) d2).symm,
      congrArg (k7_pay5 _ _) ((dat7 V c).before_out_kept 3 rfl ⟨n + 1, hn⟩ (Nat.succ_ne_zero n)
        (Bool.eq_false_iff.mpr fun h => by have := (flush7_3 _).mp h; dsimp only at this; omega) (fun _ => rfl) (fun _ _ => rfl) d3).symm⟩

end Cert.KernelIdeal.Gen

end
-- ==== Proof.KI.Reg8.lean ====
-- sib.js proof/Proof/KI/Reg2.lean proof/Proof/KI/Reg8.lean 2 8
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def out8_6 (x0 : Vec F S5000x128 .f32) (x1 x2 x3 x4 x5 : Vec F S1x128 .f32) : Vec F S5000x128 .f32 :=
  View.canon [⟨Rect.unit (s := S5000x128) ![0, 0] S5000x128.size inb_S5000x128_S5000x128_0_0,
    k8_pay1 (View.ld x0 (Rect.unit (s := S5000x128) ![0, 0] S5000x128.size inb_S5000x128_S5000x128_0_0))
      (View.ld x1 (Rect.unit (s := S1x128) ![0, 0] S1x128.size inb_S1x128_S1x128_0_0))
      (View.ld x5 (Rect.unit (s := S1x128) ![0, 0] S1x128.size inb_S1x128_S1x128_0_0))
      (View.ld x4 (Rect.unit (s := S1x128) ![0, 0] S1x128.size inb_S1x128_S1x128_0_0))
      (View.ld x2 (Rect.unit (s := S1x128) ![0, 0] S1x128.size inb_S1x128_S1x128_0_0))
      (View.ld x3 (Rect.unit (s := S1x128) ![0, 0] S1x128.size inb_S1x128_S1x128_0_0))⟩]

theorem sound_kernel8 (c : Dev nD) (E : Set ℕ) (i : grid8.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out8_6 x0 x1 x2 x3 x4 x5)) -∗ K ⟨⟩))
      ⊢ wp frame (wpE (defs₀ (F := F)) Variants.none c none) E (cc8__norm_relu_kernel i arg0 harg0 arg1 harg1 arg2 harg2 arg3 harg3 arg4 harg4 arg5 harg5 arg6 harg6) K := by
  simp only [cc8__norm_relu_kernel_eq_skeleton]; unfold cc8__norm_relu_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  isplitl [H4]; · istop; exact owns_intro _ _ _ _
  isplitl [H5]; · istop; exact owns_intro _ _ _ _
  iexists _; iframe
  ipureintro
  exact View.read_writes_eq_canon _ _ _ (View.cover_of_tiled _ S5000x128.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := rfl

theorem after8_6 (c : Dev nD) (t : Fin cfg8.N) : (dat8 V c).after 6 t
    = out8_6 (iblk8 V c 0 t) (iblk8 V c 1 t) (iblk8 V c 2 t) (iblk8 V c 3 t) (iblk8 V c 4 t) (iblk8 V c 5 t) := by dsimp only [dat8]

theorem before8 (c : Dev nD) (t : Fin cfg8.N) (w : Fin cfg8.W) (hw : w ≠ 6) (d) :
    (dat8 V c).before w t d = (dat8 V c).after w t := by
  fin_cases w <;> first | exact absurd rfl hw | exact (dat8 V c).before_in_eq_fetched _ rfl (fun _ => rfl) (fun _ _ _ => rfl) (fun _ => rfl) t d

theorem body_obligation8 (c : Dev nD) : BodyObligation (dat8 (F := F) V c) (defs₀ (F := F)) Variants.none () Set.univ := fun t => by
  rw [bigSep_W8, bigSep_W8]
  simp +decide only [before8 V c t]
  sl_whnfR [defs₀, Defs.onTc]
  rw [show (dat8 V c).Φ t.succ = (dat8 V c).Φ t.castSucc from rfl,
    show (dat8 V c).owesAt () t.succ = (dat8 V c).owesAt () t.castSucc from rfl, after8_6]
  iintro ⟨HΦ, Ho, ⟨%d0, H0⟩, ⟨%d1, H1⟩, ⟨%d2, H2⟩, ⟨%d3, H3⟩, ⟨%d4, H4⟩, ⟨%d5, H5⟩, %d6, H6⟩
  iapply (sound_kernel8 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe; iexact H6

end Cert.KernelIdeal.Gen

end
-- ==== Proof.KI.Reg9Defs.lean ====
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev scM9_0 : Memref sig .tc .vmem S64x128 .f32 := Memref.whole cc9_scratch0
abbrev scM9_1 : Memref sig .tc .vmem S64x1 .f32 := Memref.whole cc9_scratch1

def scr9 (c : Dev nD) : Fin (cfg9.N + 1) → Vec F S64x128 .f32 × Vec F S64x1 .f32 :=
  Fin.induction (k9_pay1, k9_pay2) fun t s => (k9_pay4 (iblk9 V c 1 t) s.1 (iblk9 V c 0 t), k9_pay5 (iblk9 V c 1 t) s.2)

def out9 (c : Dev nD) (t : Fin cfg9.N) : Vec F S64x8 .f32 :=
  k9_pay6 (scr9 V c t.succ).1 (scr9 V c t.succ).2 (iblk9 V c 2 t) (iblk9 V c 3 t)

def Phi9 (c : Dev nD) (t : Fin (cfg9.N + 1)) : sProp 𝕄 :=
  iprop((∃ s, ⌜t ≠ 0 → s = scr9 V c t⌝ ∗ owns c scM9_0 fullShare s.1 ∗ owns c scM9_1 fullShare s.2)
    ∗ Pipeline.scopedRestBut spec9 c [cc9_scratch0, cc9_scratch1]
    ∗ (∃ r, prngReg c r))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9 V c t
  Φ := Phi9 V c
  q _ := fullShare
  owed _ := 0

theorem A_eq9 (c : Dev nD) (w : Fin cfg9.W) : (dat9 V c).A w = V c (Pipeline.arrRef spec9 w) := by
  dsimp only [dat9]

theorem before9 (c : Dev nD) (w : Fin cfg9.W) (hw : w ≠ 4) (t : Fin cfg9.N) (d) : (dat9 V c).before w t d = (dat9 V c).after w t := by
  match w, hw with
  | ⟨0, _⟩, _ | ⟨1, _⟩, _ | ⟨2, _⟩, _ | ⟨3, _⟩, _ =>
    exact (dat9 V c).before_in_eq_fetched _ rfl (fun _ => rfl) (fun _ _ _ => rfl) (fun _ => rfl) t d
  | ⟨4, _⟩, h => exact absurd rfl h

end Cert.KernelIdeal.Gen

end
-- ==== Proof.KI.FrameDefs.lean ====
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import proofs.«421377_j77326591197791_1_alg».proof.Proof.Gen.KernelIdeal.Regions
import proofs.«421377_j77326591197791_1_alg».proof.Proof.KI.Reg0
import proofs.«421377_j77326591197791_1_alg».proof.Proof.KI.Reg1
import proofs.«421377_j77326591197791_1_alg».proof.Proof.KI.Reg2
import proofs.«421377_j77326591197791_1_alg».proof.Proof.KI.Reg3
import proofs.«421377_j77326591197791_1_alg».proof.Proof.KI.Reg4
import proofs.«421377_j77326591197791_1_alg».proof.Proof.KI.Reg5
import proofs.«421377_j77326591197791_1_alg».proof.Proof.KI.Reg6
import proofs.«421377_j77326591197791_1_alg».proof.Proof.KI.Reg7
import proofs.«421377_j77326591197791_1_alg».proof.Proof.KI.Reg8
import proofs.«421377_j77326591197791_1_alg».proof.Proof.KI.Reg9Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev T3 : (c : Dev nD) → (b : Ref sig .tc) → Buf (Elt F) ((c : Thread nD τ).loc b) := fun c b => V3 m c b

def o4 (c : Dev nD) : Buf (Elt F) ((c : Thread nD τ).loc main_v29) := (dat0 (T3 m) c).arrAt 2 cfg0.N

def X4 (c : Dev nD) : Valuation τ sig (Elt F) := Function.update (V3 m c) main_v29 (o4 m c)

def X5 (c : Dev nD) : Valuation τ sig (Elt F) := StableHlo.after hostOps1 (X4 m c)

abbrev T5 : (c : Dev nD) → (b : Ref sig .tc) → Buf (Elt F) ((c : Thread nD τ).loc b) := fun c b => X5 m c b

def o6a (c : Dev nD) : Buf (Elt F) ((c : Thread nD τ).loc main_v44_0) := (dat1 (T5 m) c).arrAt 2 cfg1.N

def o6b (c : Dev nD) : Buf (Elt F) ((c : Thread nD τ).loc main_v44_1) := (dat1 (T5 m) c).arrAt 3 cfg1.N

def X6 (c : Dev nD) : Valuation τ sig (Elt F) := Function.update (Function.update (X5 m c) main_v44_0 (o6a m c)) main_v44_1 (o6b m c)

def X7 (c : Dev nD) : Valuation τ sig (Elt F) := StableHlo.after hostOps2 (X6 m c)

abbrev T7 : (c : Dev nD) → (b : Ref sig .tc) → Buf (Elt F) ((c : Thread nD τ).loc b) := fun c b => X7 m c b

def o8 (c : Dev nD) : Buf (Elt F) ((c : Thread nD τ).loc main_v54) := (dat2 (T7 m) c).arrAt 6 cfg2.N

def X8 (c : Dev nD) : Valuation τ sig (Elt F) := Function.update (X7 m c) main_v54 (o8 m c)

abbrev T8 : (c : Dev nD) → (b : Ref sig .tc) → Buf (Elt F) ((c : Thread nD τ).loc b) := fun c b => X8 m c b

def o9 (c : Dev nD) : Buf (Elt F) ((c : Thread nD τ).loc main_v55) := (dat3 (T8 m) c).arrAt 2 cfg3.N

def X9 (c : Dev nD) : Valuation τ sig (Elt F) := Function.update (X8 m c) main_v55 (o9 m c)

def X10 (c : Dev nD) : Valuation τ sig (Elt F) := StableHlo.after hostOps4 (X9 m c)

abbrev T10 : (c : Dev nD) → (b : Ref sig .tc) → Buf (Elt F) ((c : Thread nD τ).loc b) := fun c b => X10 m c b

def o11a (c : Dev nD) : Buf (Elt F) ((c : Thread nD τ).loc main_v70_0) := (dat4 (T10 m) c).arrAt 2 cfg4.N

def o11b (c : Dev nD) : Buf (Elt F) ((c : Thread nD τ).loc main_v70_1) := (dat4 (T10 m) c).arrAt 3 cfg4.N

def X11 (c : Dev nD) : Valuation τ sig (Elt F) := Function.update (Function.update (X10 m c) main_v70_0 (o11a m c)) main_v70_1 (o11b m c)

def X12 (c : Dev nD) : Valuation τ sig (Elt F) := StableHlo.after hostOps5 (X11 m c)

abbrev T12 : (c : Dev nD) → (b : Ref sig .tc) → Buf (Elt F) ((c : Thread nD τ).loc b) := fun c b => X12 m c b

def o13 (c : Dev nD) : Buf (Elt F) ((c : Thread nD τ).loc main_v80) := (dat5 (T12 m) c).arrAt 6 cfg5.N

def X13 (c : Dev nD) : Valuation τ sig (Elt F) := Function.update (X12 m c) main_v80 (o13 m c)

abbrev T13 : (c : Dev nD) → (b : Ref sig .tc) → Buf (Elt F) ((c : Thread nD τ).loc b) := fun c b => X13 m c b

def o14 (c : Dev nD) : Buf (Elt F) ((c : Thread nD τ).loc main_v81) := (dat6 (T13 m) c).arrAt 2 cfg6.N

def X14 (c : Dev nD) : Valuation τ sig (Elt F) := Function.update (X13 m c) main_v81 (o14 m c)

def X15 (c : Dev nD) : Valuation τ sig (Elt F) := StableHlo.after hostOps7 (X14 m c)

abbrev T15 : (c : Dev nD) → (b : Ref sig .tc) → Buf (Elt F) ((c : Thread nD τ).loc b) := fun c b => X15 m c b

def o16a (c : Dev nD) : Buf (Elt F) ((c : Thread nD τ).loc main_v96_0) := (dat7 (T15 m) c).arrAt 2 cfg7.N

def o16b (c : Dev nD) : Buf (Elt F) ((c : Thread nD τ).loc main_v96_1) := (dat7 (T15 m) c).arrAt 3 cfg7.N

def X16 (c : Dev nD) : Valuation τ sig (Elt F) := Function.update (Function.update (X15 m c) main_v96_0 (o16a m c)) main_v96_1 (o16b m c)

def X17 (c : Dev nD) : Valuation τ sig (Elt F) := StableHlo.after hostOps8 (X16 m c)

abbrev T17 : (c : Dev nD) → (b : Ref sig .tc) → Buf (Elt F) ((c : Thread nD τ).loc b) := fun c b => X17 m c b

def o18 (c : Dev nD) : Buf (Elt F) ((c : Thread nD τ).loc main_v106) := (dat8 (T17 m) c).arrAt 6 cfg8.N

def X18 (c : Dev nD) : Valuation τ sig (Elt F) := Function.update (X17 m c) main_v106 (o18 m c)

def X19 (c : Dev nD) : Valuation τ sig (Elt F) := StableHlo.after hostOps9 (X18 m c)

abbrev T19 : (c : Dev nD) → (b : Ref sig .tc) → Buf (Elt F) ((c : Thread nD τ).loc b) := fun c b => X19 m c b

def o20 (c : Dev nD) : Buf (Elt F) ((c : Thread nD τ).loc main_v109) := (dat9 (T19 m) c).arrAt 4 cfg9.N

def X20 (c : Dev nD) : Valuation τ sig (Elt F) := Function.update (X19 m c) main_v109 (o20 m c)

def outs : Outs (F := F) := fun J r c =>
  match J with
  | 4 => X4 m c r
  | 6 => X6 m c r
  | 8 => X8 m c r
  | 9 => X9 m c r
  | 11 => X11 m c r
  | 13 => X13 m c r
  | 14 => X14 m c r
  | 16 => X16 m c r
  | 18 => X18 m c r
  | 20 => X20 m c r
  | _ => m ((c : Thread nD τ).loc r)

theorem X4_at (c : Dev nD) : X4 m c main_v29 = o4 m c := Function.update_self ..
theorem X6_at_0 (c : Dev nD) : X6 m c main_v44_0 = o6a m c :=
  (Function.update_of_ne (StableHlo.devRef_ne_of_ne (τ := τ) (by decide)) ..).trans (Function.update_self ..)
theorem X6_at_1 (c : Dev nD) : X6 m c main_v44_1 = o6b m c := Function.update_self ..
theorem X8_at (c : Dev nD) : X8 m c main_v54 = o8 m c := Function.update_self ..
theorem X9_at (c : Dev nD) : X9 m c main_v55 = o9 m c := Function.update_self ..
theorem X11_at_0 (c : Dev nD) : X11 m c main_v70_0 = o11a m c :=
  (Function.update_of_ne (StableHlo.devRef_ne_of_ne (τ := τ) (by decide)) ..).trans (Function.update_self ..)
theorem X11_at_1 (c : Dev nD) : X11 m c main_v70_1 = o11b m c := Function.update_self ..
theorem X13_at (c : Dev nD) : X13 m c main_v80 = o13 m c := Function.update_self ..
theorem X14_at (c : Dev nD) : X14 m c main_v81 = o14 m c := Function.update_self ..
theorem X16_at_0 (c : Dev nD) : X16 m c main_v96_0 = o16a m c :=
  (Function.update_of_ne (StableHlo.devRef_ne_of_ne (τ := τ) (by decide)) ..).trans (Function.update_self ..)
theorem X16_at_1 (c : Dev nD) : X16 m c main_v96_1 = o16b m c := Function.update_self ..
theorem X18_at (c : Dev nD) : X18 m c main_v106 = o18 m c := Function.update_self ..
theorem X20_at (c : Dev nD) : X20 m c main_v109 = o20 m c := Function.update_self ..

theorem upd_congr {V V' : Valuation τ sig (Elt F)} (h : V = V') (r : Ref sig .tc) {x y : (Proc.devRef (τ := τ) .tc r).ty.Contents (Elt F)} (hx : x = y) :
    Function.update V r x = Function.update V' r y := by rw [h, hx]
theorem V4_eq (c : Dev nD) : V4 m (outs m) c = X4 m c := upd_congr rfl main_v29 (X4_at m c)
theorem V5_eq (c : Dev nD) : V5 m (outs m) c = X5 m c := congrArg (StableHlo.after hostOps1) (V4_eq m c)
theorem V6_eq (c : Dev nD) : V6 m (outs m) c = X6 m c :=
  upd_congr (upd_congr (V5_eq m c) main_v44_0 (X6_at_0 m c)) main_v44_1 (X6_at_1 m c)
theorem V7_eq (c : Dev nD) : V7 m (outs m) c = X7 m c := congrArg (StableHlo.after hostOps2) (V6_eq m c)
theorem V8_eq (c : Dev nD) : V8 m (outs m) c = X8 m c := upd_congr (V7_eq m c) main_v54 (X8_at m c)
theorem V9_eq (c : Dev nD) : V9 m (outs m) c = X9 m c := upd_congr (V8_eq m c) main_v55 (X9_at m c)
theorem V10_eq (c : Dev nD) : V10 m (outs m) c = X10 m c := congrArg (StableHlo.after hostOps4) (V9_eq m c)
theorem V11_eq (c : Dev nD) : V11 m (outs m) c = X11 m c :=
  upd_congr (upd_congr (V10_eq m c) main_v70_0 (X11_at_0 m c)) main_v70_1 (X11_at_1 m c)
theorem V12_eq (c : Dev nD) : V12 m (outs m) c = X12 m c := congrArg (StableHlo.after hostOps5) (V11_eq m c)
theorem V13_eq (c : Dev nD) : V13 m (outs m) c = X13 m c := upd_congr (V12_eq m c) main_v80 (X13_at m c)
theorem V14_eq (c : Dev nD) : V14 m (outs m) c = X14 m c := upd_congr (V13_eq m c) main_v81 (X14_at m c)
theorem V15_eq (c : Dev nD) : V15 m (outs m) c = X15 m c := congrArg (StableHlo.after hostOps7) (V14_eq m c)
theorem V16_eq (c : Dev nD) : V16 m (outs m) c = X16 m c :=
  upd_congr (upd_congr (V15_eq m c) main_v96_0 (X16_at_0 m c)) main_v96_1 (X16_at_1 m c)
theorem V17_eq (c : Dev nD) : V17 m (outs m) c = X17 m c := congrArg (StableHlo.after hostOps8) (V16_eq m c)
theorem V18_eq (c : Dev nD) : V18 m (outs m) c = X18 m c := upd_congr (V17_eq m c) main_v106 (X18_at m c)
theorem V19_eq (c : Dev nD) : V19 m (outs m) c = X19 m c := congrArg (StableHlo.after hostOps9) (V18_eq m c)
theorem V20_eq (c : Dev nD) : V20 m (outs m) c = X20 m c := upd_congr (V19_eq m c) main_v109 (X20_at m c)

theorem V20_result (c : Dev nD) : V20 m (outs m) c main_v109 = o20 m c := by
  rw [V20_eq]; exact X20_at m c

end Cert.KernelIdeal.Gen

end
-- ==== Proof.KI.FrameRegs.lean ====
import proofs.«421377_j77326591197791_1_alg».proof.Proof.KI.FrameDefs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 10) → (c : Dev nD) → Dat τ (Elt F) Unit ℕ (UR sig nD τ) ℕ (cfgs p) c
  | ⟨0, _⟩ => fun c => dat0 (T3 m) c
  | ⟨1, _⟩ => fun c => dat1 (T5 m) c
  | ⟨2, _⟩ => fun c => dat2 (T7 m) c
  | ⟨3, _⟩ => fun c => dat3 (T8 m) c
  | ⟨4, _⟩ => fun c => dat4 (T10 m) c
  | ⟨5, _⟩ => fun c => dat5 (T12 m) c
  | ⟨6, _⟩ => fun c => dat6 (T13 m) c
  | ⟨7, _⟩ => fun c => dat7 (T15 m) c
  | ⟨8, _⟩ => fun c => dat8 (T17 m) c
  | ⟨9, _⟩ => fun c => dat9 (T19 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

section
variable {p : Fin 10} {c : Dev nD} (d : Dat τ (Elt F) Unit ℕ (UR sig nD τ) ℕ (cfgs p) c) (hw : Pipeline.WinFacts (cfgs p).spec)

abbrev wr (V : Valuation τ sig (Elt F)) (w : Fin (cfgs p).W) : Valuation τ sig (Elt F) :=
  Function.update V (Pipeline.arrRef (cfgs p).spec w) (d.arrAt w (cfgs p).N)

include hw in
/-- Overwriting `V` at the windows of `O` with their final contents gives every window's final contents, if the others end as `V` has them; off the arrays nothing changes. -/
theorem exits (O : List (Fin (cfgs p).W)) : ∀ V : Valuation τ sig (Elt F), (∀ w, w ∉ O → d.arrAt w (cfgs p).N = V (Pipeline.arrRef (cfgs p).spec w)) →
    (∀ w, d.arrAt w (cfgs p).N = O.foldl (wr d) V (Pipeline.arrRef (cfgs p).spec w))
      ∧ ∀ b : Ref sig .tc, b ∉ Finset.univ.image (Pipeline.arrRef (cfgs p).spec) → O.foldl (wr d) V b = V b := by
  induction O with
  | nil => exact fun V h => ⟨fun w => h w List.not_mem_nil, fun _ _ => rfl⟩
  | cons o O ih =>
    intro V h
    obtain ⟨h1, h2⟩ := ih (wr d V o) fun w hw' => by
      by_cases e : w = o
      · subst e; exact Eq.symm (Function.update_self _ _ _)
      · exact (h w fun h' => (List.mem_cons.1 h').elim e hw').trans (Eq.symm (Function.update_of_ne (StableHlo.devRef_ne_of_ne (τ := τ) (hw.arr_inj.ne e)) _ _))
    exact ⟨h1, fun b hb => (h2 b hb).trans (Function.update_of_ne (StableHlo.devRef_ne_of_ne (τ := τ) fun e => hb (Finset.mem_image.mpr ⟨o, Finset.mem_univ _, e.symm⟩)) _ _)⟩

end

theorem hinA {gr W : ℕ} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp

theorem houtA {gr W : ℕ} (win : Fin W → Pipeline.WinSpec sig gr) (c : Dev nD) :
    (Pipeline.ΦA win c : sProp 𝕄) ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

set_option backward.isDefEq.respectTransparency.types false in
/-- Region `p` as a step between valuations: entered at `V`, left at `V` overwritten at its output windows `O` with their final contents. -/
def reg (p : Fin 10) (l : Pipeline.LaunchFacts (nD := nD) (τ := τ) cfgs p) (V : Dev nD → Valuation τ sig (Elt F)) (O : List (Fin (cfgs p).W))
    (hb : ∀ c, BodyObligation (pdats m p c) defs₀ 𝒱₀ () Set.univ)
    (hA : ∀ c w, (pdats m p c).A w = V c (Pipeline.arrRef (cfgs p).spec w))
    (hi : ∀ w, w ∉ O → ((cfgs p).win w).isOut = false)
    (hin : ∀ c, iprop((∃ r, prngReg c r) ∗ Pipeline.prefHeld (pcfgs (F := F) p).pre c (fun _ => fullShare) (adm p).1 ∗ Pipeline.scopedRest (cfgs p).spec c) ⊢ (pdats m p c).Φ 0)
    (hout : ∀ c, (pdats m p c).Φ (Fin.last (cfgs p).N) ⊢ iprop((∃ r, prngReg c r) ∗ Pipeline.ownSems0 (fun k : PEmpty => k.elim) c ∗ Pipeline.scopedRest (cfgs p).spec c))
    (h0 : ∀ c t, (pdats m p c).owed t = 0 := by exact fun _ _ => rfl)
    (hr : ∀ c x, x ∈ (pdats m p c).recorded 0 := by exact fun _ _ => trivial)
    (hq : ∀ c w, (pdats m p c).q w = fullShare := by exact fun _ _ => rfl) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig) (O.foldl (wr (pdats m p c)) (V c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) l.win l.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0 c 0]
      icases HO with ⟨%W, HO⟩; iexists W; isplitr; · ipureintro; exact fun x _ => Or.inl (hr c x)
      iexact HO
    isplitl [Hp]; · iexact Hp
    iexact Hrest
  hin := hin
  hout := hout
  hexit c := by
    obtain ⟨hF, hrest⟩ := exits (pdats m p c) l.win O (V c) fun w hw => ((pdats m p c).arrAt_in w (hi w hw) _).trans (hA c w)
    have hjoin := Pipeline.unscopedBufs_of_arrays (p := p) (pcfgs (F := F)) adm (Ix := Unit) (Name := ℕ) (U := UR sig nD τ) (Lvl := ℕ)
      l.win l.arr_whole c (pdats m) ((pdats m p c).share_full (hq c))
      (fun b => V c b) (fun b => O.foldl (wr (pdats m p c)) (V c) b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0 c (Fin.last _)]
    icases HO with ⟨%W, -, HO⟩; iexists W; iexact HO

end Cert.KernelIdeal.Gen

end
-- ==== Proof.KI.Reg1Run.lean ====
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import proofs.«421377_j77326591197791_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem hz : (![0, 0] : Fin 2 → Nat) = fun _ => 0 := funext fun a => by fin_cases a <;> rfl

theorem out1_last (v : View sig .tc .vmem S1x128 .f32) (f : v.ty.Contents (Elt F)) (w : S1x128.Idx → Elt F .f32)
    (L : List (View.Piece (Elt F) S1x128 .f32)) :
    v.read (Elt F) (v.writes (Elt F) f (⟨Rect.unit (s := S1x128) ![0, 0] S1x128.size inb_S1x128_S1x128_0_0, w⟩ :: L)) = w :=
  (View.read_writes_eq_canon v f _ fun y => ⟨_, List.mem_cons_self, View.mem_set_unit_zero (S := S1x128) hz inb_S1x128_S1x128_0_0 y⟩).trans
    (View.canon_cons_unit_zero (S := S1x128) hz inb_S1x128_S1x128_0_0 w L)

theorem sound_kernel1 (c : Dev nD) (E : Set ℕ) (i : grid1.Coords)
    (argA : Memref sig .tc .vmem S5000x128 .f32) (hargA : argA.IsWhole) (argB : Memref sig .tc .vmem S1x128 .f32) (hargB : argB.IsWhole)
    (argC : Memref sig .tc .vmem S1x128 .f32) (hargC : argC.IsWhole) (argD : Memref sig .tc .vmem S1x128 .f32) (hargD : argD.IsWhole)
    (xa : Vec F S5000x128 .f32) (xb dc dd oc od : Vec F S1x128 .f32) (h : Step1 (cond1_0 i) xa xb dc dd oc od) (K : PUnit → sProp 𝕄) :
    iprop(owns (c : Thread nD τ) argA fullShare xa ∗ owns (c : Thread nD τ) argB fullShare xb
        ∗ owns (c : Thread nD τ) argC fullShare dc ∗ owns (c : Thread nD τ) argD fullShare dd
        ∗ (iprop(owns (c : Thread nD τ) argA fullShare xa ∗ owns (c : Thread nD τ) argB fullShare xb
            ∗ owns (c : Thread nD τ) argC fullShare oc ∗ owns (c : Thread nD τ) argD fullShare od) -∗ K ⟨⟩))
      ⊢ wp frame (wpE (defs₀ (F := F)) Variants.none c none) E (cc1__stats_kernel i argA hargA argB hargB argC hargC argD hargD) K := by
  simp only [cc1__stats_kernel_eq_skeleton]; unfold cc1__stats_kernel_skel owns
  iintro ⟨⟨%fa, %hfa, Ha⟩, ⟨%fb, %hfb, Hb⟩, ⟨%fc, %hfc, Hc⟩, ⟨%fd, %hfd, Hd⟩, Hk⟩
  obtain rfl := hargA.eq_unread hfa; obtain rfl := hargB.eq_unread hfb
  obtain rfl := hargC.eq_unread hfc; obtain rfl := hargD.eq_unread hfd
  rcases h with ⟨hc0, rfl, rfl⟩ | ⟨hc0, rfl, rfl⟩ <;>
  · sl_exec (disch := first | exact hc0)
    sl_step
    iapply Hk
    isplitl [Ha]
    · iexists _; isplitr; · ipureintro; exact hargA.read_unread _
      iexact Ha
    isplitl [Hb]
    · iexists _; isplitr; · ipureintro; exact hargB.read_unread _
      iexact Hb
    isplitl [Hc] <;>
    · iexists _; isplitr
      swap; · iassumption
      ipureintro
      sl_unfold_words
      refine (out1_last _ _ _ _).trans ?_
      simp only [View.readCov_unit_zero (S := S1x128) _ hz, View.readAt_eq_ld, hargA.read_unread, hargB.read_unread, hargC.read_unread,
        hargD.read_unread, View.ld_unit_zero (S := S5000x128) hz, View.ld_unit_zero (S := S1x128) hz]

theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) fun _ =>
      iprop((dat1 V c).Φ t.castSucc ∗ (dat1 V c).owesAt () t.castSucc
        ∗ owns (c : Thread nD τ) (st1_0 t) fullShare (iblk1 V c 0 t)
        ∗ owns (c : Thread nD τ) (st1_1 t) fullShare (iblk1 V c 1 t)
        ∗ owns (c : Thread nD τ) (st1_2 t) fullShare ((dat1 V c).after 2 t)
        ∗ owns (c : Thread nD τ) (st1_3 t) fullShare ((dat1 V c).after 3 t)) := by
  simp only [before1_0, before1_1]
  iintro ⟨HΦ, Ho, ⟨%da, Ha⟩, ⟨%db, Hb⟩, ⟨%dc, Hc⟩, ⟨%dd, Hd⟩⟩
  iapply sound_kernel1 c Set.univ (grid1.coords t) _ _ _ _ _ _ _ _ _ _ _ _ _ _ (step1 V c t dc dd)
  iframe Ha Hb Hc Hd
  iintro ⟨Ha, Hb, Hc, Hd⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Reg4Run.lean ====
-- sib.js proof/Proof/KI/Reg1Run.lean proof/Proof/KI/Reg4Run.lean 1 4
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import proofs.«421377_j77326591197791_1_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem hz : (![0, 0] : Fin 2 → Nat) = fun _ => 0 := funext fun a => by fin_cases a <;> rfl

theorem out4_last (v : View sig .tc .vmem S1x128 .f32) (f : v.ty.Contents (Elt F)) (w : S1x128.Idx → Elt F .f32)
    (L : List (View.Piece (Elt F) S1x128 .f32)) :
    v.read (Elt F) (v.writes (Elt F) f (⟨Rect.unit (s := S1x128) ![0, 0] S1x128.size inb_S1x128_S1x128_0_0, w⟩ :: L)) = w :=
  (View.read_writes_eq_canon v f _ fun y => ⟨_, List.mem_cons_self, View.mem_set_unit_zero (S := S1x128) hz inb_S1x128_S1x128_0_0 y⟩).trans
    (View.canon_cons_unit_zero (S := S1x128) hz inb_S1x128_S1x128_0_0 w L)

theorem sound_kernel4 (c : Dev nD) (E : Set ℕ) (i : grid4.Coords)
    (argA : Memref sig .tc .vmem S5000x128 .f32) (hargA : argA.IsWhole) (argB : Memref sig .tc .vmem S1x128 .f32) (hargB : argB.IsWhole)
    (argC : Memref sig .tc .vmem S1x128 .f32) (hargC : argC.IsWhole) (argD : Memref sig .tc .vmem S1x128 .f32) (hargD : argD.IsWhole)
    (xa : Vec F S5000x128 .f32) (xb dc dd oc od : Vec F S1x128 .f32) (h : Step4 (cond4_0 i) xa xb dc dd oc od) (K : PUnit → sProp 𝕄) :
    iprop(owns (c : Thread nD τ) argA fullShare xa ∗ owns (c : Thread nD τ) argB fullShare xb
        ∗ owns (c : Thread nD τ) argC fullShare dc ∗ owns (c : Thread nD τ) argD fullShare dd
        ∗ (iprop(owns (c : Thread nD τ) argA fullShare xa ∗ owns (c : Thread nD τ) argB fullShare xb
            ∗ owns (c : Thread nD τ) argC fullShare oc ∗ owns (c : Thread nD τ) argD fullShare od) -∗ K ⟨⟩))
      ⊢ wp frame (wpE (defs₀ (F := F)) Variants.none c none) E (cc4__stats_kernel i argA hargA argB hargB argC hargC argD hargD) K := by
  simp only [cc4__stats_kernel_eq_skeleton]; unfold cc4__stats_kernel_skel owns
  iintro ⟨⟨%fa, %hfa, Ha⟩, ⟨%fb, %hfb, Hb⟩, ⟨%fc, %hfc, Hc⟩, ⟨%fd, %hfd, Hd⟩, Hk⟩
  obtain rfl := hargA.eq_unread hfa; obtain rfl := hargB.eq_unread hfb
  obtain rfl := hargC.eq_unread hfc; obtain rfl := hargD.eq_unread hfd
  rcases h with ⟨hc0, rfl, rfl⟩ | ⟨hc0, rfl, rfl⟩ <;>
  · sl_exec (disch := first | exact hc0)
    sl_step
    iapply Hk
    isplitl [Ha]
    · iexists _; isplitr; · ipureintro; exact hargA.read_unread _
      iexact Ha
    isplitl [Hb]
    · iexists _; isplitr; · ipureintro; exact hargB.read_unread _
      iexact Hb
    isplitl [Hc] <;>
    · iexists _; isplitr
      swap; · iassumption
      ipureintro
      sl_unfold_words
      refine (out4_last _ _ _ _).trans ?_
      simp only [View.readCov_unit_zero (S := S1x128) _ hz, View.readAt_eq_ld, hargA.read_unread, hargB.read_unread, hargC.read_unread,
        hargD.read_unread, View.ld_unit_zero (S := S5000x128) hz, View.ld_unit_zero (S := S1x128) hz]

theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d))
      ∗ (∃ d, owns (c : Thread nD τ) (st4_3 t) fullShare ((dat4 V c).before 3 t d)))
    ⊢ wp frame (wpE (defs₀ (F := F)) Variants.none c none) Set.univ (bodyAt4 t) fun _ =>
      iprop((dat4 V c).Φ t.castSucc ∗ (dat4 V c).owesAt () t.castSucc
        ∗ owns (c : Thread nD τ) (st4_0 t) fullShare (iblk4 V c 0 t)
        ∗ owns (c : Thread nD τ) (st4_1 t) fullShare (iblk4 V c 1 t)
        ∗ owns (c : Thread nD τ) (st4_2 t) fullShare ((dat4 V c).after 2 t)
        ∗ owns (c : Thread nD τ) (st4_3 t) fullShare ((dat4 V c).after 3 t)) := by
  simp only [before4_0, before4_1]
  iintro ⟨HΦ, Ho, ⟨%da, Ha⟩, ⟨%db, Hb⟩, ⟨%dc, Hc⟩, ⟨%dd, Hd⟩⟩
  iapply sound_kernel4 c Set.univ (grid4.coords t) _ _ _ _ _ _ _ _ _ _ _ _ _ _ (step4 V c t dc dd)
  iframe Ha Hb Hc Hd
  iintro ⟨Ha, Hb, Hc, Hd⟩
  iframe

theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.Reg7Run.lean ====
-- sib.js proof/Proof/KI/Reg1Run.lean proof/Proof/KI/Reg7Run.lean 1 7
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import proofs.«421377_j77326591197791_1_alg».proof.Proof.KI.Reg7
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem hz : (![0, 0] : Fin 2 → Nat) = fun _ => 0 := funext fun a => by fin_cases a <;> rfl

theorem out7_last (v : View sig .tc .vmem S1x128 .f32) (f : v.ty.Contents (Elt F)) (w : S1x128.Idx → Elt F .f32)
    (L : List (View.Piece (Elt F) S1x128 .f32)) :
    v.read (Elt F) (v.writes (Elt F) f (⟨Rect.unit (s := S1x128) ![0, 0] S1x128.size inb_S1x128_S1x128_0_0, w⟩ :: L)) = w :=
  (View.read_writes_eq_canon v f _ fun y => ⟨_, List.mem_cons_self, View.mem_set_unit_zero (S := S1x128) hz inb_S1x128_S1x128_0_0 y⟩).trans
    (View.canon_cons_unit_zero (S := S1x128) hz inb_S1x128_S1x128_0_0 w L)

theorem sound_kernel7 (c : Dev nD) (E : Set ℕ) (i : grid7.Coords)
    (argA : Memref sig .tc .vmem S5000x128 .f32) (hargA : argA.IsWhole) (argB : Memref sig .tc .vmem S1x128 .f32) (hargB : argB.IsWhole)
    (argC : Memref sig .tc .vmem S1x128 .f32) (hargC : argC.IsWhole) (argD : Memref sig .tc .vmem S1x128 .f32) (hargD : argD.IsWhole)
    (xa : Vec F S5000x128 .f32) (xb dc dd oc od : Vec F S1x128 .f32) (h : Step7 (cond7_0 i) xa xb dc dd oc od) (K : PUnit → sProp 𝕄) :
    iprop(owns (c : Thread nD τ) argA fullShare xa ∗ owns (c : Thread nD τ) argB fullShare xb
        ∗ owns (c : Thread nD τ) argC fullShare dc ∗ owns (c : Thread nD τ) argD fullShare dd
        ∗ (iprop(owns (c : Thread nD τ) argA fullShare xa ∗ owns (c : Thread nD τ) argB fullShare xb
            ∗ owns (c : Thread nD τ) argC fullShare oc ∗ owns (c : Thread nD τ) argD fullShare od) -∗ K ⟨⟩))
      ⊢ wp frame (wpE (defs₀ (F := F)) Variants.none c none) E (cc7__stats_kernel i argA hargA argB hargB argC hargC argD hargD) K := by
  simp only [cc7__stats_kernel_eq_skeleton]; unfold cc7__stats_kernel_skel owns
  iintro ⟨⟨%fa, %hfa, Ha⟩, ⟨%fb, %hfb, Hb⟩, ⟨%fc, %hfc, Hc⟩, ⟨%fd, %hfd, Hd⟩, Hk⟩
  obtain rfl := hargA.eq_unread hfa; obtain rfl := hargB.eq_unread hfb
  obtain rfl := hargC.eq_unread hfc; obtain rfl := hargD.eq_unread hfd
  rcases h with ⟨hc0, rfl, rfl⟩ | ⟨hc0, rfl, rfl⟩ <;>
  · sl_exec (disch := first | exact hc0)
    sl_step
    iapply Hk
    isplitl [Ha]
    · iexists _; isplitr; · ipureintro; exact hargA.read_unread _
      iexact Ha
    isplitl [Hb]
    · iexists _; isplitr; · ipureintro; exact hargB.read_unread _
      iexact Hb
    isplitl [Hc] <;>
    · iexists _; isplitr
      swap; · iassumption
      ipureintro
      sl_unfold_words
      refine (out7_last _ _ _ _).trans ?_
      simp only [View.readCov_unit_zero (S := S1x128) _ hz, View.readAt_eq_ld, hargA.read_unread, hargB.read_unread, hargC.read_unread,
        hargD.read_unread, View.ld_unit_zero (S := S5000x128) hz, View.ld_unit_zero (S := S1x128) hz]

theorem sound_body7 (c : Dev nD) (t : Fin cfg7.N) :
    iprop((dat7 V c).Φ t.castSucc ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d)))
    ⊢ wp frame (wpE (defs₀ (F := F)) Variants.none c none) Set.univ (bodyAt7 t) fun _ =>
      iprop((dat7 V c).Φ t.castSucc ∗ (dat7 V c).owesAt () t.castSucc
        ∗ owns (c : Thread nD τ) (st7_0 t) fullShare (iblk7 V c 0 t)
        ∗ owns (c : Thread nD τ) (st7_1 t) fullShare (iblk7 V c 1 t)
        ∗ owns (c : Thread nD τ) (st7_2 t) fullShare ((dat7 V c).after 2 t)
        ∗ owns (c : Thread nD τ) (st7_3 t) fullShare ((dat7 V c).after 3 t)) := by
  simp only [before7_0, before7_1]
  iintro ⟨HΦ, Ho, ⟨%da, Ha⟩, ⟨%db, Hb⟩, ⟨%dc, Hc⟩, ⟨%dd, Hd⟩⟩
  iapply sound_kernel7 c Set.univ (grid7.coords t) _ _ _ _ _ _ _ _ _ _ _ _ _ _ (step7 V c t dc dd)
  iframe Ha Hb Hc Hd
  iintro ⟨Ha, Hb, Hc, Hd⟩
  iframe

theorem body_obligation7 (c : Dev nD) : BodyObligation (dat7 (F := F) V c) (defs₀ (F := F)) Variants.none () Set.univ := fun t => by
  rw [bigSep_W7, bigSep_W7]
  exact sound_body7 V c t

end Cert.KernelIdeal.Gen

end
-- ==== Proof.KI.Reg9.lean ====
import proofs.«421377_j77326591197791_1_alg».proof.Proof.Gen.KernelIdeal.Launch
import proofs.«421377_j77326591197791_1_alg».proof.Proof.Gen.KernelIdeal.Skeleton
import proofs.«421377_j77326591197791_1_alg».proof.Proof.Gen.KernelIdeal.Points
import proofs.«421377_j77326591197791_1_alg».proof.Proof.KI.Reg9Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz9 : (![0, 0] : Fin 2 → Nat) = fun _ => 0 := funext fun a => by fin_cases a <;> rfl

abbrev cond9_0 (i : grid9.Coords) : Prop := (Scalar.cmpi .ne (Scalar.extui (Scalar.cmpi .eq (BitVec.ofNat 32 (i 0).val) 0#32)) 0#32) = 1#1

theorem hcond9_0 : ∀ t : Fin cfg9.N, cond9_0 (grid9.coords t) ↔ t.val = 0 :=
  (by decide +kernel : ∀ t : Fin grid9.N, cond9_0 (grid9.coords t) ↔ t.val = 0)

abbrev cond9_1 (i : grid9.Coords) : Prop := k9_cond2 i = 1#1

theorem idleAt9_4 : ∀ t : Fin cfg9.N, ¬cond9_1 (grid9.coords t) → cfg9.idle 4 (grid9.coords t) = true := by decide +kernel
theorem noFlush9_4 : ∀ t : Fin cfg9.N, ¬cond9_1 (grid9.coords t) → (cfg9.win 4).flush t = false := by decide +kernel
theorem liveAt9_4 : ∀ t : Fin cfg9.N, cond9_1 (grid9.coords t) → cfg9.idle 4 (grid9.coords t) = false := by decide +kernel

theorem store9 (S : Shape) {κ : Kind} {sp : Space} {e : EltTy} (v : View sig κ sp S e) (f : v.ty.Contents (Elt F)) {off : Fin S.rank → Nat}
    (h : off = fun _ => 0) (inb) (w : S.Idx → Elt F e) (L) :
    v.read (Elt F) (v.writes (Elt F) f (⟨Rect.unit off S.size inb, w⟩ :: L)) = w := by
  rw [View.read_writes_eq_canon _ _ _ fun y => ⟨_, List.mem_cons.mpr (Or.inl rfl), View.mem_set_unit_zero h inb y⟩, View.canon_cons_unit_zero h]

theorem load9 (S : Shape) {κ : Kind} {sp : Space} {e : EltTy} (v : View sig κ sp S e) {off : Fin S.rank → Nat} (h : off = fun _ => 0) (inb)
    (w : S.Idx → Elt F e) (L) : v.readCov (⟨Rect.unit off S.size inb, w⟩ :: L) (Rect.unit off S.size inb).toLoadRect = w := by
  rw [View.readCov_eq_canon_ld _ _ _ fun y => ⟨_, List.mem_cons.mpr (Or.inl rfl), View.mem_set_unit_zero h inb y⟩, View.canon_cons_unit_zero h,
    View.ld_unit_zero h]

theorem sound_kernel9 (c : Dev nD) (E : Set ℕ) (i : grid9.Coords)
    (arg1 : Memref sig .tc .vmem S5000x128 .f32) (harg1 : arg1.IsWhole) (arg2 : Memref sig .tc .vmem S5000x1 .i32) (harg2 : arg2.IsWhole)
    (arg3 : Memref sig .tc .vmem S128x8 .f32) (harg3 : arg3.IsWhole) (arg4 : Memref sig .tc .vmem S1x8 .f32) (harg4 : arg4.IsWhole)
    (arg5 : Memref sig .tc .vmem S64x8 .f32) (harg5 : arg5.IsWhole) (arg6 : Memref sig .tc .vmem S64x128 .f32) (harg6 : arg6.IsWhole)
    (arg7 : Memref sig .tc .vmem S64x1 .f32) (harg7 : arg7.IsWhole)
    (x0 : Vec F S5000x128 .f32) (x1 : Vec F S5000x1 .i32) (x2 : Vec F S128x8 .f32) (x3 : Vec F S1x8 .f32) (x4 : Vec F S64x8 .f32)
    (s0 : Vec F S64x128 .f32) (s1 : Vec F S64x1 .f32) (K : PUnit → sProp 𝕄) :
    iprop(owns c arg1 fullShare x0 ∗ owns c arg2 fullShare x1 ∗ owns c arg3 fullShare x2
        ∗ owns c arg4 fullShare x3 ∗ owns c arg5 fullShare x4
        ∗ owns c arg6 fullShare s0 ∗ owns c arg7 fullShare s1
        ∗ (iprop(owns c arg1 fullShare x0 ∗ owns c arg2 fullShare x1 ∗ owns c arg3 fullShare x2
            ∗ owns c arg4 fullShare x3
            ∗ owns c arg5 fullShare (if cond9_1 i then k9_pay6 (k9_pay4 x1 (if cond9_0 i then (k9_pay1, k9_pay2) else (s0, s1)).1 x0)
                (k9_pay5 x1 (if cond9_0 i then (k9_pay1, k9_pay2) else (s0, s1)).2) x2 x3 else x4)
            ∗ owns c arg6 fullShare (k9_pay4 x1 (if cond9_0 i then (k9_pay1, k9_pay2) else (s0, s1)).1 x0)
            ∗ owns c arg7 fullShare (k9_pay5 x1 (if cond9_0 i then (k9_pay1, k9_pay2) else (s0, s1)).2)) -∗ K ⟨⟩))
      ⊢ wp frame (wpE (defs₀ (F := F)) Variants.none c none) E (cc9__pool_kernel i arg1 harg1 arg2 harg2 arg3 harg3 arg4 harg4 arg5 harg5 arg6 harg6 arg7 harg7) K := by
  simp only [cc9__pool_kernel_eq_skeleton]; unfold cc9__pool_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  by_cases hc0 : cond9_0 i <;> by_cases hc1 : cond9_1 i <;>
    (first | simp only [if_neg hc0] | simp only [if_pos hc0]) <;> (first | simp only [if_neg hc1] | simp only [if_pos hc1])
  all_goals
    sl_exec (disch := first | exact hc0 | exact hc1)
    sl_step
    iapply Hk
    isplitl [H0]; on_goal 2 => isplitl [H1]; on_goal 2 => isplitl [H2]; on_goal 2 => isplitl [H3]; on_goal 2 => isplitl [H4]; on_goal 2 => isplitl [H5]
    all_goals
      iexists _; isplitr; swap; · iassumption
      ipureintro
      first
      | sl_unfold_words
        simp only [store9 S64x8 _ _ hz9, store9 S64x128 _ _ hz9, store9 S64x1 _ _ hz9, View.readAt_eq_ld, View.ld_unit_zero (S := S5000x1) hz9,
          View.ld_unit_zero (S := S5000x128) hz9, View.ld_unit_zero (S := S64x128) hz9, View.ld_unit_zero (S := S64x1) hz9, View.ld_unit_zero (S := S128x8) hz9,
          View.ld_unit_zero (S := S1x8) hz9, load9 S64x128 _ hz9, load9 S64x1 _ hz9]
      | rfl

theorem leaves9_4 (c : Dev nD) (t : Fin cfg9.N) (d) :
    owns c (st9_4 t) fullShare (if cond9_1 (grid9.coords t) then out9 V c t else (dat9 V c).before 4 t d) ⊢ (dat9 V c).leavesExact 4 t := by
  by_cases h1 : cond9_1 (grid9.coords t)
  · rw [if_pos h1]; unfold Dat.leavesExact; rw [liveAt9_4 t h1]; exact .rfl
  · rw [if_neg h1, Dat.leavesExact_idle _ 4 t (idleAt9_4 t h1) (noFlush9_4 t h1)]; iintro H; iexists _; iexact H

theorem body_obligation9 (c : Dev nD) : BodyObligation (dat9 (F := F) V c) (defs₀ (F := F)) Variants.none () Set.univ := fun t => by
  rw [bigSep_W9, bigSep_W9, show (dat9 V c).Φ = Phi9 V c from rfl]
  show _ ⊢ wp _ _ _ (bodyAt9 t) _
  dsimp only
  simp (disch := decide) only [before9]
  unfold Phi9 bodyAt9
  iintro ⟨⟨⟨%s, %hs, HS0, HS1⟩, Hrest, Hg⟩, Ho, ⟨%d0, H0⟩, ⟨%d1, H1⟩, ⟨%d2, H2⟩, ⟨%d3, H3⟩, ⟨%d4, H4⟩⟩
  have e : (if cond9_0 (grid9.coords t) then (k9_pay1, k9_pay2) else (s.1, s.2)) = scr9 V c t.castSucc := by
    by_cases h : t.val = 0
    · rw [if_pos ((hcond9_0 t).mpr h), show t.castSucc = 0 from Fin.ext h]; rfl
    · rw [if_neg (mt (hcond9_0 t).mp h)]; exact hs fun h' => h (congrArg Fin.val h')
  iapply sound_kernel9 c Set.univ (grid9.coords t) _ _ _ _ _ _ _ _ _ _ _ _ _ _ _ _ _ _ _ s.1 s.2 _
  isplitl [H0]; on_goal 2 => isplitl [H1]; on_goal 2 => isplitl [H2]; on_goal 2 => isplitl [H3]; on_goal 2 => isplitl [H4]; on_goal 2 => isplitl [HS0]; on_goal 2 => isplitl [HS1]
  iterate 7 iassumption
  iintro ⟨H0, H1, H2, H3, H4, HS0, HS1⟩
  rw [e]
  isplitl [HS0 HS1 Hrest Hg]
  · isplitl [HS0 HS1]
    · iexists (_, _); isplitr; swap
      · isplitl [HS0] <;> iassumption
      ipureintro; exact fun _ => rfl
    isplitl [Hrest] <;> iassumption
  isplitl [Ho]; on_goal 2 => isplitl [H0]; on_goal 2 => isplitl [H1]; on_goal 2 => isplitl [H2]; on_goal 2 => isplitl [H3]
  iexact Ho; iexact H0; iexact H1; iexact H2; iexact H3
  iapply leaves9_4 V c t d4
  iexact H4

theorem hin9 (c : Dev nD) (T : (pcfgs (F := F) 9).pre.Contents (Elt F)) :
    iprop((∃ r, prngReg c r) ∗ Pipeline.prefHeld (Ix := Unit) (Name := ℕ) (U := UR sig nD τ) (Lvl := ℕ) (pcfgs (F := F) 9).pre c (fun _ => fullShare) T
        ∗ Pipeline.scopedRest (Ix := Unit) (Name := ℕ) (U := UR sig nD τ) (Lvl := ℕ) (Val := Elt F) spec9 c)
      ⊢ ((dat9 V c).Φ 0 : sProp 𝕄) := by
  rw [show (dat9 V c).Φ 0 = Phi9 V c 0 from rfl, scopedRest9_split]; unfold Phi9
  simp only [scM9_0, scM9_1, owns_whole]
  iintro ⟨Hp, -, ⟨⟨⟨%d0, HS0⟩, ⟨%d1, HS1⟩⟩, Hrest⟩⟩
  isplitl [HS0 HS1]
  · iexists (d0, d1); isplitr; · ipureintro; exact fun h => absurd rfl h
    isplitl [HS0] <;> iassumption
  isplitl [Hrest] <;> iassumption

theorem hout9 (c : Dev nD) :
    ((dat9 V c).Φ (Fin.last cfg9.N) : sProp 𝕄)
      ⊢ iprop((∃ r, prngReg c r) ∗ Pipeline.ownSems0 (fun k : PEmpty => k.elim) c
        ∗ Pipeline.scopedRest (Ix := Unit) (Name := ℕ) (U := UR sig nD τ) (Lvl := ℕ) (Val := Elt F) spec9 c) := by
  rw [Pipeline.ownSems0_none, show (dat9 V c).Φ (Fin.last cfg9.N) = Phi9 V c (Fin.last _) from rfl, scopedRest9_split]; unfold Phi9
  simp only [scM9_0, scM9_1, owns_whole]
  iintro ⟨⟨%s, -, HS0, HS1⟩, Hrest, Hg⟩
  isplitl [Hg]; · iexact Hg
  isplitr; · iempintro
  isplitl [HS0 HS1]
  · isplitl [HS0] <;> (iexists _; iassumption)
  iexact Hrest

end Cert.KernelIdeal.Gen

end
-- ==== Proof.KI.Frame.lean ====
import proofs.«421377_j77326591197791_1_alg».proof.Proof.KI.FrameRegs
import proofs.«421377_j77326591197791_1_alg».proof.Proof.KI.RunCond
import proofs.«421377_j77326591197791_1_alg».proof.Proof.KI.Reg1Run
import proofs.«421377_j77326591197791_1_alg».proof.Proof.KI.Reg4Run
import proofs.«421377_j77326591197791_1_alg».proof.Proof.KI.Reg7Run
import proofs.«421377_j77326591197791_1_alg».proof.Proof.KI.Reg9

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v109) = V20 m (outs m) c main_v109
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run_cond (m := m) (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE10 := fun c => by
      iintro ⟨-, HO⟩; iexact HO)
    (R0 := reg m 0 launch0 (V3 m) [2] (body_obligation0 (T3 m)) (A_eq0 (T3 m)) (by decide) (fun c => hinA spec0 c _) (houtA spec0))
    (hpre0 := fun c => .rfl) (hpost0 := fun c => by rw [V4_eq m c]; exact .rfl)
    (R1 := reg m 1 launch1 (X5 m) [2, 3] (body_obligation1 (T5 m)) (A_eq1 (T5 m)) (by decide) (fun c => hinA spec1 c _) (houtA spec1))
    (hpre1 := fun c => by rw [V5_eq m c]; exact .rfl) (hpost1 := fun c => by rw [V6_eq m c]; exact .rfl)
    (R2 := reg m 2 launch2 (X7 m) [6] (body_obligation2 (T7 m)) (A_eq2 (T7 m)) (by decide) (fun c => hinA spec2 c _) (houtA spec2))
    (hpre2 := fun c => by rw [V7_eq m c]; exact .rfl) (hpost2 := fun c => by rw [V8_eq m c]; exact .rfl)
    (R3 := reg m 3 launch3 (X8 m) [2] (body_obligation3 (T8 m)) (A_eq3 (T8 m)) (by decide) (fun c => hinA spec3 c _) (houtA spec3))
    (hpre3 := fun c => by rw [V8_eq m c]; exact .rfl) (hpost3 := fun c => by rw [V9_eq m c]; exact .rfl)
    (R4 := reg m 4 launch4 (X10 m) [2, 3] (body_obligation4 (T10 m)) (A_eq4 (T10 m)) (by decide) (fun c => hinA spec4 c _) (houtA spec4))
    (hpre4 := fun c => by rw [V10_eq m c]; exact .rfl) (hpost4 := fun c => by rw [V11_eq m c]; exact .rfl)
    (R5 := reg m 5 launch5 (X12 m) [6] (body_obligation5 (T12 m)) (A_eq5 (T12 m)) (by decide) (fun c => hinA spec5 c _) (houtA spec5))
    (hpre5 := fun c => by rw [V12_eq m c]; exact .rfl) (hpost5 := fun c => by rw [V13_eq m c]; exact .rfl)
    (R6 := reg m 6 launch6 (X13 m) [2] (body_obligation6 (T13 m)) (A_eq6 (T13 m)) (by decide) (fun c => hinA spec6 c _) (houtA spec6))
    (hpre6 := fun c => by rw [V13_eq m c]; exact .rfl) (hpost6 := fun c => by rw [V14_eq m c]; exact .rfl)
    (R7 := reg m 7 launch7 (X15 m) [2, 3] (body_obligation7 (T15 m)) (A_eq7 (T15 m)) (by decide) (fun c => hinA spec7 c _) (houtA spec7))
    (hpre7 := fun c => by rw [V15_eq m c]; exact .rfl) (hpost7 := fun c => by rw [V16_eq m c]; exact .rfl)
    (R8 := reg m 8 launch8 (X17 m) [6] (body_obligation8 (T17 m)) (A_eq8 (T17 m)) (by decide) (fun c => hinA spec8 c _) (houtA spec8))
    (hpre8 := fun c => by rw [V17_eq m c]; exact .rfl) (hpost8 := fun c => by rw [V18_eq m c]; exact .rfl)
    (R9 := reg m 9 launch9 (X19 m) [4] (body_obligation9 (T19 m)) (A_eq9 (T19 m)) (by decide) (fun c => hin9 (T19 m) c _) (hout9 (T19 m)))
    (hpre9 := fun c => by rw [V19_eq m c]; exact .rfl) (hpost9 := fun c => by rw [V20_eq m c]; exact .rfl)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run _ _ _).mono (fun _ h c => (h c).2) (run_value m ρ)

end Cert.KernelIdeal.Gen

end
-- ==== Proof.Val.HostK.lean ====
import proofs.«421377_j77326591197791_1_alg».proof.Proof.Gen.KernelIdeal.Launch
import Idealize.ShloMosaic.Lib.StableHlo.Run

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (W : Valuation τ sig (Elt F))

def rowOf (b : (⟨S128, .f32⟩ : BufTy).Contents (Elt F)) : (⟨S1x128, .f32⟩ : BufTy).Contents (Elt F) :=
  fun i => shapeCast S1x128 b shapeCasts_S128_S1x128 i

def wrapIdx (i : (⟨S600000, .i32⟩ : BufTy).Contents (Elt F)) : (⟨S600000, .i32⟩ : BufTy).Contents (Elt F) :=
  select (cmpi .slt i (broadcastInDim S600000 ![] bcast_S_S600000 (constantI S_ 32 0#32 : (⟨S_, .i32⟩ : BufTy).Contents (Elt F))))
    (addi i (broadcastInDim S600000 ![] bcast_S_S600000 (constantI S_ 32 50000#32 : (⟨S_, .i32⟩ : BufTy).Contents (Elt F)))) i

def msgOf (w : (⟨S600000, .f32⟩ : BufTy).Contents (Elt F)) (h : (⟨S50000x128, .f32⟩ : BufTy).Contents (Elt F))
    (src : (⟨S600000, .i32⟩ : BufTy).Contents (Elt F)) : (⟨S600000x128, .f32⟩ : BufTy).Contents (Elt F) :=
  mulf (broadcastInDim S600000x128 ![0, 1] bcast_S600000x1_S600000x128_0_1 (broadcastInDim S600000x1 ![0] bcast_S600000_S600000x1_0 w))
    (Host.gather gather_S50000x128_S600000x1_S600000x128_1_0_n_n_0_1_1128 h (broadcastInDim S600000x1 ![0] bcast_S600000_S600000x1_0 (wrapIdx src)))

def aggOf (w : (⟨S600000, .f32⟩ : BufTy).Contents (Elt F)) (h : (⟨S50000x128, .f32⟩ : BufTy).Contents (Elt F))
    (src dst : (⟨S600000, .i32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) (msgOf w h src)

def nodesRow : (⟨S1x128, .f32⟩ : BufTy).Contents (Elt F) :=
  broadcastInDim S1x128 ![] bcast_S_S1x128 (constant S_ .f32 0x47435000#32)

def meanOf (s : (⟨S1x128, .f32⟩ : BufTy).Contents (Elt F)) : (⟨S1x128, .f32⟩ : BufTy).Contents (Elt F) :=
  Host.divf s nodesRow

def varOf (s q : (⟨S1x128, .f32⟩ : BufTy).Contents (Elt F)) : (⟨S1x128, .f32⟩ : BufTy).Contents (Elt F) :=
  subf (Host.divf q nodesRow) (mulf (meanOf s) (meanOf s))

def edgeSrcOf (e : (⟨S2x600000, .i32⟩ : BufTy).Contents (Elt F)) : (⟨S600000, .i32⟩ : BufTy).Contents (Elt F) :=
  fun i => shapeCast S600000 (extractStridedSlice S1x600000 ![0, 0] e slices_S2x600000_S1x600000_0_0) shapeCasts_S1x600000_S600000 i

def edgeDstOf (e : (⟨S2x600000, .i32⟩ : BufTy).Contents (Elt F)) : (⟨S600000, .i32⟩ : BufTy).Contents (Elt F) :=
  fun i => shapeCast S600000 (extractStridedSlice S1x600000 ![1, 0] e slices_S2x600000_S1x600000_1_0) shapeCasts_S1x600000_S600000 i

def degOf (e : (⟨S2x600000, .i32⟩ : BufTy).Contents (Elt F)) : (⟨S50000, .f32⟩ : BufTy).Contents (Elt F) :=
  Host.scatterAdd scatter_S50000_S600000x1_S600000_n_0_0_1
    (broadcastInDim S50000 ![] bcast_S_S50000 (constant S_ .f32 0x00000000#32))
    (broadcastInDim S600000x1 ![0] bcast_S600000_S600000x1_0 (edgeDstOf e))
    (broadcastInDim S600000 ![] bcast_S_S600000 (constant S_ .f32 0x3F800000#32))

def degPosOf (e : (⟨S2x600000, .i32⟩ : BufTy).Contents (Elt F)) : (⟨S50000, .i1⟩ : BufTy).Contents (Elt F) :=
  cmpf .ogt (degOf e) (broadcastInDim S50000 ![] bcast_S_S50000 (constant S_ .f32 0x00000000#32))

def degRsqrtOf (e : (⟨S2x600000, .i32⟩ : BufTy).Contents (Elt F)) : (⟨S50000, .f32⟩ : BufTy).Contents (Elt F) :=
  Host.rsqrt (maximumf (degOf e) (broadcastInDim S50000 ![] bcast_S_S50000 (constant S_ .f32 0x3F800000#32)))

def zeroScalar : (⟨S_, .f32⟩ : BufTy).Contents (Elt F) := constant S_ .f32 0x00000000#32

theorem hostOps0_main_v1 :
    StableHlo.after hostOps0 W (Proc.devRef .tc main_v1) = edgeSrcOf (W (Proc.devRef .tc main_arg1)) := by
  after_results_simp
  rfl

theorem hostOps0_main_v3 :
    StableHlo.after hostOps0 W (Proc.devRef .tc main_v3) = edgeDstOf (W (Proc.devRef .tc main_arg1)) := by
  after_results_simp
  rfl

theorem hostOps0_main_v9 :
    StableHlo.after hostOps0 W (Proc.devRef .tc main_v9) = degPosOf (W (Proc.devRef .tc main_arg1)) := by
  after_results_simp
  rfl

theorem hostOps0_main_v12 :
    StableHlo.after hostOps0 W (Proc.devRef .tc main_v12) = degRsqrtOf (W (Proc.devRef .tc main_arg1)) := by
  after_results_simp
  rfl

theorem hostOps0_main_cst_3 :
    StableHlo.after hostOps0 W (Proc.devRef .tc main_cst_3) = (zeroScalar : (⟨S_, .f32⟩ : BufTy).Contents (Elt F)) := by
  after_results_simp
  rfl

def dinvOf (p : (⟨S50000, .i1⟩ : BufTy).Contents (Elt F)) (r : (⟨S50000, .f32⟩ : BufTy).Contents (Elt F))
    (z : (⟨S_, .f32⟩ : BufTy).Contents (Elt F)) : (⟨S50000, .f32⟩ : BufTy).Contents (Elt F) :=
  select p r (broadcastInDim S50000 ![] bcast_S_S50000 z)

theorem hostOps0_1_main_v13 :
    StableHlo.after hostOps0_1 W (Proc.devRef .tc main_v13)
      = dinvOf (W (Proc.devRef .tc main_v9)) (W (Proc.devRef .tc main_v12)) (W (Proc.devRef .tc main_cst_3)) := by
  after_results_simp
  rfl

def edgeWOf (d : (⟨S50000, .f32⟩ : BufTy).Contents (Elt F)) (src dst : (⟨S600000, .i32⟩ : BufTy).Contents (Elt F)) :
    (⟨S600000, .f32⟩ : BufTy).Contents (Elt F) :=
  mulf (Host.gather gather_S50000_S600000x1_S600000_n_0_n_n_0_1_1 d (broadcastInDim S600000x1 ![0] bcast_S600000_S600000x1_0 (wrapIdx src)))
    (Host.gather gather_S50000_S600000x1_S600000_n_0_n_n_0_1_1 d (broadcastInDim S600000x1 ![0] bcast_S600000_S600000x1_0 (wrapIdx dst)))

theorem hostOps0_2_main_v28 :
    StableHlo.after hostOps0_2 W (Proc.devRef .tc main_v28)
      = edgeWOf (W (Proc.devRef .tc main_v13)) (W (Proc.devRef .tc main_v1)) (W (Proc.devRef .tc main_v3)) := by
  after_results_simp
  rfl

theorem hostOps1_main_v42 :
    StableHlo.after hostOps1 W (Proc.devRef .tc main_v42)
      = aggOf (W (Proc.devRef .tc main_v28)) (W (Proc.devRef .tc main_v29)) (W (Proc.devRef .tc main_v1)) (W (Proc.devRef .tc main_v3)) := by
  after_results_simp
  rfl

theorem hostOps1_main_v43 :
    StableHlo.after hostOps1 W (Proc.devRef .tc main_v43) = rowOf (W (Proc.devRef .tc main_arg4)) := by
  after_results_simp
  rfl

theorem hostOps2_main_v46 :
    StableHlo.after hostOps2 W (Proc.devRef .tc main_v46) = meanOf (W (Proc.devRef .tc main_v44_0)) := by
  after_results_simp
  rfl

theorem hostOps2_main_v50 :
    StableHlo.after hostOps2 W (Proc.devRef .tc main_v50)
      = varOf (W (Proc.devRef .tc main_v44_0)) (W (Proc.devRef .tc main_v44_1)) := by
  after_results_simp
  rfl

theorem hostOps2_main_v51 :
    StableHlo.after hostOps2 W (Proc.devRef .tc main_v51) = rowOf (W (Proc.devRef .tc main_arg4)) := by
  after_results_simp
  rfl

theorem hostOps2_main_v52 :
    StableHlo.after hostOps2 W (Proc.devRef .tc main_v52) = rowOf (W (Proc.devRef .tc main_arg5)) := by
  after_results_simp
  rfl

theorem hostOps2_main_v53 :
    StableHlo.after hostOps2 W (Proc.devRef .tc main_v53) = rowOf (W (Proc.devRef .tc main_arg6)) := by
  after_results_simp
  rfl

theorem hostOps4_main_v68 :
    StableHlo.after hostOps4 W (Proc.devRef .tc main_v68)
      = aggOf (W (Proc.devRef .tc main_v28)) (W (Proc.devRef .tc main_v55)) (W (Proc.devRef .tc main_v1)) (W (Proc.devRef .tc main_v3)) := by
  after_results_simp
  rfl

theorem hostOps4_main_v69 :
    StableHlo.after hostOps4 W (Proc.devRef .tc main_v69) = rowOf (W (Proc.devRef .tc main_arg8)) := by
  after_results_simp
  rfl

theorem hostOps5_main_v72 :
    StableHlo.after hostOps5 W (Proc.devRef .tc main_v72) = meanOf (W (Proc.devRef .tc main_v70_0)) := by
  after_results_simp
  rfl

theorem hostOps5_main_v76 :
    StableHlo.after hostOps5 W (Proc.devRef .tc main_v76)
      = varOf (W (Proc.devRef .tc main_v70_0)) (W (Proc.devRef .tc main_v70_1)) := by
  after_results_simp
  rfl

theorem hostOps5_main_v77 :
    StableHlo.after hostOps5 W (Proc.devRef .tc main_v77) = rowOf (W (Proc.devRef .tc main_arg8)) := by
  after_results_simp
  rfl

theorem hostOps5_main_v78 :
    StableHlo.after hostOps5 W (Proc.devRef .tc main_v78) = rowOf (W (Proc.devRef .tc main_arg9)) := by
  after_results_simp
  rfl

theorem hostOps5_main_v79 :
    StableHlo.after hostOps5 W (Proc.devRef .tc main_v79) = rowOf (W (Proc.devRef .tc main_arg10)) := by
  after_results_simp
  rfl

theorem hostOps7_main_v94 :
    StableHlo.after hostOps7 W (Proc.devRef .tc main_v94)
      = aggOf (W (Proc.devRef .tc main_v28)) (W (Proc.devRef .tc main_v81)) (W (Proc.devRef .tc main_v1)) (W (Proc.devRef .tc main_v3)) := by
  after_results_simp
  rfl

theorem hostOps7_main_v95 :
    StableHlo.after hostOps7 W (Proc.devRef .tc main_v95) = rowOf (W (Proc.devRef .tc main_arg12)) := by
  after_results_simp
  rfl

theorem hostOps8_main_v98 :
    StableHlo.after hostOps8 W (Proc.devRef .tc main_v98) = meanOf (W (Proc.devRef .tc main_v96_0)) := by
  after_results_simp
  rfl

theorem hostOps8_main_v102 :
    StableHlo.after hostOps8 W (Proc.devRef .tc main_v102)
      = varOf (W (Proc.devRef .tc main_v96_0)) (W (Proc.devRef .tc main_v96_1)) := by
  after_results_simp
  rfl

theorem hostOps8_main_v103 :
    StableHlo.after hostOps8 W (Proc.devRef .tc main_v103) = rowOf (W (Proc.devRef .tc main_arg12)) := by
  after_results_simp
  rfl

theorem hostOps8_main_v104 :
    StableHlo.after hostOps8 W (Proc.devRef .tc main_v104) = rowOf (W (Proc.devRef .tc main_arg13)) := by
  after_results_simp
  rfl

theorem hostOps8_main_v105 :
    StableHlo.after hostOps8 W (Proc.devRef .tc main_v105) = rowOf (W (Proc.devRef .tc main_arg14)) := by
  after_results_simp
  rfl

def colOf (b : (⟨S50000, .i32⟩ : BufTy).Contents (Elt F)) : (⟨S50000x1, .i32⟩ : BufTy).Contents (Elt F) :=
  fun i => shapeCast S50000x1 b shapeCasts_S50000_S50000x1 i

def row8Of (b : (⟨S8, .f32⟩ : BufTy).Contents (Elt F)) : (⟨S1x8, .f32⟩ : BufTy).Contents (Elt F) :=
  fun i => shapeCast S1x8 b shapeCasts_S8_S1x8 i

theorem hostOps9_main_v107 :
    StableHlo.after hostOps9 W (Proc.devRef .tc main_v107) = colOf (W (Proc.devRef .tc main_arg2)) := by
  after_results_simp
  rfl

theorem hostOps9_main_v108 :
    StableHlo.after hostOps9 W (Proc.devRef .tc main_v108) = row8Of (W (Proc.devRef .tc main_arg16)) := by
  after_results_simp
  rfl

end Cert.KernelIdeal.Gen

end
-- ==== Proof.Val.Link0.lean ====
import proofs.«421377_j77326591197791_1_alg».proof.Proof.KI.FrameDefs
import proofs.«421377_j77326591197791_1_alg».proof.Proof.Val.HostK
import proofs.«421377_j77326591197791_1_alg».proof.Proof.RefRead

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
variable (m : (ℓ : Loc nD τ sig) → Buf (Elt F) ℓ)

theorem X4_of (c : Dev nD) (r : Ref sig .tc) (h : r ∉ ([main_v29] : List (Ref sig .tc))) : X4 m c r = V3 m c r := by
  rw [← V4_eq]; exact V4_of m (outs m) c r h
theorem X5_of (c : Dev nD) (r : Ref sig .tc) (h : r ∉ hostOps1_W) : X5 m c r = X4 m c r := by
  rw [← V5_eq, ← V4_eq]; exact V5_of m (outs m) c r h
theorem X6_of (c : Dev nD) (r : Ref sig .tc) (h : r ∉ ([main_v44_0, main_v44_1] : List (Ref sig .tc))) : X6 m c r = X5 m c r := by
  rw [← V6_eq, ← V5_eq]; exact V6_of m (outs m) c r h
theorem X7_of (c : Dev nD) (r : Ref sig .tc) (h : r ∉ hostOps2_W) : X7 m c r = X6 m c r := by
  rw [← V7_eq, ← V6_eq]; exact V7_of m (outs m) c r h
theorem X8_of (c : Dev nD) (r : Ref sig .tc) (h : r ∉ ([main_v54] : List (Ref sig .tc))) : X8 m c r = X7 m c r := by
  rw [← V8_eq, ← V7_eq]; exact V8_of m (outs m) c r h
theorem X9_of (c : Dev nD) (r : Ref sig .tc) (h : r ∉ ([main_v55] : List (Ref sig .tc))) : X9 m c r = X8 m c r := by
  rw [← V9_eq, ← V8_eq]; exact V9_of m (outs m) c r h
theorem X10_of (c : Dev nD) (r : Ref sig .tc) (h : r ∉ hostOps4_W) : X10 m c r = X9 m c r := by
  rw [← V10_eq, ← V9_eq]; exact V10_of m (outs m) c r h
theorem X11_of (c : Dev nD) (r : Ref sig .tc) (h : r ∉ ([main_v70_0, main_v70_1] : List (Ref sig .tc))) : X11 m c r = X10 m c r := by
  rw [← V11_eq, ← V10_eq]; exact V11_of m (outs m) c r h
theorem X12_of (c : Dev nD) (r : Ref sig .tc) (h : r ∉ hostOps5_W) : X12 m c r = X11 m c r := by
  rw [← V12_eq, ← V11_eq]; exact V12_of m (outs m) c r h
theorem X13_of (c : Dev nD) (r : Ref sig .tc) (h : r ∉ ([main_v80] : List (Ref sig .tc))) : X13 m c r = X12 m c r := by
  rw [← V13_eq, ← V12_eq]; exact V13_of m (outs m) c r h
theorem X14_of (c : Dev nD) (r : Ref sig .tc) (h : r ∉ ([main_v81] : List (Ref sig .tc))) : X14 m c r = X13 m c r := by
  rw [← V14_eq, ← V13_eq]; exact V14_of m (outs m) c r h
theorem X15_of (c : Dev nD) (r : Ref sig .tc) (h : r ∉ hostOps7_W) : X15 m c r = X14 m c r := by
  rw [← V15_eq, ← V14_eq]; exact V15_of m (outs m) c r h
theorem X16_of (c : Dev nD) (r : Ref sig .tc) (h : r ∉ ([main_v96_0, main_v96_1] : List (Ref sig .tc))) : X16 m c r = X15 m c r := by
  rw [← V16_eq, ← V15_eq]; exact V16_of m (outs m) c r h
theorem X17_of (c : Dev nD) (r : Ref sig .tc) (h : r ∉ hostOps8_W) : X17 m c r = X16 m c r := by
  rw [← V17_eq, ← V16_eq]; exact V17_of m (outs m) c r h
theorem X18_of (c : Dev nD) (r : Ref sig .tc) (h : r ∉ ([main_v106] : List (Ref sig .tc))) : X18 m c r = X17 m c r := by
  rw [← V18_eq, ← V17_eq]; exact V18_of m (outs m) c r h

def edgeWAll (e : (⟨S2x600000, .i32⟩ : BufTy).Contents (Elt F)) : (⟨S600000, .f32⟩ : BufTy).Contents (Elt F) :=
  edgeWOf (dinvOf (degPosOf e) (degRsqrtOf e) zeroScalar) (edgeSrcOf e) (edgeDstOf e)

theorem V1_main_v1 (c : Dev nD) : V1 m c main_v1 = edgeSrcOf (m ((c : Thread nD τ).loc main_arg1)) := hostOps0_main_v1 (V0 m c)
theorem V1_main_v3 (c : Dev nD) : V1 m c main_v3 = edgeDstOf (m ((c : Thread nD τ).loc main_arg1)) := hostOps0_main_v3 (V0 m c)
theorem V1_main_v9 (c : Dev nD) : V1 m c main_v9 = degPosOf (m ((c : Thread nD τ).loc main_arg1)) := hostOps0_main_v9 (V0 m c)
theorem V1_main_v12 (c : Dev nD) : V1 m c main_v12 = degRsqrtOf (m ((c : Thread nD τ).loc main_arg1)) := hostOps0_main_v12 (V0 m c)
theorem V1_main_cst_3 (c : Dev nD) : V1 m c main_cst_3 = (zeroScalar : (⟨S_, .f32⟩ : BufTy).Contents (Elt F)) := hostOps0_main_cst_3 (V0 m c)

theorem V2_main_v1 (c : Dev nD) : V2 m c main_v1 = edgeSrcOf (m ((c : Thread nD τ).loc main_arg1)) :=
  (V2_of m c main_v1 (by decide)).trans (V1_main_v1 m c)
theorem V2_main_v3 (c : Dev nD) : V2 m c main_v3 = edgeDstOf (m ((c : Thread nD τ).loc main_arg1)) :=
  (V2_of m c main_v3 (by decide)).trans (V1_main_v3 m c)
theorem V2_main_v13 (c : Dev nD) :
    V2 m c main_v13 = dinvOf (degPosOf (m ((c : Thread nD τ).loc main_arg1))) (degRsqrtOf (m ((c : Thread nD τ).loc main_arg1))) zeroScalar := by
  refine (hostOps0_1_main_v13 (V1 m c)).trans ?_
  rw [V1_main_v9 m c, V1_main_v12 m c, V1_main_cst_3 m c]

theorem V3_main_v1 (c : Dev nD) : V3 m c main_v1 = edgeSrcOf (m ((c : Thread nD τ).loc main_arg1)) :=
  (V3_of m c main_v1 (by decide)).trans (V2_main_v1 m c)
theorem V3_main_v3 (c : Dev nD) : V3 m c main_v3 = edgeDstOf (m ((c : Thread nD τ).loc main_arg1)) :=
  (V3_of m c main_v3 (by decide)).trans (V2_main_v3 m c)
theorem V3_main_v28 (c : Dev nD) : V3 m c main_v28 = edgeWAll (m ((c : Thread nD τ).loc main_arg1)) := by
  refine (hostOps0_2_main_v28 (V2 m c)).trans ?_
  rw [V2_main_v13 m c, V2_main_v1 m c, V2_main_v3 m c]
  rfl

-- no item of the program after the third writes the buffer
abbrev Kept (r : Ref sig .tc) : Prop :=
  r ∉ ([main_v29] : List (Ref sig .tc)) ∧ r ∉ hostOps1_W ∧ r ∉ ([main_v44_0, main_v44_1] : List (Ref sig .tc)) ∧ r ∉ hostOps2_W ∧ r ∉ ([main_v54] : List (Ref sig .tc)) ∧ r ∉ ([main_v55] : List (Ref sig .tc)) ∧ r ∉ hostOps4_W ∧ r ∉ ([main_v70_0, main_v70_1] : List (Ref sig .tc)) ∧ r ∉ hostOps5_W ∧ r ∉ ([main_v80] : List (Ref sig .tc)) ∧ r ∉ ([main_v81] : List (Ref sig .tc)) ∧ r ∉ hostOps7_W ∧ r ∉ ([main_v96_0, main_v96_1] : List (Ref sig .tc)) ∧ r ∉ hostOps8_W ∧ r ∉ ([main_v106] : List (Ref sig .tc))

-- a buffer none of the first three host stretches writes still holds the launch contents after them
theorem V3_keep (c : Dev nD) (r : Ref sig .tc) (h1 : r ∉ hostOps0_W) (h2 : r ∉ hostOps0_1_W) (h3 : r ∉ hostOps0_2_W) : V3 m c r = V0 m c r :=
  (V3_of m c r h3).trans <| (V2_of m c r h2).trans (V1_of m c r h1)

-- a buffer no later item writes holds, after each later item, what it held after the third
theorem X4_keep (c : Dev nD) (r : Ref sig .tc) (h : Kept r) : X4 m c r = V3 m c r := X4_of m c r h.1
theorem X5_keep (c : Dev nD) (r : Ref sig .tc) (h : Kept r) : X5 m c r = V3 m c r := (X5_of m c r h.2.1).trans (X4_keep m c r h)
theorem X6_keep (c : Dev nD) (r : Ref sig .tc) (h : Kept r) : X6 m c r = V3 m c r := (X6_of m c r h.2.2.1).trans (X5_keep m c r h)
theorem X7_keep (c : Dev nD) (r : Ref sig .tc) (h : Kept r) : X7 m c r = V3 m c r := (X7_of m c r h.2.2.2.1).trans (X6_keep m c r h)
theorem X8_keep (c : Dev nD) (r : Ref sig .tc) (h : Kept r) : X8 m c r = V3 m c r := (X8_of m c r h.2.2.2.2.1).trans (X7_keep m c r h)
theorem X9_keep (c : Dev nD) (r : Ref sig .tc) (h : Kept r) : X9 m c r = V3 m c r := (X9_of m c r h.2.2.2.2.2.1).trans (X8_keep m c r h)
theorem X10_keep (c : Dev nD) (r : Ref sig .tc) (h : Kept r) : X10 m c r = V3 m c r := (X10_of m c r h.2.2.2.2.2.2.1).trans (X9_keep m c r h)
theorem X11_keep (c : Dev nD) (r : Ref sig .tc) (h : Kept r) : X11 m c r = V3 m c r := (X11_of m c r h.2.2.2.2.2.2.2.1).trans (X10_keep m c r h)
theorem X12_keep (c : Dev nD) (r : Ref sig .tc) (h : Kept r) : X12 m c r = V3 m c r := (X12_of m c r h.2.2.2.2.2.2.2.2.1).trans (X11_keep m c r h)
theorem X13_keep (c : Dev nD) (r : Ref sig .tc) (h : Kept r) : X13 m c r = V3 m c r := (X13_of m c r h.2.2.2.2.2.2.2.2.2.1).trans (X12_keep m c r h)
theorem X14_keep (c : Dev nD) (r : Ref sig .tc) (h : Kept r) : X14 m c r = V3 m c r := (X14_of m c r h.2.2.2.2.2.2.2.2.2.2.1).trans (X13_keep m c r h)
theorem X15_keep (c : Dev nD) (r : Ref sig .tc) (h : Kept r) : X15 m c r = V3 m c r := (X15_of m c r h.2.2.2.2.2.2.2.2.2.2.2.1).trans (X14_keep m c r h)
theorem X16_keep (c : Dev nD) (r : Ref sig .tc) (h : Kept r) : X16 m c r = V3 m c r := (X16_of m c r h.2.2.2.2.2.2.2.2.2.2.2.2.1).trans (X15_keep m c r h)
theorem X17_keep (c : Dev nD) (r : Ref sig .tc) (h : Kept r) : X17 m c r = V3 m c r := (X17_of m c r h.2.2.2.2.2.2.2.2.2.2.2.2.2.1).trans (X16_keep m c r h)
theorem X18_keep (c : Dev nD) (r : Ref sig .tc) (h : Kept r) : X18 m c r = V3 m c r := (X18_of m c r h.2.2.2.2.2.2.2.2.2.2.2.2.2.2).trans (X17_keep m c r h)
theorem V3_main_arg0 (c : Dev nD) : V3 m c main_arg0 = m ((c : Thread nD τ).loc main_arg0) := V3_keep m c _ (by decide) (by decide) (by decide)
theorem V3_main_arg3 (c : Dev nD) : V3 m c main_arg3 = m ((c : Thread nD τ).loc main_arg3) := V3_keep m c _ (by decide) (by decide) (by decide)
theorem X4_main_v28 (c : Dev nD) : X4 m c main_v28 = edgeWAll (m ((c : Thread nD τ).loc main_arg1)) := (X4_keep m c _ (by decide)).trans (V3_main_v28 m c)
theorem X4_main_v1 (c : Dev nD) : X4 m c main_v1 = edgeSrcOf (m ((c : Thread nD τ).loc main_arg1)) := (X4_keep m c _ (by decide)).trans (V3_main_v1 m c)
theorem X4_main_v3 (c : Dev nD) : X4 m c main_v3 = edgeDstOf (m ((c : Thread nD τ).loc main_arg1)) := (X4_keep m c _ (by decide)).trans (V3_main_v3 m c)
theorem X4_main_arg4 (c : Dev nD) : X4 m c main_arg4 = m ((c : Thread nD τ).loc main_arg4) := (X4_keep m c _ (by decide)).trans (V3_keep m c _ (by decide) (by decide) (by decide))
theorem X6_main_arg4 (c : Dev nD) : X6 m c main_arg4 = m ((c : Thread nD τ).loc main_arg4) := (X6_keep m c _ (by decide)).trans (V3_keep m c _ (by decide) (by decide) (by decide))
theorem X6_main_arg5 (c : Dev nD) : X6 m c main_arg5 = m ((c : Thread nD τ).loc main_arg5) := (X6_keep m c _ (by decide)).trans (V3_keep m c _ (by decide) (by decide) (by decide))
theorem X6_main_arg6 (c : Dev nD) : X6 m c main_arg6 = m ((c : Thread nD τ).loc main_arg6) := (X6_keep m c _ (by decide)).trans (V3_keep m c _ (by decide) (by decide) (by decide))
theorem X13_main_arg11 (c : Dev nD) : X13 m c main_arg11 = m ((c : Thread nD τ).loc main_arg11) := (X13_keep m c _ (by decide)).trans (V3_keep m c _ (by decide) (by decide) (by decide))
theorem X14_main_v28 (c : Dev nD) : X14 m c main_v28 = edgeWAll (m ((c : Thread nD τ).loc main_arg1)) := (X14_keep m c _ (by decide)).trans (V3_main_v28 m c)
theorem X14_main_v1 (c : Dev nD) : X14 m c main_v1 = edgeSrcOf (m ((c : Thread nD τ).loc main_arg1)) := (X14_keep m c _ (by decide)).trans (V3_main_v1 m c)
theorem X14_main_v3 (c : Dev nD) : X14 m c main_v3 = edgeDstOf (m ((c : Thread nD τ).loc main_arg1)) := (X14_keep m c _ (by decide)).trans (V3_main_v3 m c)
theorem X14_main_arg12 (c : Dev nD) : X14 m c main_arg12 = m ((c : Thread nD τ).loc main_arg12) := (X14_keep m c _ (by decide)).trans (V3_keep m c _ (by decide) (by decide) (by decide))
theorem X16_main_arg12 (c : Dev nD) : X16 m c main_arg12 = m ((c : Thread nD τ).loc main_arg12) := (X16_keep m c _ (by decide)).trans (V3_keep m c _ (by decide) (by decide) (by decide))
theorem X16_main_arg13 (c : Dev nD) : X16 m c main_arg13 = m ((c : Thread nD τ).loc main_arg13) := (X16_keep m c _ (by decide)).trans (V3_keep m c _ (by decide) (by decide) (by decide))
theorem X16_main_arg14 (c : Dev nD) : X16 m c main_arg14 = m ((c : Thread nD τ).loc main_arg14) := (X16_keep m c _ (by decide)).trans (V3_keep m c _ (by decide) (by decide) (by decide))
theorem X18_main_arg2 (c : Dev nD) : X18 m c main_arg2 = m ((c : Thread nD τ).loc main_arg2) := (X18_keep m c _ (by decide)).trans (V3_keep m c _ (by decide) (by decide) (by decide))
theorem X18_main_arg15 (c : Dev nD) : X18 m c main_arg15 = m ((c : Thread nD τ).loc main_arg15) := (X18_keep m c _ (by decide)).trans (V3_keep m c _ (by decide) (by decide) (by decide))
theorem X18_main_arg16 (c : Dev nD) : X18 m c main_arg16 = m ((c : Thread nD τ).loc main_arg16) := (X18_keep m c _ (by decide)).trans (V3_keep m c _ (by decide) (by decide) (by decide))

end Cert.KernelIdeal.Gen

end
-- ==== Proof.Val.Mat0.lean ====
-- sib.js proof/Proof/Val/Mat3.lean proof/Proof/Val/Mat0.lean 3 0
import proofs.«421377_j77326591197791_1_alg».proof.Proof.KI.Reg0
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem pay_mat0 (x0 : FVec Ideal S5000x128 .f32) (x1 : FVec Ideal S128x128 .f32) (r : Fin 5000) (k : Fin 128) :
    k0_pay1 (F := Ideal) x0 x1 (ix2 r k) = ∑ j : Fin 128, x0 (ix2 r j) * x1 (ix2 j k) :=
  (congrFun (matmul_zero_eq_dotGeneral _ none _ x1) _).trans
    ((StackMember.dotGeneral_plain_apply none _ x1 r k).trans (by simp only [shapeCast_self]))

theorem hz_mat0 : (![0, 0] : Fin 2 → Nat) = fun _ => 0 := by decide

theorem idx_mat0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

abbrev xarr0 (c : Dev nD) : S50000x128.Idx → EReal := V c (Pipeline.arrRef spec0 0)
abbrev warr0 (c : Dev nD) : S128x128.Idx → EReal := V c (Pipeline.arrRef spec0 1)
abbrev oarr0 (c : Dev nD) : S50000x128.Idx → EReal := (dat0 (F := Ideal) V c).arrAt 2 cfg0.N

abbrev matG0 (c : Dev nD) : S50000x128.Idx → EReal :=
  fun i => ∑ j : Fin 128, xarr0 V c (ix2 (i 0) j) * warr0 V c (ix2 j (i 1))

theorem flushed_mat0 (c : Dev nD) (t : Fin cfg0.N) :
    (dat0 (F := Ideal) V c).flushed 2 t = ((cfg0.win 2).blk t).view.read (Elt Ideal) (matG0 V c) := by
  show (cfg0.win 2).cut (grid0.coords t) ((dat0 (F := Ideal) V c).after 2 t) = _
  rw [after0_2]
  unfold out0_2
  rw [View.canon_unit_zero hz_mat0]
  simp only [View.ld_unit_zero (S := S5000x128) hz_mat0, View.ld_unit_zero (S := S128x128) hz_mat0]
  obtain ⟨e0, e1, e2, e3, e4, e5⟩ := idx_mat0 t
  funext y
  obtain ⟨r, k, rfl⟩ : ∃ (r : Fin 5000) (k : Fin 128), y = ix2 r k := ⟨y 0, y 1, eq_ix2 y⟩
  show k0_pay1 (F := Ideal) (iblk0 V c 0 t) (iblk0 V c 1 t) _ = matG0 V c (((cfg0.win 2).blk t).view.emb _)
  refine (pay_mat0 _ _ r k).trans (Finset.sum_congr rfl fun j _ => congrArg₂ (· * ·) ?_ ?_)
  · refine congrArg (xarr0 V c) (Shape.idx_ext₂ ?_ ?_)
    · show win0_0.index t (0 : Fin 2) * 5000 + 1 * r.val = win0_2.index t (0 : Fin 2) * 5000 + 1 * r.val; rw [e0, e4]
    · show win0_0.index t (1 : Fin 2) * 128 + 1 * j.val = j.val; rw [e1]; omega
  · refine congrArg (warr0 V c) (Shape.idx_ext₂ ?_ ?_)
    · show win0_1.index t (0 : Fin 2) * 128 + 1 * j.val = j.val; rw [e2]; omega
    · show win0_1.index t (1 : Fin 2) * 128 + 1 * k.val = win0_2.index t (1 : Fin 2) * 128 + 1 * k.val; rw [e3, e5]

theorem cover_mat0 (i : S50000x128.Idx) :
    ∃ t : Fin cfg0.N, (cfg0.win 2).flush t = true ∧ i ∈ ((cfg0.win 2).blk t).view.set := by
  have hi0 := idx2_lt0 i
  have hi1 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := idx_mat0 t
  refine ⟨t, flush0_2 t, ?_⟩
  show i ∈ ((View.whole (Pipeline.arrRef spec0 2)).slice (win0_2.rect t)).set
  rw [View.set_slice_whole, Rect.mem_set_unit]
  refine Fin.forall_fin_two.mpr ⟨?_, ?_⟩
  · show win0_2.index t (0 : Fin 2) * 5000 ≤ (i 0).val ∧ (i 0).val < win0_2.index t (0 : Fin 2) * 5000 + 5000
    rw [e4]; omega
  · show win0_2.index t (1 : Fin 2) * 128 ≤ (i 1).val ∧ (i 1).val < win0_2.index t (1 : Fin 2) * 128 + 128
    rw [e5]; omega

theorem mat_final0 (c : Dev nD) (i : Fin 50000) (k : Fin 128) :
    oarr0 V c (ix2 i k) = ∑ j : Fin 128, xarr0 V c (ix2 i j) * warr0 V c (ix2 j k) :=
  congrFun ((dat0 (F := Ideal) V c).arrAt_eq_of_cover 2 (matG0 V c) (fun t _ => flushed_mat0 V c t) cover_mat0) (ix2 i k)

end Cert.KernelIdeal.Gen
-- ==== Proof.Val.Stats1.lean ====
import proofs.«421377_j77326591197791_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe
open Idealize.ShloMosaic.Pipeline (Dat Cfg Window)
open Idealize.ShloMosaic.ValueIdx
open scoped BigOperators

variable (V : (c : Dev nD) → (b : Ref sig .tc) → Buf (Elt Ideal) ((c : Thread nD τ).loc b))

theorem colsum1_apply (x : FVec Ideal S5000x128 .f32) (k : Fin 128) :
    shapeCast S1x128 (multiReduction (F := Ideal) .add [0] S128 x 0x00000000#32 reduces_S5000x128_S128 (.inl rfl) rfl)
        shapeCasts_S128_S1x128 (ix2 (0 : Fin 1) k)
      = ∑ r : Fin 5000, x (ix2 r k) :=
  (shapeCast_a_1a_apply _ shapeCasts_S128_S1x128 (0 : Fin 1) k).trans
    ((Ideal.multiReduction_add_single x 0x00000000#32 reduces_S5000x128_S128 (.inl rfl) rfl (ix1 k)).trans
      (Finset.sum_congr rfl fun r _ => congrArg x (Shape.idx_ext₂ rfl rfl)))

abbrev rows1 (c : Dev nD) : S50000x128.Idx → EReal := V c (Pipeline.arrRef spec1 0)
abbrev bias1 (c : Dev nD) : S1x128.Idx → EReal := V c (Pipeline.arrRef spec1 1)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem k1_pay3_apply (c : Dev nD) (t : Fin cfg1.N) (ht : t.val < 10) (r : Fin 5000) (k : Fin 128) :
    k1_pay3 (iblk1 V c 0 t) (iblk1 V c 1 t) (ix2 r k)
      = rows1 V c (ix2 (⟨5000 * t.val + r.val, by omega⟩ : Fin 50000) k) + bias1 V c (ix2 (0 : Fin 1) k) := by
  obtain ⟨e0, e1, e2, e3, -⟩ := idx_facts1 t
  unfold k1_pay3
  rw [addf_apply, shapeCast_self, shapeCast_self, broadcastTo_1b_ab_apply]
  refine congrArg₂ (· + ·) (congrArg (rows1 V c) (Shape.idx_ext₂ ?_ ?_)) (congrArg (bias1 V c) (Shape.idx_ext₂ ?_ ?_))
  · show win1_0.index t (0 : Fin 2) * 5000 + 1 * r.val = 5000 * t.val + r.val; rw [e0]; omega
  · show win1_0.index t (1 : Fin 2) * 128 + 1 * k.val = k.val; rw [e1]; omega
  · show win1_1.index t (0 : Fin 2) * 1 + 1 * 0 = 0; rw [e2]
  · show win1_1.index t (1 : Fin 2) * 128 + 1 * k.val = k.val; rw [e3]; omega

def blockSum1 (g : EReal → EReal) (c : Dev nD) (k : Fin 128) (t : ℕ) : EReal :=
  if h : t < 10 then
    ∑ r : Fin 5000, g (rows1 V c (ix2 (⟨5000 * t + r.val, by omega⟩ : Fin 50000) k) + bias1 V c (ix2 (0 : Fin 1) k))
  else 0

theorem point1_sum (c : Dev nD) (t : Fin cfg1.N) (v9 : Vec Ideal S1x128 .f32) (k : Fin 128) :
    k1_pay4 (iblk1 V c 0 t) (iblk1 V c 1 t) v9 (ix2 (0 : Fin 1) k) = v9 (ix2 (0 : Fin 1) k) + blockSum1 V id c k t.val := by
  have ht : t.val < 10 := lt_of_lt_of_eq t.isLt N_1
  unfold blockSum1 k1_pay4
  rw [dif_pos ht, addf_apply, shapeCast_self, colsum1_apply]
  exact congrArg (v9 (ix2 (0 : Fin 1) k) + ·) (Finset.sum_congr rfl fun r _ => k1_pay3_apply V c t ht r k)

theorem point1_sq (c : Dev nD) (t : Fin cfg1.N) (v15 : Vec Ideal S1x128 .f32) (k : Fin 128) :
    k1_pay5 (iblk1 V c 0 t) (iblk1 V c 1 t) v15 (ix2 (0 : Fin 1) k)
      = v15 (ix2 (0 : Fin 1) k) + blockSum1 V (fun y => y * y) c k t.val := by
  have ht : t.val < 10 := lt_of_lt_of_eq t.isLt N_1
  unfold blockSum1 k1_pay5
  rw [dif_pos ht, addf_apply, shapeCast_self, colsum1_apply]
  exact congrArg (v15 (ix2 (0 : Fin 1) k) + ·) (Finset.sum_congr rfl fun r _ => congrArg (fun y => y * y) (k1_pay3_apply V c t ht r k))

theorem outsAt1_apply (c : Dev nD) (k : Fin 128) : ∀ (n : ℕ) (h : n < cfg1.N),
    (outsAt1 V c n h).1 (ix2 (0 : Fin 1) k) = ∑ t ∈ Finset.range (n + 1), blockSum1 V id c k t
    ∧ (outsAt1 V c n h).2 (ix2 (0 : Fin 1) k) = ∑ t ∈ Finset.range (n + 1), blockSum1 V (fun y => y * y) c k t
  | 0, h => by
    rw [outsAt1_zero V c h, Finset.sum_range_one, Finset.sum_range_one]
    exact ⟨(point1_sum V c ⟨0, h⟩ _ k).trans (congrArg (· + _) Ideal.ofBits_zero_f32 |>.trans (zero_add _)),
      (point1_sq V c ⟨0, h⟩ _ k).trans (congrArg (· + _) Ideal.ofBits_zero_f32 |>.trans (zero_add _))⟩
  | n + 1, h => by
    obtain ⟨ih1, ih2⟩ := outsAt1_apply c k n (Nat.lt_of_succ_lt h)
    rw [outsAt1_succ V c n h, Finset.sum_range_succ _ (n + 1), Finset.sum_range_succ _ (n + 1), ← ih1, ← ih2]
    exact ⟨point1_sum V c ⟨n + 1, h⟩ _ k, point1_sq V c ⟨n + 1, h⟩ _ k⟩

theorem sum_rows1 {M : Type*} [AddCommMonoid M] (f : Fin 50000 → M) :
    ∑ i, f i = ∑ t : Fin 10, ∑ r : Fin 5000, f ⟨5000 * t.val + r.val, by omega⟩ := by
  rw [← (finProdFinEquiv.trans (finCongr (by norm_num : 10 * 5000 = 50000))).sum_comp, Fintype.sum_prod_type]
  exact Finset.sum_congr rfl fun t _ => Finset.sum_congr rfl fun r _ => congrArg f (Fin.ext (Nat.add_comm _ _))

theorem sum_blocks1 (g : EReal → EReal) (c : Dev nD) (k : Fin 128) :
    ∑ t ∈ Finset.range 10, blockSum1 V g c k t
      = ∑ i : Fin 50000, g (rows1 V c (ix2 i k) + bias1 V c (ix2 (0 : Fin 1) k)) := by
  rw [Finset.sum_range (fun t => blockSum1 V g c k t),
    sum_rows1 (fun i : Fin 50000 => g (rows1 V c (ix2 i k) + bias1 V c (ix2 (0 : Fin 1) k)))]
  exact Finset.sum_congr rfl fun t _ => dif_pos t.isLt

theorem h9_1 : 9 < cfg1.N := by rw [show cfg1.N = 10 from N_1]; decide

theorem hz1 (w : Fin 2 → ℕ) (h0 : w 0 = 0) (h1 : w 1 = 0) : (fun a => w a * S1x128.size a) = fun _ => 0 :=
  funext (Fin.forall_fin_two.mpr ⟨by rw [h0]; rfl, by rw [h1]; rfl⟩)

theorem final1_2 (c : Dev nD) : (dat1 (F := Ideal) V c).arrAt 2 cfg1.N = (outsAt1 V c 9 h9_1).1 := by
  obtain ⟨-, -, -, -, e0, e1, -⟩ := idx_facts1 t1_9
  have hz := hz1 _ e0 e1
  refine (dat1 (F := Ideal) V c).arrAt_eq_of_cover 2 _ (fun t hf => ?_) fun i => ⟨t1_9, (flush1_2 t1_9).mpr rfl, ?_⟩
  · obtain rfl : t = t1_9 := Fin.ext (show t.val = 9 by have := (flush1_2 t).mp hf; have := lt_of_lt_of_eq t.isLt N_1; omega)
    show (cfg1.win 2).cut (grid1.coords t1_9) ((dat1 (F := Ideal) V c).after 2 t1_9) = _
    rw [after1_2]
    exact (Memref.read_access_unit_zero (Elt Ideal) (Pipeline.arrRef spec1 2) hz (fun a => by rw [congrFun hz a]; simp) _).symm
  · show i ∈ ((View.whole (Pipeline.arrRef spec1 2)).slice (win1_2.rect t1_9)).set
    rw [View.set_slice_whole]
    exact View.mem_set_unit_zero hz _ i

theorem final1_3 (c : Dev nD) : (dat1 (F := Ideal) V c).arrAt 3 cfg1.N = (outsAt1 V c 9 h9_1).2 := by
  obtain ⟨-, -, -, -, -, -, e0, e1⟩ := idx_facts1 t1_9
  have hz := hz1 _ e0 e1
  refine (dat1 (F := Ideal) V c).arrAt_eq_of_cover 3 _ (fun t hf => ?_) fun i => ⟨t1_9, (flush1_3 t1_9).mpr rfl, ?_⟩
  · obtain rfl : t = t1_9 := Fin.ext (show t.val = 9 by have := (flush1_3 t).mp hf; have := lt_of_lt_of_eq t.isLt N_1; omega)
    show (cfg1.win 3).cut (grid1.coords t1_9) ((dat1 (F := Ideal) V c).after 3 t1_9) = _
    rw [after1_3]
    exact (Memref.read_access_unit_zero (Elt Ideal) (Pipeline.arrRef spec1 3) hz (fun a => by rw [congrFun hz a]; simp) _).symm
  · show i ∈ ((View.whole (Pipeline.arrRef spec1 3)).slice (win1_3.rect t1_9)).set
    rw [View.set_slice_whole]
    exact View.mem_set_unit_zero hz _ i

abbrev sumsOut1 (c : Dev nD) : S1x128.Idx → EReal := (dat1 (F := Ideal) V c).arrAt 2 cfg1.N
abbrev sqsOut1 (c : Dev nD) : S1x128.Idx → EReal := (dat1 (F := Ideal) V c).arrAt 3 cfg1.N

theorem stats_final1_sum (c : Dev nD) (k : Fin 128) :
    sumsOut1 V c (ix2 (0 : Fin 1) k) = ∑ i : Fin 50000, (rows1 V c (ix2 i k) + bias1 V c (ix2 (0 : Fin 1) k)) :=
  (congrFun (final1_2 V c) _).trans ((outsAt1_apply V c k 9 h9_1).1.trans (sum_blocks1 V id c k))

theorem stats_final1_sq (c : Dev nD) (k : Fin 128) :
    sqsOut1 V c (ix2 (0 : Fin 1) k)
      = ∑ i : Fin 50000, (rows1 V c (ix2 i k) + bias1 V c (ix2 (0 : Fin 1) k)) * (rows1 V c (ix2 i k) + bias1 V c (ix2 (0 : Fin 1) k)) :=
  (congrFun (final1_3 V c) _).trans ((outsAt1_apply V c k 9 h9_1).2.trans (sum_blocks1 V (fun y => y * y) c k))

end Cert.KernelIdeal.Gen

end
-- ==== Proof.Val.Nr2.lean ====
import proofs.«421377_j77326591197791_1_alg».proof.Proof.KI.Reg2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem nr_hz2 : (![0, 0] : Fin 2 → Nat) = fun _ => 0 := by decide

def nrAt2 (a b mu var g be : EReal) : EReal :=
  max ((((a + b) - mu) * Ideal.rsqrt (var + Ideal.ofBits .f32 0x3727C5AC#32)) * g + be) 0

theorem nr_pay2 (x0 : Vec Ideal S5000x128 .f32) (x1 x5 x4 x2 x3 : Vec Ideal S1x128 .f32) (r : Fin 5000) (k : Fin 128) :
    k2_pay1 (F := Ideal) x0 x1 x5 x4 x2 x3 (ix2 r k)
      = nrAt2 (x0 (ix2 r k)) (x1 (ix2 0 k)) (x4 (ix2 0 k)) (x5 (ix2 0 k)) (x2 (ix2 0 k)) (x3 (ix2 0 k)) := by
  unfold k2_pay1
  simp only [shapeCast_self]
  simp only [maximumf_apply, addf_apply, mulf_apply, subf_apply, broadcast_apply, broadcastTo_1b_ab_apply]
  simp only [Ideal.ofBits_def, Ideal.ofBits_zero_f32]
  rfl

theorem nr_idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

abbrev nrIn2_0 (c : Dev nD) : S50000x128.Idx → EReal := V c (Pipeline.arrRef spec2 0)
abbrev nrIn2_1 (c : Dev nD) : S1x128.Idx → EReal := V c (Pipeline.arrRef spec2 1)
abbrev nrIn2_2 (c : Dev nD) : S1x128.Idx → EReal := V c (Pipeline.arrRef spec2 2)
abbrev nrIn2_3 (c : Dev nD) : S1x128.Idx → EReal := V c (Pipeline.arrRef spec2 3)
abbrev nrIn2_4 (c : Dev nD) : S1x128.Idx → EReal := V c (Pipeline.arrRef spec2 4)
abbrev nrIn2_5 (c : Dev nD) : S1x128.Idx → EReal := V c (Pipeline.arrRef spec2 5)

def nrG2 (c : Dev nD) : S50000x128.Idx → EReal := fun j =>
  nrAt2 (nrIn2_0 V c j) (nrIn2_1 V c (ix2 0 (j 1))) (nrIn2_4 V c (ix2 0 (j 1))) (nrIn2_5 V c (ix2 0 (j 1)))
    (nrIn2_2 V c (ix2 0 (j 1))) (nrIn2_3 V c (ix2 0 (j 1)))

theorem nr_flushed2 (c : Dev nD) (t : Fin cfg2.N) :
    (dat2 (F := Ideal) V c).flushed 6 t = ((cfg2.win 6).blk t).view.read (Elt Ideal) (nrG2 V c) := by
  show (cfg2.win 6).cut (grid2.coords t) ((dat2 (F := Ideal) V c).after 6 t) = _
  rw [after2_6]
  unfold out2_6
  rw [View.canon_unit_zero nr_hz2]
  simp only [View.ld_unit_zero (S := S5000x128) nr_hz2, View.ld_unit_zero (S := S1x128) nr_hz2]
  obtain ⟨e00, e01, e10, e11, e20, e21, e30, e31, e40, e41, e50, e51, e60, e61⟩ := nr_idx2 t
  funext y
  obtain ⟨p, q, rfl⟩ : ∃ (p : Fin 5000) (q : Fin 128), y = ix2 p q := ⟨y 0, y 1, eq_ix2 y⟩
  show k2_pay1 (F := Ideal) (iblk2 V c 0 t) (iblk2 V c 1 t) (iblk2 V c 5 t) (iblk2 V c 4 t) (iblk2 V c 2 t) (iblk2 V c 3 t) _
    = nrG2 V c (((cfg2.win 6).blk t).view.emb _)
  have row : ∀ {a b : ℕ}, a = 0 → b = 0 → a * 1 + 1 * 0 = 0 ∧ b * 128 + 1 * q.val = win2_6.index t (1 : Fin 2) * 128 + 1 * q.val :=
    fun ha hb => by rw [ha, hb, e61]; exact ⟨rfl, rfl⟩
  refine (nr_pay2 _ _ _ _ _ _ p q).trans ?_
  unfold nrG2
  congr 1
  · exact congrArg (nrIn2_1 V c) (Shape.idx_ext₂ (by exact (row e10 e11).1) (by exact (row e10 e11).2))
  · exact congrArg (nrIn2_4 V c) (Shape.idx_ext₂ (by exact (row e40 e41).1) (by exact (row e40 e41).2))
  · exact congrArg (nrIn2_5 V c) (Shape.idx_ext₂ (by exact (row e50 e51).1) (by exact (row e50 e51).2))
  · exact congrArg (nrIn2_2 V c) (Shape.idx_ext₂ (by exact (row e20 e21).1) (by exact (row e20 e21).2))
  · exact congrArg (nrIn2_3 V c) (Shape.idx_ext₂ (by exact (row e30 e31).1) (by exact (row e30 e31).2))

theorem nr_cover2 (i : S50000x128.Idx) : ∃ t : Fin cfg2.N, (cfg2.win 6).flush t = true ∧ i ∈ ((cfg2.win 6).blk t).view.set := by
  have hi0 := idx2_lt0 i
  have hi1 := idx2_lt1 i
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e60, e61⟩ := nr_idx2 t
  refine ⟨t, flush2_6 t, ?_⟩
  show i ∈ ((View.whole (Pipeline.arrRef spec2 6)).slice (win2_6.rect t)).set
  rw [View.set_slice_whole, Rect.mem_set_unit]
  refine Fin.forall_fin_two.mpr ⟨?_, ?_⟩
  · show win2_6.index t (0 : Fin 2) * 5000 ≤ (i 0).val ∧ (i 0).val < win2_6.index t (0 : Fin 2) * 5000 + 5000
    rw [e60]; omega
  · show win2_6.index t (1 : Fin 2) * 128 ≤ (i 1).val ∧ (i 1).val < win2_6.index t (1 : Fin 2) * 128 + 128
    rw [e61]; omega

theorem nr_final2 (c : Dev nD) (i : Fin 50000) (k : Fin 128) :
    ((dat2 (F := Ideal) V c).arrAt 6 cfg2.N : S50000x128.Idx → EReal) (ix2 i k)
      = max ((((nrIn2_0 V c (ix2 i k) + nrIn2_1 V c (ix2 0 k)) - nrIn2_4 V c (ix2 0 k))
            * Ideal.rsqrt (nrIn2_5 V c (ix2 0 k) + Ideal.ofBits .f32 0x3727C5AC#32))
          * nrIn2_2 V c (ix2 0 k) + nrIn2_3 V c (ix2 0 k)) 0 :=
  congrFun ((dat2 (F := Ideal) V c).arrAt_eq_of_cover 6 (nrG2 V c) (fun t _ => nr_flushed2 V c t) nr_cover2) (ix2 i k)

end Cert.KernelIdeal.Gen

end
-- ==== Proof.Val.Alg.lean ====
import Idealize.ShloMosaic.PureOps.Ideal
import Mathlib.Data.EReal.Basic
import Mathlib.Data.EReal.Operations
import Mathlib.Data.EReal.Inv
import Mathlib.Algebra.BigOperators.Fin
import Mathlib.Algebra.BigOperators.Ring.Finset
import Mathlib.Algebra.Order.BigOperators.Group.Finset
import Mathlib.Analysis.SpecialFunctions.Sqrt
import Mathlib.Tactic.Ring
import Mathlib.Tactic.FieldSimp
import Mathlib.Tactic.Linarith
import Mathlib.Tactic.Positivity

namespace Cert.Val.Alg

open Idealize.ShloMosaic
open scoped BigOperators

def IsReal (x : EReal) : Prop := ∃ r : ℝ, x = (r : EReal)

theorem isReal_of_ne {x : EReal} (ht : x ≠ ⊤) (hb : x ≠ ⊥) : IsReal x := ⟨x.toReal, (EReal.coe_toReal ht hb).symm⟩

@[simp] theorem isReal_coe (r : ℝ) : IsReal (r : EReal) := ⟨r, rfl⟩
@[simp] theorem isReal_zero : IsReal (0 : EReal) := ⟨0, rfl⟩
@[simp] theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := Finset.sum_induction f IsReal (fun _ _ => IsReal.add) isReal_zero h

theorem isReal_sum_univ {ι : Type*} [Fintype ι] (f : ι → EReal) (h : ∀ i, IsReal (f i)) :
    IsReal (∑ i, f i) := isReal_sum _ f fun i _ => h i

theorem div_coe_coe {r : ℝ} (hr : r ≠ 0) (a : ℝ) :
    Ideal.div (a : EReal) (r : EReal) = ((a * (1 / r) : ℝ) : EReal) := by
  rw [Ideal.div_coe hr, EReal.coe_mul]

theorem IsReal.div_coe {x : EReal} (hx : IsReal x) {r : ℝ} (hr : r ≠ 0) :
    IsReal (Ideal.div x (r : EReal)) := by
  obtain ⟨a, rfl⟩ := hx; exact ⟨_, div_coe_coe hr a⟩

theorem rsqrt_coe_pos {r : ℝ} (hr : 0 < r) :
    Ideal.rsqrt (r : EReal) = (((Real.sqrt r)⁻¹ : ℝ) : EReal) := by
  rw [Ideal.rsqrt_coe, if_neg (not_lt.2 hr.le), if_neg hr.ne']

theorem real_var {n : ℕ} (hn : 0 < n) (r : Fin n → ℝ) :
    (∑ i, r i * r i) * (1 / (n : ℝ)) - ((∑ i, r i) * (1 / (n : ℝ))) * ((∑ i, r i) * (1 / (n : ℝ)))
      = (∑ i, (r i - (∑ j, r j) * (1 / (n : ℝ))) * (r i - (∑ j, r j) * (1 / (n : ℝ))))
          * (1 / (n : ℝ)) := by
  have hn' : (n : ℝ) ≠ 0 := Nat.cast_ne_zero.2 hn.ne'
  set S := ∑ j, r j with hS
  set μ := S * (1 / (n : ℝ)) with hμ
  have h1 : ∀ i, (r i - μ) * (r i - μ) = r i * r i - (2 * μ) * r i + μ * μ := by intro i; ring
  simp only [h1, Finset.sum_add_distrib, Finset.sum_sub_distrib, ← Finset.mul_sum,
    Finset.sum_const, Finset.card_univ, Fintype.card_fin, nsmul_eq_mul, ← hS]
  rw [hμ]
  field_simp
  ring

theorem var_identity {n : ℕ} (hn : 0 < n) (y : Fin n → EReal) (hy : ∀ i, IsReal (y i)) :
    Ideal.div (∑ i, y i * y i) ((n : ℝ) : EReal)
        - Ideal.div (∑ i, y i) ((n : ℝ) : EReal) * Ideal.div (∑ i, y i) ((n : ℝ) : EReal)
      = Ideal.div (∑ i, (y i - Ideal.div (∑ j, y j) ((n : ℝ) : EReal))
          * (y i - Ideal.div (∑ j, y j) ((n : ℝ) : EReal))) ((n : ℝ) : EReal) := by
  have hn' : (n : ℝ) ≠ 0 := Nat.cast_ne_zero.2 hn.ne'
  obtain ⟨r, hr⟩ := Classical.axiomOfChoice hy
  simp only [hr, ← EReal.coe_mul, ← coe_sum, div_coe_coe hn', ← EReal.coe_sub]
  rw [real_var hn r]

theorem nonneg_add_pos {x : EReal} (hx : ∃ v : ℝ, 0 ≤ v ∧ x = (v : EReal)) {ε : ℝ} (hε : 0 < ε) :
    ∃ w : ℝ, 0 < w ∧ x + (ε : EReal) = (w : EReal) := by
  obtain ⟨v, hv, rfl⟩ := hx
  exact ⟨v + ε, by linarith, (EReal.coe_add v ε).symm⟩

theorem rsqrt_pos_real {x : EReal} (hx : ∃ w : ℝ, 0 < w ∧ x = (w : EReal)) :
    ∃ u : ℝ, 0 < u ∧ Ideal.rsqrt x = (u : EReal) := by
  obtain ⟨w, hw, rfl⟩ := hx
  exact ⟨(Real.sqrt w)⁻¹, inv_pos.2 (Real.sqrt_pos.2 hw), rsqrt_coe_pos hw⟩

theorem sum_fin_50000 {M : Type*} [AddCommMonoid M] (f : Fin 50000 → M) :
    ∑ i, f i = ∑ t : Fin 10, ∑ r : Fin 5000, f ⟨t.val * 5000 + r.val, by omega⟩ := by
  rw [← (finProdFinEquiv (m := 10) (n := 5000)).sum_comp, Fintype.sum_prod_type]
  refine Finset.sum_congr rfl fun t _ => Finset.sum_congr rfl fun r _ => congrArg f (Fin.ext ?_)
  rw [finProdFinEquiv_apply_val, Nat.mul_comm, Nat.add_comm]

theorem indicator_mul (p : Prop) [Decidable p] (x : EReal) :
    (if p then (1 : EReal) else 0) * x = if p then x else 0 := by
  split
  · exact one_mul x
  · exact zero_mul x

theorem ofBits_zero : Ideal.ofBits .f32 0x00000000#32 = (0 : EReal) := by
  simp [Ideal.ofBits, Ideal.ieee]

theorem ofBits_one : Ideal.ofBits .f32 0x3F800000#32 = (1 : EReal) := by
  simp [Ideal.ofBits, Ideal.ieee, -EReal.coe_mul]; norm_num

theorem ofBits_50000 : Ideal.ofBits .f32 0x47435000#32 = (((50000 : ℕ) : ℝ) : EReal) := by
  simp [Ideal.ofBits, Ideal.ieee, -EReal.coe_mul]; norm_num

theorem ofBits_eps : ∃ e : ℝ, 0 < e ∧ Ideal.ofBits .f32 0x3727C5AC#32 = (e : EReal) :=
  ⟨10995116 * (2 : ℝ) ^ (-40 : ℤ), by positivity, by simp [Ideal.ofBits, Ideal.ieee, -EReal.coe_mul]⟩

end Cert.Val.Alg
-- ==== Proof.Val.HostIdx.lean ====
import proofs.«421377_j77326591197791_1_alg».proof.Proof.Val.HostK
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.SL.Sem
open Idealize.ShloMosaic.ValueIdx

variable {F : FTy → Type} [FloatOps F]

theorem rowOf_apply (b : (⟨S128, .f32⟩ : BufTy).Contents (Elt F)) (k : Fin 128) :
    rowOf b (ix2 (0 : Fin 1) k) = b (ix1 k) := by
  unfold rowOf
  exact shapeCast_apply b shapeCasts_S128_S1x128 (ix2 (0 : Fin 1) k) (ix1 k)
    (by rewrite [Shape.rowMajor_val_two, Shape.rowMajor_val_one]; show k.val = 0 * 128 + k.val; omega)

theorem nodesRow_apply (i : S1x128.Idx) :
    (nodesRow : (⟨S1x128, .f32⟩ : BufTy).Contents (Elt F)) i = FloatOps.ofBits .f32 0x47435000#32 := by
  unfold nodesRow
  exact (broadcastInDim_apply _ bcast_S_S1x128 _ i (fun a => a.elim0) (fun a => a.elim0)).trans rfl

theorem meanOf_apply (s : (⟨S1x128, .f32⟩ : BufTy).Contents (Elt F)) (i : S1x128.Idx) :
    meanOf s i = FloatOps.hostDivf (s i) (FloatOps.ofBits .f32 0x47435000#32) := by
  show FloatOps.hostDivf (s i) ((nodesRow : (⟨S1x128, .f32⟩ : BufTy).Contents (Elt F)) i) = _
  rw [nodesRow_apply]

theorem varOf_apply (s q : (⟨S1x128, .f32⟩ : BufTy).Contents (Elt F)) (i : S1x128.Idx) :
    varOf s q i = FloatOps.subf (FloatOps.hostDivf (q i) (FloatOps.ofBits .f32 0x47435000#32))
      (FloatOps.mulf (FloatOps.hostDivf (s i) (FloatOps.ofBits .f32 0x47435000#32))
        (FloatOps.hostDivf (s i) (FloatOps.ofBits .f32 0x47435000#32))) := by
  show FloatOps.subf (FloatOps.hostDivf (q i) ((nodesRow : (⟨S1x128, .f32⟩ : BufTy).Contents (Elt F)) i))
    (FloatOps.mulf (meanOf s i) (meanOf s i)) = _
  rw [nodesRow_apply, meanOf_apply]

end Cert.KernelIdeal.Gen

end
-- ==== Proof.LibRows.lean ====
import Idealize.ShloMosaic.PureOps.Ideal
import Idealize.ShloMosaic.Lib.ValueIdx
import Idealize.ShloMosaic.Lib.ValueIdxRank1

noncomputable section

open scoped BigOperators

namespace Cert.LibRows

open Idealize.ShloMosaic Idealize.ShloMosaic.ValueIdx

/-- An update entry lands at `r` exactly when, on every operand axis, window start plus window coordinate is `r`'s coordinate. -/
theorem resultIdx?_eq_some_iff {s si u : Shape} {w : Nat} (d : ScatterDims s si u) (j : u.Idx) (idx : IVec si w) (r : s.Idx) :
    d.resultIdx? j idx = some r ↔ ∀ a, d.start j idx a + (d.window j a : Int) = ((r a).val : Int) := by
  unfold ScatterDims.resultIdx?
  split
  · rename_i h
    rw [Option.some.injEq, funext_iff]
    refine forall_congr' fun a => ?_
    rw [Fin.ext_iff]
    have := h a
    show (d.start j idx a + (d.window j a : Int)).toNat = (r a).val ↔ _
    omega
  · rename_i h
    refine ⟨fun e => (nomatch e), fun e => absurd (fun a => ?_) h⟩
    have := (r a).isLt
    have := e a
    omega

section RowScatter

/-- The dimension numbers of a scatter of the rows of an `[e, c]` update into an `[n, c]` operand, one row index per update row. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

variable {n e c w : Nat} (wf : ScatterDims.WF ⟨2, ![n, c]⟩ ⟨2, ![e, 1]⟩ ⟨2, ![e, c]⟩ [1] [0] [0] 1)

/-- On the row axis the window of update entry `(p, q)` starts at row `p`'s index word, read signed. -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (List.mem_singleton.mpr rfl)]
  exact congrArg (fun k => (idx k).toInt) (funext fun b => Fin.ext (by match b with | ⟨0, _⟩ => rfl | ⟨1, _⟩ => rfl))

/-- On the column axis the window starts at 0. -/
theorem rowScatter_start_col (idx : IVec ⟨2, ![e, 1]⟩ w) (p : Fin e) (q : Fin c) :
    (rowScatterDims n e c wf).start (ix2 p q) idx 1 = 0 := rfl

/-- The row axis is inserted: the window coordinate on it is 0. -/
theorem rowScatter_window_row (p : Fin e) (q : Fin c) : (rowScatterDims n e c wf).window (ix2 p q) 0 = 0 := rfl

/-- The window coordinate on the column axis is the update entry's column. -/
theorem rowScatter_window_col (p : Fin e) (q : Fin c) : (rowScatterDims n e c wf).window (ix2 p q) 1 = q.val := rfl

/-- Update entry `(p, q)` lands at `(r, q')` exactly when row `p`'s index word is `r` and the columns agree. -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  rw [resultIdx?_eq_some_iff, Fin.forall_fin_two, rowScatter_start_row, rowScatter_start_col, rowScatter_window_row,
    rowScatter_window_col, Fin.ext_iff]
  show (_ + ((0 : Nat) : Int) = (r.val : Int) ∧ (0 : Int) + (q.val : Int) = (q'.val : Int)) ↔ _
  omega

/-- A row scatter-add read at `(r, q)`: the operand there plus column `q` of every update row whose index word is `r`. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

section VecScatter

/-- A sum over a rank-1 shape's indices is the sum over its coordinate range. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a scatter of an `[e]` update into an `[n]` operand, one index per update entry. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update entry `p` starts at its index word, read signed. -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (List.mem_singleton.mpr rfl)]
  exact congrArg (fun k => (idx k).toInt) (funext fun b => Fin.ext (by match b with | ⟨0, _⟩ => rfl | ⟨1, _⟩ => rfl))

/-- Update entry `p` lands at `r` exactly when its index word is `r`. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  rw [resultIdx?_eq_some_iff, Fin.forall_fin_one, rowScatter1_start]
  show _ + ((0 : Nat) : Int) = (r.val : Int) ↔ _
  omega

/-- A scatter-add into a vector read at `r`: the operand there plus every update entry whose index word is `r`. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.Val.RefLayer.lean ====
import proofs.«421377_j77326591197791_1_alg».proof.Proof.RefRead
import proofs.«421377_j77326591197791_1_alg».proof.Proof.LibRows
import proofs.«421377_j77326591197791_1_alg».proof.Proof.Val.Alg

noncomputable section

open scoped BigOperators

namespace Cert.ReferenceIdeal.RefLayer

open Cert.ReferenceIdeal Cert.ReferenceIdeal.Gen Cert.ReferenceIdeal.ReadP Idealize.ShloMosaic Idealize.ShloMosaic.ValueIdx

def colMean (A : S50000x128.Idx → EReal) (b : S128.Idx → EReal) (k : Fin 128) : EReal :=
  Ideal.div (0 + ∑ i' : Fin 50000, (A (ix2 i' k) + b (ix1 k))) (Ideal.ofBits .f32 0x47435000#32)

def colVar (A : S50000x128.Idx → EReal) (b : S128.Idx → EReal) (k : Fin 128) : EReal :=
  Ideal.div (0 + ∑ i' : Fin 50000, ((A (ix2 i' k) + b (ix1 k)) - colMean A b k) * ((A (ix2 i' k) + b (ix1 k)) - colMean A b k))
    (Ideal.ofBits .f32 0x47435000#32)

def normRelu (A : S50000x128.Idx → EReal) (b g be : S128.Idx → EReal) (i : Fin 50000) (k : Fin 128) : EReal :=
  max ((((A (ix2 i k) + b (ix1 k)) - colMean A b k) * Ideal.rsqrt (colVar A b k + Ideal.ofBits .f32 0x3727C5AC#32)) * g (ix1 k)
    + be (ix1 k)) 0

section Generic
variable {F : FTy → Type} [FloatOps F]

def rowsOf (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

def splatRow (w : BitVec 32) : (⟨S128, .f32⟩ : BufTy).Contents (Elt F) :=
  broadcastInDim S128 ![] bcast_S_S128 (constant S_ .f32 w)

def zeroMat : (⟨S50000x128, .f32⟩ : BufTy).Contents (Elt F) :=
  broadcastInDim S50000x128 ![] bcast_S_S50000x128 (constant S_ .f32 0x00000000#32)

def colMeanOf (Y : (⟨S50000x128, .f32⟩ : BufTy).Contents (Elt F)) : (⟨S128, .f32⟩ : BufTy).Contents (Elt F) :=
  Host.divf (Host.reduceAdd Y (constant S_ .f32 0x00000000#32) reducesTo_S50000x128_S128_d0 h_S_) (splatRow 0x47435000#32)

def colVarOf (Y : (⟨S50000x128, .f32⟩ : BufTy).Contents (Elt F)) : (⟨S128, .f32⟩ : BufTy).Contents (Elt F) :=
  colMeanOf (mulf (subf Y (rowsOf (colMeanOf Y))) (subf Y (rowsOf (colMeanOf Y))))

def normOf (Y : (⟨S50000x128, .f32⟩ : BufTy).Contents (Elt F)) (g be : (⟨S128, .f32⟩ : BufTy).Contents (Elt F)) :
    (⟨S50000x128, .f32⟩ : BufTy).Contents (Elt F) :=
  maximumf (addf (mulf (mulf (subf Y (rowsOf (colMeanOf Y))) (rowsOf (Host.rsqrt (addf (colVarOf Y) (splatRow 0x3727C5AC#32)))))
    (rowsOf g)) (rowsOf be)) zeroMat

def layerOf (A : (⟨S50000x128, .f32⟩ : BufTy).Contents (Elt F)) (b g be : (⟨S128, .f32⟩ : BufTy).Contents (Elt F)) :
    (⟨S50000x128, .f32⟩ : BufTy).Contents (Elt F) :=
  normOf (addf A (rowsOf b)) g be

theorem rowsOf_apply (v : (⟨S128, .f32⟩ : BufTy).Contents (Elt F)) (i : Fin 50000) (k : Fin 128) :
    rowsOf (F := F) v (ix2 i k) = v (ix1 k) :=
  (broadcastInDim_apply _ bcast_S1x128_S50000x128_0_1 _ (ix2 i k) (ix2 (0 : Fin 1) k) fun a => match a with | ⟨0, _⟩ => rfl | ⟨1, _⟩ => rfl).trans
    (broadcastInDim_apply _ bcast_S128_S1x128_1 v _ (ix1 k) fun a => match a with | ⟨0, _⟩ => rfl)

theorem splatRow_apply (w : BitVec 32) (j : S128.Idx) : splatRow (F := F) w j = FloatOps.ofBits .f32 w := by
  unfold splatRow
  exact broadcastInDim_apply _ bcast_S_S128 (constant S_ .f32 w) j (fun a => a.elim0) (fun a => a.elim0)

theorem zeroMat_apply (j : S50000x128.Idx) : zeroMat (F := F) j = FloatOps.ofBits .f32 0x00000000#32 := by
  unfold zeroMat
  exact broadcastInDim_apply _ bcast_S_S50000x128 (constant S_ .f32 0x00000000#32) j (fun a => a.elim0) (fun a => a.elim0)

end Generic

theorem hostRsqrt_apply (v : S128.Idx → EReal) (j : S128.Idx) :
    Host.rsqrt (F := Ideal) (φ := .f32) v j = Ideal.rsqrt (v j) := rfl

theorem colMeanOf_eq {F : FTy → Type} [FloatOps F] (Y : (⟨S50000x128, .f32⟩ : BufTy).Contents (Elt F)) (j : S128.Idx) :
    colMeanOf (F := F) Y j
      = FloatOps.hostDivf (Host.reduceAdd (F := F) (φ := .f32) Y (constant S_ .f32 0x00000000#32) reducesTo_S50000x128_S128_d0 h_S_ j)
          (splatRow (F := F) 0x47435000#32 j) := rfl

theorem colSum_lift (Y : S50000x128.Idx → EReal) (h : S50000x128.Reduces [0] S128) (k : Fin 128) :
    (∑ i' : Fin (S50000x128.size 0), Y (h.lift (ix1 k) i')) = ∑ i' : Fin 50000, Y (ix2 i' k) :=
  Finset.sum_congr rfl fun i' _ => congrArg Y (funext fun a => Fin.ext (by match a with | ⟨0, _⟩ => rfl | ⟨1, _⟩ => rfl))

theorem colMeanOf_apply (Y : S50000x128.Idx → EReal) (k : Fin 128) :
    colMeanOf (F := Ideal) Y (ix1 k) = Ideal.div (0 + ∑ i' : Fin 50000, Y (ix2 i' k)) (Ideal.ofBits .f32 0x47435000#32) := by
  rw [colMeanOf_eq, splatRow_apply]
  simp only [Host.reduceAdd, Ideal.hostReduceAdd_def, Ideal.hostDivf_def, Ideal.ofBits_def]
  rw [Ideal.hostReduceAdd_single reducesTo_S50000x128_S128_d0 (by decide)]
  rw [colSum_lift, ValueIdx.constant_apply, Ideal.ofBits_zero_f32]

theorem colVarOf_apply (Y : S50000x128.Idx → EReal) (k : Fin 128) :
    colVarOf (F := Ideal) Y (ix1 k)
      = Ideal.div (0 + ∑ i' : Fin 50000,
          (Y (ix2 i' k) - Ideal.div (0 + ∑ l : Fin 50000, Y (ix2 l k)) (Ideal.ofBits .f32 0x47435000#32))
            * (Y (ix2 i' k) - Ideal.div (0 + ∑ l : Fin 50000, Y (ix2 l k)) (Ideal.ofBits .f32 0x47435000#32)))
          (Ideal.ofBits .f32 0x47435000#32) := by
  unfold colVarOf
  rw [colMeanOf_apply]
  refine congrArg (fun s => Ideal.div (0 + s) (Ideal.ofBits .f32 0x47435000#32)) (Finset.sum_congr rfl fun i' _ => ?_)
  rw [ValueIdx.mulf_apply, ValueIdx.subf_apply, rowsOf_apply, colMeanOf_apply]

theorem layerOf_apply (A : S50000x128.Idx → EReal) (b g be : S128.Idx → EReal) (i : Fin 50000) (k : Fin 128) :
    layerOf (F := Ideal) A b g be (ix2 i k) = normRelu A b g be i k := by
  unfold layerOf normOf
  simp only [ValueIdx.maximumf_apply, ValueIdx.addf_apply, ValueIdx.mulf_apply, ValueIdx.subf_apply, rowsOf_apply, zeroMat_apply,
    hostRsqrt_apply, splatRow_apply, colVarOf_apply, colMeanOf_apply, Ideal.ofBits_def, Ideal.ofBits_zero_f32]
  rfl

section Ideal
variable (x0 : (⟨S50000x128, .f32⟩ : BufTy).Contents (Elt Ideal)) (x1 : (⟨S2x600000, .i32⟩ : BufTy).Contents (Elt Ideal))
  (x2 : (⟨S50000, .i32⟩ : BufTy).Contents (Elt Ideal))
  (x3 : (⟨S128x128, .f32⟩ : BufTy).Contents (Elt Ideal)) (x4 x5 x6 : (⟨S128, .f32⟩ : BufTy).Contents (Elt Ideal))
  (x7 : (⟨S128x128, .f32⟩ : BufTy).Contents (Elt Ideal)) (x8 x9 x10 : (⟨S128, .f32⟩ : BufTy).Contents (Elt Ideal))
  (x11 : (⟨S128x128, .f32⟩ : BufTy).Contents (Elt Ideal)) (x12 x13 x14 : (⟨S128, .f32⟩ : BufTy).Contents (Elt Ideal))
  (x15 : (⟨S128x8, .f32⟩ : BufTy).Contents (Elt Ideal)) (x16 : (⟨S8, .f32⟩ : BufTy).Contents (Elt Ideal))

theorem ref_layer1 (i : Fin 50000) (k : Fin 128) :
    val_main_v71 x0 x1 x3 x4 x5 x6 (ix2 i k) = normRelu (val_main_v42 x0 x1 x3) x4 x5 x6 i k :=
  layerOf_apply (val_main_v42 x0 x1 x3) x4 x5 x6 i k
theorem ref_layer2 (i : Fin 50000) (k : Fin 128) :
    val_main_v115 x0 x1 x3 x4 x5 x6 x7 x8 x9 x10 (ix2 i k)
      = normRelu (val_main_v86 x0 x1 x3 x4 x5 x6 x7) x8 x9 x10 i k :=
  layerOf_apply (val_main_v86 x0 x1 x3 x4 x5 x6 x7) x8 x9 x10 i k
theorem ref_layer3 (i : Fin 50000) (k : Fin 128) :
    val_main_v159 x0 x1 x3 x4 x5 x6 x7 x8 x9 x10 x11 x12 x13 x14 (ix2 i k)
      = normRelu (val_main_v130 x0 x1 x3 x4 x5 x6 x7 x8 x9 x10 x11) x12 x13 x14 i k :=
  layerOf_apply (val_main_v130 x0 x1 x3 x4 x5 x6 x7 x8 x9 x10 x11) x12 x13 x14 i k

theorem ref_matmul1 (i : Fin 50000) (k : Fin 128) :
    val_main_v28 x0 x3 (ix2 i k) = ∑ j : Fin 128, x0 (ix2 i j) * x3 (ix2 j k) := by
  rw [val_main_v28_apply]
  refine Finset.sum_congr rfl fun j _ => ?_
  congr 2 <;> exact funext fun a => Fin.ext (by match a with | ⟨0, _⟩ => rfl | ⟨1, _⟩ => rfl)
theorem ref_pool_sum (g : Fin 64) (d : Fin 128) :
    val_main_v162 x0 x1 x2 x3 x4 x5 x6 x7 x8 x9 x10 x11 x12 x13 x14 (ix2 g d)
      = 0 + ∑ n : Fin 50000, if BitVec.toInt (x2 (ix1 n)) = (g.val : Int)
          then val_main_v159 x0 x1 x3 x4 x5 x6 x7 x8 x9 x10 x11 x12 x13 x14 (ix2 n d) else 0 := by
  unfold val_main_v162
  refine (Cert.LibRows.rowScatterAdd_apply (n := 64) (e := 50000) (c := 128) (w := 32)
    scatter_S64x128_S50000x1_S50000x128_1_0_0_1.wf (val_main_v160 (F := Ideal)) (val_main_v161 x2)
    (val_main_v159 x0 x1 x3 x4 x5 x6 x7 x8 x9 x10 x11 x12 x13 x14) g d).trans ?_
  rw [val_main_v160_apply, val_main_cst_31_apply]
  refine congrArg₂ (· + ·) Ideal.ofBits_zero_f32 (Finset.sum_congr rfl fun n _ => ?_)
  have e : idx_main_v161 (ix2 n (0 : Fin 1)) = ix1 n := funext fun a => Fin.ext (by match a with | ⟨0, _⟩ => rfl)
  rw [val_main_v161_apply, e]

theorem ref_pool_count (g : Fin 64) :
    val_main_v166 x2 (ix1 g)
      = 0 + ∑ n : Fin 50000, if BitVec.toInt (x2 (ix1 n)) = (g.val : Int) then (1 : EReal) else 0 := by
  unfold val_main_v166
  refine (Cert.LibRows.rowScatterAdd1_apply (n := 64) (e := 50000) (w := 32)
    scatter_S64_S50000x1_S50000_n_0_0_1.wf (val_main_v164 (F := Ideal)) (val_main_v165 x2)
    (val_main_v163 (F := Ideal)) g).trans ?_
  rw [val_main_v164_apply, val_main_cst_33_apply]
  refine congrArg₂ (· + ·) Ideal.ofBits_zero_f32 (Finset.sum_congr rfl fun n _ => ?_)
  have e : idx_main_v165 (ix2 n (0 : Fin 1)) = ix1 n := funext fun a => Fin.ext (by match a with | ⟨0, _⟩ => rfl)
  rw [val_main_v165_apply, e, val_main_v163_apply, val_main_cst_32_apply]
  exact congrArg (fun z => if BitVec.toInt (x2 (ix1 n)) = (g.val : Int) then z else 0) Cert.Val.Alg.ofBits_one

theorem ref_pool (g : Fin 64) (o : Fin 8) :
    val_main_v175 x0 x1 x2 x3 x4 x5 x6 x7 x8 x9 x10 x11 x12 x13 x14 x15 x16 (ix2 g o)
      = (∑ d : Fin 128,
          Ideal.div (0 + ∑ n : Fin 50000, if BitVec.toInt (x2 (ix1 n)) = (g.val : Int)
              then val_main_v159 x0 x1 x3 x4 x5 x6 x7 x8 x9 x10 x11 x12 x13 x14 (ix2 n d) else 0)
            (max (0 + ∑ n : Fin 50000, if BitVec.toInt (x2 (ix1 n)) = (g.val : Int) then (1 : EReal) else 0) 1)
          * x15 (ix2 d o)) + x16 (ix1 o) := by
  have eo : idx_main_v173 (idx_main_v174 (ix2 g o)) = ix1 o := funext fun a => Fin.ext (by match a with | ⟨0, _⟩ => rfl)
  rw [val_main_v175_apply, val_main_v172_apply, val_main_v174_apply, val_main_v173_apply, eo]
  refine congrArg (fun s => s + x16 (ix1 o)) (Finset.sum_congr rfl fun d _ => ?_)
  have el : lidx_main_v172 (ix2 g o) d = ix2 g d := funext fun a => Fin.ext (by match a with | ⟨0, _⟩ => rfl | ⟨1, _⟩ => rfl)
  have er : ridx_main_v172 (ix2 g o) d = ix2 d o := funext fun a => Fin.ext (by match a with | ⟨0, _⟩ => rfl | ⟨1, _⟩ => rfl)
  have ec : idx_main_v169 (idx_main_v170 (ix2 g d)) = ix1 g := funext fun a => Fin.ext (by match a with | ⟨0, _⟩ => rfl)
  rw [el, er, val_main_v171_apply, ref_pool_sum, val_main_v170_apply, val_main_v169_apply, ec, val_main_v168_apply, ref_pool_count,
    val_main_v167_apply, val_main_cst_34_apply]
  simp only [Ideal.hostDivf_def, Ideal.maximumf_def, Ideal.ofBits_def, Cert.Val.Alg.ofBits_one]

end Ideal

end Cert.ReferenceIdeal.RefLayer

end
-- ==== Proof.Val.LayerAlg.lean ====
import proofs.«421377_j77326591197791_1_alg».proof.Proof.Val.Alg
import proofs.«421377_j77326591197791_1_alg».proof.Proof.Val.HostIdx
import proofs.«421377_j77326591197791_1_alg».proof.Proof.Val.RefLayer

namespace Cert.KernelIdeal.Gen

open Idealize.ShloMosaic Idealize.ShloMosaic.TcCoe Idealize.ShloMosaic.ValueIdx Cert.Val.Alg Cert.ReferenceIdeal.RefLayer
open scoped BigOperators
/-- An array whose entries are the row-by-column sums of `X` and `W` is the reference's matrix product. -/
theorem matmul_eq {o xa X : S50000x128.Idx → EReal} {wa W : S128x128.Idx → EReal}
    (hm : ∀ (i : Fin 50000) (k : Fin 128), o (ix2 i k) = ∑ j : Fin 128, xa (ix2 i j) * wa (ix2 j k)) (hx : xa = X) (hw : wa = W) :
    o = Cert.ReferenceIdeal.ReadP.val_main_v28 (F := Ideal) X W := by
  subst hx hw
  funext j
  obtain ⟨i, k, rfl⟩ : ∃ (i : Fin 50000) (k : Fin 128), j = ix2 i k := ⟨j 0, j 1, eq_ix2 j⟩
  exact (hm i k).trans (ref_matmul1 _ _ i k).symm

/-- The layer's tail: normalising with the column sum and sum of squares of `A + b` is the reference's `normRelu A b g be`. -/
theorem layer_eq {o ref in0 rows A : S50000x128.Idx → EReal} {in1 in2 in3 in4 in5 bias s q : S1x128.Idx → EReal} {b g be : S128.Idx → EReal}
    (ho : ∀ (i : Fin 50000) (k : Fin 128), o (ix2 i k)
      = max ((((in0 (ix2 i k) + in1 (ix2 0 k)) - in4 (ix2 0 k)) * Ideal.rsqrt (in5 (ix2 0 k) + Ideal.ofBits .f32 0x3727C5AC#32))
          * in2 (ix2 0 k) + in3 (ix2 0 k)) 0)
    (e0 : in0 = A) (e1 : in1 = rowOf (F := Ideal) b) (e2 : in2 = rowOf (F := Ideal) g) (e3 : in3 = rowOf (F := Ideal) be)
    (e4 : in4 = meanOf (F := Ideal) s) (e5 : in5 = varOf (F := Ideal) s q) (hr : rows = A) (hb : bias = rowOf (F := Ideal) b)
    (hs : ∀ k : Fin 128, s (ix2 (0 : Fin 1) k) = ∑ i : Fin 50000, (rows (ix2 i k) + bias (ix2 (0 : Fin 1) k)))
    (hq : ∀ k : Fin 128, q (ix2 (0 : Fin 1) k)
      = ∑ i : Fin 50000, (rows (ix2 i k) + bias (ix2 (0 : Fin 1) k)) * (rows (ix2 i k) + bias (ix2 (0 : Fin 1) k)))
    (hy : ∀ j, IsReal (Idealize.ShloMosaic.addf (F := Ideal) (s := S50000x128) (φ := .f32) A (rowsOf (F := Ideal) b) j))
    (href : ∀ (i : Fin 50000) (k : Fin 128), ref (ix2 i k) = normRelu A b g be i k) : o = ref := by
  subst e1 e2 e3 e4 e5 hb
  rw [e0] at ho
  rw [hr] at hs hq
  funext j
  obtain ⟨i, k, rfl⟩ : ∃ (i : Fin 50000) (k : Fin 128), j = ix2 i k := ⟨j 0, j 1, eq_ix2 j⟩
  rw [ho, href, rowOf_apply, rowOf_apply, rowOf_apply, meanOf_apply, varOf_apply, hs, hq, rowOf_apply]
  unfold normRelu colVar colMean
  simp only [zero_add, Ideal.hostDivf_def, Ideal.subf_def, Ideal.mulf_def, Ideal.ofBits_def]
  rw [ofBits_50000, var_identity (by norm_num) (fun i' => A (ix2 i' k) + b (ix1 k)) fun i' => by
    have h := hy (ix2 i' k)
    rwa [addf_apply, rowsOf_apply] at h]

end Cert.KernelIdeal.Gen
-- ==== Proof.Val.FinOps.lean ====
import proofs.«421377_j77326591197791_1_alg».proof.Proof.Val.Alg
import Idealize.ShloMosaic.PureOps.Ideal
import Idealize.ShloMosaic.PureOps.Ideal.Laws
import Idealize.ShloMosaic.Lib.ValueIdx

namespace Cert.Val.FinOps

open Idealize.ShloMosaic Cert.Val.Alg
open scoped BigOperators

def AllReal {S : Shape} (f : S.Idx → EReal) : Prop := ∀ i, IsReal (f i)

def NonnegReal {S : Shape} (f : S.Idx → EReal) : Prop := ∀ i, ∃ r : ℝ, 0 ≤ r ∧ f i = (r : EReal)

def PosReal {S : Shape} (f : S.Idx → EReal) : Prop := ∀ i, ∃ r : ℝ, 0 < r ∧ f i = (r : EReal)

variable {S T : Shape} {φ : FTy}

theorem PosReal.allReal {f : S.Idx → EReal} (h : PosReal f) : AllReal f :=
  fun i => let ⟨r, _, hr⟩ := h i; ⟨r, hr⟩

theorem nonneg_add {x y : EReal} (hx : ∃ r : ℝ, 0 ≤ r ∧ x = (r : EReal))
    (hy : ∃ r : ℝ, 0 ≤ r ∧ y = (r : EReal)) : ∃ r : ℝ, 0 ≤ r ∧ x + y = (r : EReal) := by
  obtain ⟨u, hu, rfl⟩ := hx; obtain ⟨v, hv, rfl⟩ := hy
  exact ⟨u + v, add_nonneg hu hv, (EReal.coe_add u v).symm⟩

theorem nonneg_sum {ι : Type*} (s : Finset ι) (f : ι → EReal)
    (h : ∀ i ∈ s, ∃ r : ℝ, 0 ≤ r ∧ f i = (r : EReal)) :
    ∃ r : ℝ, 0 ≤ r ∧ ∑ i ∈ s, f i = (r : EReal) :=
  Finset.sum_induction f (fun v => ∃ r : ℝ, 0 ≤ r ∧ v = (r : EReal)) (fun _ _ => nonneg_add) ⟨0, le_refl _, rfl⟩ h

theorem nonneg_mul_self {x : EReal} (hx : IsReal x) : ∃ r : ℝ, 0 ≤ r ∧ x * x = (r : EReal) := by
  obtain ⟨u, rfl⟩ := hx
  exact ⟨u * u, mul_self_nonneg u, (EReal.coe_mul u u).symm⟩

theorem nonneg_div_pos {x y : EReal} (hx : ∃ r : ℝ, 0 ≤ r ∧ x = (r : EReal))
    (hy : ∃ r : ℝ, 0 < r ∧ y = (r : EReal)) : ∃ r : ℝ, 0 ≤ r ∧ Ideal.div x y = (r : EReal) := by
  obtain ⟨u, hu, rfl⟩ := hx; obtain ⟨v, hv, rfl⟩ := hy
  exact ⟨u * (1 / v), mul_nonneg hu (by positivity), div_coe_coe hv.ne' u⟩

theorem coe_max (u v : ℝ) : max (u : EReal) (v : EReal) = ((max u v : ℝ) : EReal) :=
  (EReal.coe_strictMono.monotone.map_max).symm

theorem pos_max_right {x y : EReal} (hx : IsReal x) (hy : ∃ r : ℝ, 0 < r ∧ y = (r : EReal)) :
    ∃ r : ℝ, 0 < r ∧ max x y = (r : EReal) := by
  obtain ⟨u, rfl⟩ := hx; obtain ⟨v, hv, rfl⟩ := hy
  exact ⟨max u v, lt_max_of_lt_right hv, coe_max u v⟩

theorem allReal_addf {x y : FVec Ideal S φ} (hx : AllReal x) (hy : AllReal y) : AllReal (addf x y) :=
  fun i => (hx i).add (hy i)

theorem allReal_subf {x y : FVec Ideal S φ} (hx : AllReal x) (hy : AllReal y) : AllReal (subf x y) :=
  fun i => (hx i).sub (hy i)

theorem allReal_mulf {x y : FVec Ideal S φ} (hx : AllReal x) (hy : AllReal y) : AllReal (mulf x y) :=
  fun i => (hx i).mul (hy i)

theorem allReal_maximumf {x y : FVec Ideal S φ} (hx : AllReal x) (hy : AllReal y) :
    AllReal (maximumf x y) :=
  fun i => (hx i).max (hy i)

theorem nonnegReal_mulf_self {x : FVec Ideal S φ} (hx : AllReal x) : NonnegReal (mulf x x) :=
  fun i => nonneg_mul_self (hx i)

theorem posReal_addf {x y : FVec Ideal S φ} (hx : NonnegReal x) (hy : PosReal y) :
    PosReal (addf x y) := fun i => by
  obtain ⟨e, he, hye⟩ := hy i
  show ∃ r : ℝ, 0 < r ∧ x i + y i = (r : EReal)
  rw [hye]; exact nonneg_add_pos (hx i) he

theorem posReal_maximumf_right {x y : FVec Ideal S φ} (hx : AllReal x) (hy : PosReal y) :
    PosReal (maximumf x y) :=
  fun i => pos_max_right (hx i) (hy i)

theorem allReal_constant_zero : AllReal (constant (F := Ideal) S .f32 0x00000000#32) :=
  fun _ => ⟨0, ofBits_zero⟩

theorem nonnegReal_constant_zero : NonnegReal (constant (F := Ideal) S .f32 0x00000000#32) :=
  fun _ => ⟨0, le_refl _, ofBits_zero⟩

theorem posReal_constant_one : PosReal (constant (F := Ideal) S .f32 0x3F800000#32) :=
  fun _ => ⟨1, one_pos, ofBits_one⟩

theorem posReal_constant_50000 : PosReal (constant (F := Ideal) S .f32 0x47435000#32) :=
  fun _ => ⟨((50000 : ℕ) : ℝ), by norm_num, ofBits_50000⟩

theorem posReal_constant_eps : PosReal (constant (F := Ideal) S .f32 0x3727C5AC#32) :=
  fun _ => ofBits_eps

theorem allReal_broadcastInDim {s t : Shape} {dims : Fin s.rank → Fin t.rank}
    {h : s.BroadcastsInDim t dims} {x : s.Idx → EReal} (hx : AllReal x) :
    AllReal (broadcastInDim t dims h x) := fun _ => hx _

theorem posReal_broadcastInDim {s t : Shape} {dims : Fin s.rank → Fin t.rank}
    {h : s.BroadcastsInDim t dims} {x : s.Idx → EReal} (hx : PosReal x) :
    PosReal (broadcastInDim t dims h x) := fun _ => hx _

theorem allReal_gather {s si t : Shape} {w : ℕ} {d : GatherDims s si t} {x : s.Idx → EReal}
    {idx : IVec si w} (hx : AllReal x) : AllReal (Host.gather d x idx) := fun _ => hx _

theorem allReal_select {s : Shape} {c : IVec s 1} {x y : s.Idx → EReal} (hx : AllReal x)
    (hy : AllReal y) : AllReal (select c x y) := fun j => by
  show IsReal (if c j = 1 then x j else y j)
  split
  · exact hx j
  · exact hy j

theorem allReal_scatterAdd {s si u : Shape} {w : ℕ} {d : ScatterDims s si u} {x : FVec Ideal s φ}
    {idx : IVec si w} {upd : FVec Ideal u φ} (hx : AllReal x) (hu : AllReal upd) :
    AllReal (Host.scatterAdd d x idx upd) := fun i => by
  show IsReal (x i + ∑ j ∈ Finset.univ.filter (fun j => d.resultIdx? j idx = some i), upd j)
  exact (hx i).add (isReal_sum _ _ fun j _ => hu j)

theorem allReal_reduceAdd {s t u : Shape} {axes : List (Fin s.rank)} {x : FVec Ideal s φ}
    {init : u.Idx → Ideal φ} {h : s.ReducesTo axes t} {hu : 0 < u.numel} (hx : AllReal x)
    (hi : AllReal init) : AllReal (Host.reduceAdd x init h hu) := fun j => by
  show IsReal (init (Shape.Idx.first hu) + ∑ i ∈ Finset.univ.filter (fun i => h.drop i = j), x i)
  exact (hi _).add (isReal_sum _ _ fun i _ => hx i)

theorem nonnegReal_reduceAdd {s t u : Shape} {axes : List (Fin s.rank)} {x : FVec Ideal s φ}
    {init : u.Idx → Ideal φ} {h : s.ReducesTo axes t} {hu : 0 < u.numel} (hx : NonnegReal x)
    (hi : NonnegReal init) : NonnegReal (Host.reduceAdd x init h hu) := fun j => by
  show ∃ r : ℝ, 0 ≤ r ∧
    init (Shape.Idx.first hu) + ∑ i ∈ Finset.univ.filter (fun i => h.drop i = j), x i = (r : EReal)
  exact nonneg_add (hi _) (nonneg_sum _ _ fun i _ => hx i)

theorem allReal_dotGeneral {sl sr so : Shape} {φ₁ φ₂ : FTy} {d : DotDims sl sr so}
    {prec : Option ContractPrecision} {x : FVec Ideal sl φ₁} {y : FVec Ideal sr φ₂}
    (hx : AllReal x) (hy : AllReal y) : AllReal (Host.dotGeneral d prec x y) := fun j => by
  show IsReal (FloatOps.dotGeneral d prec .single x y j)
  rw [Ideal.dotGeneral_apply]
  exact isReal_sum_univ _ fun k => (hx _).mul (hy _)

theorem allReal_divf {x y : FVec Ideal S φ} (hx : AllReal x) (hy : PosReal y) :
    AllReal (Host.divf x y) := fun i => by
  obtain ⟨r, hr, hyr⟩ := hy i
  show IsReal (Ideal.div (x i) (y i))
  rw [hyr]; exact (hx i).div_coe hr.ne'

theorem nonnegReal_divf {x y : FVec Ideal S φ} (hx : NonnegReal x) (hy : PosReal y) :
    NonnegReal (Host.divf x y) := fun i => nonneg_div_pos (hx i) (hy i)

theorem posReal_rsqrt {x : FVec Ideal S φ} (hx : PosReal x) : PosReal (Host.rsqrt x) :=
  fun i => rsqrt_pos_real (hx i)

theorem allReal_rsqrt {x : FVec Ideal S φ} (hx : PosReal x) : AllReal (Host.rsqrt x) :=
  (posReal_rsqrt hx).allReal

end Cert.Val.FinOps
-- ==== Proof.Val.RefFin.lean ====
import proofs.«421377_j77326591197791_1_alg».proof.Proof.Val.FinOps
import proofs.«421377_j77326591197791_1_alg».proof.Proof.RefRead

namespace Cert.Val.RefFin

open Idealize.ShloMosaic Cert.Val.Alg Cert.Val.FinOps
open Cert.ReferenceIdeal Cert.ReferenceIdeal.Gen Cert.ReferenceIdeal.ReadP

set_option quotPrecheck false in
local notation "𝔽[" S "]" => ((⟨S, .f32⟩ : BufTy).Contents (Elt Ideal))
set_option quotPrecheck false in
local notation "𝕀[" S "]" => ((⟨S, .i32⟩ : BufTy).Contents (Elt Ideal))

variable (x0 : 𝔽[S50000x128]) (x1 : 𝕀[S2x600000]) (x3 : 𝔽[S128x128]) (x4 x5 x6 : 𝔽[S128])
  (x7 : 𝔽[S128x128]) (x8 x9 x10 : 𝔽[S128]) (x11 : 𝔽[S128x128]) (x12 : 𝔽[S128])

theorem real_v7 : AllReal (val_main_v7 x1) :=
  allReal_scatterAdd (allReal_broadcastInDim allReal_constant_zero) (allReal_broadcastInDim posReal_constant_one.allReal)

theorem real_v13 : AllReal (val_main_v13 x1) :=
  allReal_select (allReal_rsqrt (posReal_maximumf_right (real_v7 x1) (posReal_broadcastInDim posReal_constant_one)))
    (allReal_broadcastInDim allReal_constant_zero)

theorem real_v29 : AllReal (val_main_v29 x1) :=
  allReal_mulf (allReal_gather (real_v13 x1)) (allReal_gather (real_v13 x1))

variable (h0 : AllReal x0) (h3 : AllReal x3) (h4 : AllReal x4) (h5 : AllReal x5) (h6 : AllReal x6) (h7 : AllReal x7)
  (h8 : AllReal x8) (h9 : AllReal x9) (h10 : AllReal x10) (h11 : AllReal x11) (h12 : AllReal x12)
include h0 h3 h4

theorem real_v45 : AllReal (val_main_v45 x0 x1 x3 x4) :=
  allReal_addf
    (allReal_scatterAdd (allReal_broadcastInDim allReal_constant_zero)
      (allReal_mulf (allReal_broadcastInDim (allReal_broadcastInDim (real_v29 x1))) (allReal_gather (allReal_dotGeneral h0 h3))))
    (allReal_broadcastInDim (allReal_broadcastInDim h4))

theorem real_v48 : AllReal (val_main_v48 x0 x1 x3 x4) :=
  allReal_divf (allReal_reduceAdd (real_v45 x0 x1 x3 x4 h0 h3 h4) allReal_constant_zero) (posReal_broadcastInDim posReal_constant_50000)

theorem real_v51 : AllReal (val_main_v51 x0 x1 x3 x4) :=
  allReal_subf (real_v45 x0 x1 x3 x4 h0 h3 h4) (allReal_broadcastInDim (allReal_broadcastInDim (real_v48 x0 x1 x3 x4 h0 h3 h4)))

theorem pos_v61 : PosReal (val_main_v61 x0 x1 x3 x4) :=
  posReal_rsqrt (posReal_addf
    (nonnegReal_divf (nonnegReal_reduceAdd (nonnegReal_mulf_self (real_v51 x0 x1 x3 x4 h0 h3 h4)) nonnegReal_constant_zero)
      (posReal_broadcastInDim posReal_constant_50000))
    (posReal_broadcastInDim posReal_constant_eps))

include h5 h6

theorem real_v71 : AllReal (val_main_v71 x0 x1 x3 x4 x5 x6) :=
  allReal_maximumf
    (allReal_addf
      (allReal_mulf
        (allReal_mulf (real_v51 x0 x1 x3 x4 h0 h3 h4)
          (allReal_broadcastInDim (allReal_broadcastInDim (pos_v61 x0 x1 x3 x4 h0 h3 h4).allReal)))
        (allReal_broadcastInDim (allReal_broadcastInDim h5)))
      (allReal_broadcastInDim (allReal_broadcastInDim h6)))
    (allReal_broadcastInDim allReal_constant_zero)

include h7 h8

theorem real_v89 : AllReal (val_main_v89 x0 x1 x3 x4 x5 x6 x7 x8) :=
  real_v45 _ x1 x7 x8 (real_v71 x0 x1 x3 x4 x5 x6 h0 h3 h4 h5 h6) h7 h8

include h9 h10

theorem real_v115 : AllReal (val_main_v115 x0 x1 x3 x4 x5 x6 x7 x8 x9 x10) :=
  real_v71 _ x1 x7 x8 x9 x10 (real_v71 x0 x1 x3 x4 x5 x6 h0 h3 h4 h5 h6) h7 h8 h9 h10

include h11 h12

theorem real_v133 : AllReal (val_main_v133 x0 x1 x3 x4 x5 x6 x7 x8 x9 x10 x11 x12) :=
  real_v45 _ x1 x11 x12 (real_v115 x0 x1 x3 x4 x5 x6 x7 x8 x9 x10 h0 h3 h4 h5 h6 h7 h8 h9 h10) h11 h12

end Cert.Val.RefFin
-- ==== Proof.Val.Layer1.lean ====
import proofs.«421377_j77326591197791_1_alg».proof.Proof.KI.FrameDefs
import proofs.«421377_j77326591197791_1_alg».proof.Proof.Val.HostK
import proofs.«421377_j77326591197791_1_alg».proof.Proof.Val.Link0
import proofs.«421377_j77326591197791_1_alg».proof.Proof.Val.Mat0
import proofs.«421377_j77326591197791_1_alg».proof.Proof.Val.Stats1
import proofs.«421377_j77326591197791_1_alg».proof.Proof.Val.Nr2
import proofs.«421377_j77326591197791_1_alg».proof.Proof.Val.LayerAlg
import proofs.«421377_j77326591197791_1_alg».proof.Proof.Val.RefFin
import proofs.«421377_j77326591197791_1_alg».proof.Proof.Val.RefLayer
import proofs.«421377_j77326591197791_1_alg».proof.Proof.RefRead

set_option maxRecDepth 16384

noncomputable section

namespace Cert.KernelIdeal.Gen

open Idealize.ShloMosaic Idealize.ShloMosaic.TcCoe Idealize.SL.Sem Idealize.ShloMosaic.ValueIdx
open Cert.Val.Alg

variable (m : (ℓ : Loc nD τ sig) → Buf (Elt Ideal) ℓ)

theorem h1_eq (c : Dev nD) : o4 m c = Cert.ReferenceIdeal.ReadP.val_main_v28 (F := Ideal) (m ((c : Thread nD τ).loc main_arg0)) (m ((c : Thread nD τ).loc main_arg3)) :=
  matmul_eq (mat_final0 (T3 m) c) (V3_main_arg0 m c) (V3_main_arg3 m c)

theorem agg1_eq (c : Dev nD) :
    X5 m c main_v42 = Cert.ReferenceIdeal.ReadP.val_main_v42 (F := Ideal) (m ((c : Thread nD τ).loc main_arg0)) (m ((c : Thread nD τ).loc main_arg1)) (m ((c : Thread nD τ).loc main_arg3)) := by
  refine (hostOps1_main_v42 (X4 m c)).trans ?_
  rw [X4_main_v28 m c, X4_at m c, X4_main_v1 m c, X4_main_v3 m c, h1_eq m c]
  rfl

theorem cur1_eq (c : Dev nD) (h0 : ∀ i, IsReal (m ((c : Thread nD τ).loc main_arg0) i))
    (h3 : ∀ i, IsReal (m ((c : Thread nD τ).loc main_arg3) i)) (h4 : ∀ i, IsReal (m ((c : Thread nD τ).loc main_arg4) i)) :
    o8 m c = Cert.ReferenceIdeal.ReadP.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  layer_eq (nr_final2 (T7 m) c)
    ((X7_of m c main_v42 (by decide)).trans ((X6_of m c main_v42 (by decide)).trans (agg1_eq m c)))
    ((hostOps2_main_v51 (X6 m c)).trans (congrArg rowOf (X6_main_arg4 m c)))
    ((hostOps2_main_v52 (X6 m c)).trans (congrArg rowOf (X6_main_arg5 m c)))
    ((hostOps2_main_v53 (X6 m c)).trans (congrArg rowOf (X6_main_arg6 m c)))
    ((hostOps2_main_v46 (X6 m c)).trans (congrArg meanOf (X6_at_0 m c)))
    ((hostOps2_main_v50 (X6 m c)).trans (congrArg₂ varOf (X6_at_0 m c) (X6_at_1 m c)))
    (agg1_eq m c) ((hostOps1_main_v43 (X4 m c)).trans (congrArg rowOf (X4_main_arg4 m c)))
    (stats_final1_sum (T5 m) c) (stats_final1_sq (T5 m) c)
    (Cert.Val.RefFin.real_v45 (m ((c : Thread nD τ).loc main_arg0)) (m ((c : Thread nD τ).loc main_arg1)) (m ((c : Thread nD τ).loc main_arg3)) (m ((c : Thread nD τ).loc main_arg4)) h0 h3 h4)
    (Cert.ReferenceIdeal.RefLayer.ref_layer1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))

end Cert.KernelIdeal.Gen

end
-- ==== Proof.Val.Mat3.lean ====
import proofs.«421377_j77326591197791_1_alg».proof.Proof.KI.Reg3
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem pay_mat3 (x0 : FVec Ideal S5000x128 .f32) (x1 : FVec Ideal S128x128 .f32) (r : Fin 5000) (k : Fin 128) :
    k3_pay1 (F := Ideal) x0 x1 (ix2 r k) = ∑ j : Fin 128, x0 (ix2 r j) * x1 (ix2 j k) :=
  (congrFun (matmul_zero_eq_dotGeneral _ none _ x1) _).trans
    ((StackMember.dotGeneral_plain_apply none _ x1 r k).trans (by simp only [shapeCast_self]))

theorem hz_mat3 : (![0, 0] : Fin 2 → Nat) = fun _ => 0 := by decide

theorem idx_mat3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

abbrev xarr3 (c : Dev nD) : S50000x128.Idx → EReal := V c (Pipeline.arrRef spec3 0)
abbrev warr3 (c : Dev nD) : S128x128.Idx → EReal := V c (Pipeline.arrRef spec3 1)
abbrev oarr3 (c : Dev nD) : S50000x128.Idx → EReal := (dat3 (F := Ideal) V c).arrAt 2 cfg3.N

abbrev matG3 (c : Dev nD) : S50000x128.Idx → EReal :=
  fun i => ∑ j : Fin 128, xarr3 V c (ix2 (i 0) j) * warr3 V c (ix2 j (i 1))

theorem flushed_mat3 (c : Dev nD) (t : Fin cfg3.N) :
    (dat3 (F := Ideal) V c).flushed 2 t = ((cfg3.win 2).blk t).view.read (Elt Ideal) (matG3 V c) := by
  show (cfg3.win 2).cut (grid3.coords t) ((dat3 (F := Ideal) V c).after 2 t) = _
  rw [after3_2]
  unfold out3_2
  rw [View.canon_unit_zero hz_mat3]
  simp only [View.ld_unit_zero (S := S5000x128) hz_mat3, View.ld_unit_zero (S := S128x128) hz_mat3]
  obtain ⟨e0, e1, e2, e3, e4, e5⟩ := idx_mat3 t
  funext y
  obtain ⟨r, k, rfl⟩ : ∃ (r : Fin 5000) (k : Fin 128), y = ix2 r k := ⟨y 0, y 1, eq_ix2 y⟩
  show k3_pay1 (F := Ideal) (iblk3 V c 0 t) (iblk3 V c 1 t) _ = matG3 V c (((cfg3.win 2).blk t).view.emb _)
  refine (pay_mat3 _ _ r k).trans (Finset.sum_congr rfl fun j _ => congrArg₂ (· * ·) ?_ ?_)
  · refine congrArg (xarr3 V c) (Shape.idx_ext₂ ?_ ?_)
    · show win3_0.index t (0 : Fin 2) * 5000 + 1 * r.val = win3_2.index t (0 : Fin 2) * 5000 + 1 * r.val; rw [e0, e4]
    · show win3_0.index t (1 : Fin 2) * 128 + 1 * j.val = j.val; rw [e1]; omega
  · refine congrArg (warr3 V c) (Shape.idx_ext₂ ?_ ?_)
    · show win3_1.index t (0 : Fin 2) * 128 + 1 * j.val = j.val; rw [e2]; omega
    · show win3_1.index t (1 : Fin 2) * 128 + 1 * k.val = win3_2.index t (1 : Fin 2) * 128 + 1 * k.val; rw [e3, e5]

theorem cover_mat3 (i : S50000x128.Idx) :
    ∃ t : Fin cfg3.N, (cfg3.win 2).flush t = true ∧ i ∈ ((cfg3.win 2).blk t).view.set := by
  have hi0 := idx2_lt0 i
  have hi1 := idx2_lt1 i
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e4, e5⟩ := idx_mat3 t
  refine ⟨t, flush3_2 t, ?_⟩
  show i ∈ ((View.whole (Pipeline.arrRef spec3 2)).slice (win3_2.rect t)).set
  rw [View.set_slice_whole, Rect.mem_set_unit]
  refine Fin.forall_fin_two.mpr ⟨?_, ?_⟩
  · show win3_2.index t (0 : Fin 2) * 5000 ≤ (i 0).val ∧ (i 0).val < win3_2.index t (0 : Fin 2) * 5000 + 5000
    rw [e4]; omega
  · show win3_2.index t (1 : Fin 2) * 128 ≤ (i 1).val ∧ (i 1).val < win3_2.index t (1 : Fin 2) * 128 + 128
    rw [e5]; omega

theorem mat_final3 (c : Dev nD) (i : Fin 50000) (k : Fin 128) :
    oarr3 V c (ix2 i k) = ∑ j : Fin 128, xarr3 V c (ix2 i j) * warr3 V c (ix2 j k) :=
  congrFun ((dat3 (F := Ideal) V c).arrAt_eq_of_cover 2 (matG3 V c) (fun t _ => flushed_mat3 V c t) cover_mat3) (ix2 i k)

end Cert.KernelIdeal.Gen
-- ==== Proof.Val.Stats4.lean ====
-- sib.js proof/Proof/Val/Stats1.lean proof/Proof/Val/Stats4.lean 1 4
import proofs.«421377_j77326591197791_1_alg».proof.Proof.KI.Reg4
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe
open Idealize.ShloMosaic.Pipeline (Dat Cfg Window)
open Idealize.ShloMosaic.ValueIdx
open scoped BigOperators

variable (V : (c : Dev nD) → (b : Ref sig .tc) → Buf (Elt Ideal) ((c : Thread nD τ).loc b))

theorem colsum4_apply (x : FVec Ideal S5000x128 .f32) (k : Fin 128) :
    shapeCast S1x128 (multiReduction (F := Ideal) .add [0] S128 x 0x00000000#32 reduces_S5000x128_S128 (.inl rfl) rfl)
        shapeCasts_S128_S1x128 (ix2 (0 : Fin 1) k)
      = ∑ r : Fin 5000, x (ix2 r k) :=
  (shapeCast_a_1a_apply _ shapeCasts_S128_S1x128 (0 : Fin 1) k).trans
    ((Ideal.multiReduction_add_single x 0x00000000#32 reduces_S5000x128_S128 (.inl rfl) rfl (ix1 k)).trans
      (Finset.sum_congr rfl fun r _ => congrArg x (Shape.idx_ext₂ rfl rfl)))

abbrev rows4 (c : Dev nD) : S50000x128.Idx → EReal := V c (Pipeline.arrRef spec4 0)
abbrev bias4 (c : Dev nD) : S1x128.Idx → EReal := V c (Pipeline.arrRef spec4 1)

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem k4_pay3_apply (c : Dev nD) (t : Fin cfg4.N) (ht : t.val < 10) (r : Fin 5000) (k : Fin 128) :
    k4_pay3 (iblk4 V c 0 t) (iblk4 V c 1 t) (ix2 r k)
      = rows4 V c (ix2 (⟨5000 * t.val + r.val, by omega⟩ : Fin 50000) k) + bias4 V c (ix2 (0 : Fin 1) k) := by
  obtain ⟨e0, e1, e2, e3, -⟩ := idx_facts4 t
  unfold k4_pay3
  rw [addf_apply, shapeCast_self, shapeCast_self, broadcastTo_1b_ab_apply]
  refine congrArg₂ (· + ·) (congrArg (rows4 V c) (Shape.idx_ext₂ ?_ ?_)) (congrArg (bias4 V c) (Shape.idx_ext₂ ?_ ?_))
  · show win4_0.index t (0 : Fin 2) * 5000 + 1 * r.val = 5000 * t.val + r.val; rw [e0]; omega
  · show win4_0.index t (1 : Fin 2) * 128 + 1 * k.val = k.val; rw [e1]; omega
  · show win4_1.index t (0 : Fin 2) * 1 + 1 * 0 = 0; rw [e2]
  · show win4_1.index t (1 : Fin 2) * 128 + 1 * k.val = k.val; rw [e3]; omega

def blockSum4 (g : EReal → EReal) (c : Dev nD) (k : Fin 128) (t : ℕ) : EReal :=
  if h : t < 10 then
    ∑ r : Fin 5000, g (rows4 V c (ix2 (⟨5000 * t + r.val, by omega⟩ : Fin 50000) k) + bias4 V c (ix2 (0 : Fin 1) k))
  else 0

theorem point4_sum (c : Dev nD) (t : Fin cfg4.N) (v9 : Vec Ideal S1x128 .f32) (k : Fin 128) :
    k4_pay4 (iblk4 V c 0 t) (iblk4 V c 1 t) v9 (ix2 (0 : Fin 1) k) = v9 (ix2 (0 : Fin 1) k) + blockSum4 V id c k t.val := by
  have ht : t.val < 10 := lt_of_lt_of_eq t.isLt N_4
  unfold blockSum4 k4_pay4
  rw [dif_pos ht, addf_apply, shapeCast_self, colsum4_apply]
  exact congrArg (v9 (ix2 (0 : Fin 1) k) + ·) (Finset.sum_congr rfl fun r _ => k4_pay3_apply V c t ht r k)

theorem point4_sq (c : Dev nD) (t : Fin cfg4.N) (v15 : Vec Ideal S1x128 .f32) (k : Fin 128) :
    k4_pay5 (iblk4 V c 0 t) (iblk4 V c 1 t) v15 (ix2 (0 : Fin 1) k)
      = v15 (ix2 (0 : Fin 1) k) + blockSum4 V (fun y => y * y) c k t.val := by
  have ht : t.val < 10 := lt_of_lt_of_eq t.isLt N_4
  unfold blockSum4 k4_pay5
  rw [dif_pos ht, addf_apply, shapeCast_self, colsum4_apply]
  exact congrArg (v15 (ix2 (0 : Fin 1) k) + ·) (Finset.sum_congr rfl fun r _ => congrArg (fun y => y * y) (k4_pay3_apply V c t ht r k))

theorem outsAt4_apply (c : Dev nD) (k : Fin 128) : ∀ (n : ℕ) (h : n < cfg4.N),
    (outsAt4 V c n h).1 (ix2 (0 : Fin 1) k) = ∑ t ∈ Finset.range (n + 1), blockSum4 V id c k t
    ∧ (outsAt4 V c n h).2 (ix2 (0 : Fin 1) k) = ∑ t ∈ Finset.range (n + 1), blockSum4 V (fun y => y * y) c k t
  | 0, h => by
    rw [outsAt4_zero V c h, Finset.sum_range_one, Finset.sum_range_one]
    exact ⟨(point4_sum V c ⟨0, h⟩ _ k).trans (congrArg (· + _) Ideal.ofBits_zero_f32 |>.trans (zero_add _)),
      (point4_sq V c ⟨0, h⟩ _ k).trans (congrArg (· + _) Ideal.ofBits_zero_f32 |>.trans (zero_add _))⟩
  | n + 1, h => by
    obtain ⟨ih1, ih2⟩ := outsAt4_apply c k n (Nat.lt_of_succ_lt h)
    rw [outsAt4_succ V c n h, Finset.sum_range_succ _ (n + 1), Finset.sum_range_succ _ (n + 1), ← ih1, ← ih2]
    exact ⟨point4_sum V c ⟨n + 1, h⟩ _ k, point4_sq V c ⟨n + 1, h⟩ _ k⟩

theorem sum_rows4 {M : Type*} [AddCommMonoid M] (f : Fin 50000 → M) :
    ∑ i, f i = ∑ t : Fin 10, ∑ r : Fin 5000, f ⟨5000 * t.val + r.val, by omega⟩ := by
  rw [← (finProdFinEquiv.trans (finCongr (by norm_num : 10 * 5000 = 50000))).sum_comp, Fintype.sum_prod_type]
  exact Finset.sum_congr rfl fun t _ => Finset.sum_congr rfl fun r _ => congrArg f (Fin.ext (Nat.add_comm _ _))

theorem sum_blocks4 (g : EReal → EReal) (c : Dev nD) (k : Fin 128) :
    ∑ t ∈ Finset.range 10, blockSum4 V g c k t
      = ∑ i : Fin 50000, g (rows4 V c (ix2 i k) + bias4 V c (ix2 (0 : Fin 1) k)) := by
  rw [Finset.sum_range (fun t => blockSum4 V g c k t),
    sum_rows4 (fun i : Fin 50000 => g (rows4 V c (ix2 i k) + bias4 V c (ix2 (0 : Fin 1) k)))]
  exact Finset.sum_congr rfl fun t _ => dif_pos t.isLt

theorem h9_4 : 9 < cfg4.N := by rw [show cfg4.N = 10 from N_4]; decide

theorem hz4 (w : Fin 2 → ℕ) (h0 : w 0 = 0) (h1 : w 1 = 0) : (fun a => w a * S1x128.size a) = fun _ => 0 :=
  funext (Fin.forall_fin_two.mpr ⟨by rw [h0]; rfl, by rw [h1]; rfl⟩)

theorem final4_2 (c : Dev nD) : (dat4 (F := Ideal) V c).arrAt 2 cfg4.N = (outsAt4 V c 9 h9_4).1 := by
  obtain ⟨-, -, -, -, e0, e1, -⟩ := idx_facts4 t4_9
  have hz := hz4 _ e0 e1
  refine (dat4 (F := Ideal) V c).arrAt_eq_of_cover 2 _ (fun t hf => ?_) fun i => ⟨t4_9, (flush4_2 t4_9).mpr rfl, ?_⟩
  · obtain rfl : t = t4_9 := Fin.ext (show t.val = 9 by have := (flush4_2 t).mp hf; have := lt_of_lt_of_eq t.isLt N_4; omega)
    show (cfg4.win 2).cut (grid4.coords t4_9) ((dat4 (F := Ideal) V c).after 2 t4_9) = _
    rw [after4_2]
    exact (Memref.read_access_unit_zero (Elt Ideal) (Pipeline.arrRef spec4 2) hz (fun a => by rw [congrFun hz a]; simp) _).symm
  · show i ∈ ((View.whole (Pipeline.arrRef spec4 2)).slice (win4_2.rect t4_9)).set
    rw [View.set_slice_whole]
    exact View.mem_set_unit_zero hz _ i

theorem final4_3 (c : Dev nD) : (dat4 (F := Ideal) V c).arrAt 3 cfg4.N = (outsAt4 V c 9 h9_4).2 := by
  obtain ⟨-, -, -, -, -, -, e0, e1⟩ := idx_facts4 t4_9
  have hz := hz4 _ e0 e1
  refine (dat4 (F := Ideal) V c).arrAt_eq_of_cover 3 _ (fun t hf => ?_) fun i => ⟨t4_9, (flush4_3 t4_9).mpr rfl, ?_⟩
  · obtain rfl : t = t4_9 := Fin.ext (show t.val = 9 by have := (flush4_3 t).mp hf; have := lt_of_lt_of_eq t.isLt N_4; omega)
    show (cfg4.win 3).cut (grid4.coords t4_9) ((dat4 (F := Ideal) V c).after 3 t4_9) = _
    rw [after4_3]
    exact (Memref.read_access_unit_zero (Elt Ideal) (Pipeline.arrRef spec4 3) hz (fun a => by rw [congrFun hz a]; simp) _).symm
  · show i ∈ ((View.whole (Pipeline.arrRef spec4 3)).slice (win4_3.rect t4_9)).set
    rw [View.set_slice_whole]
    exact View.mem_set_unit_zero hz _ i

abbrev sumsOut4 (c : Dev nD) : S1x128.Idx → EReal := (dat4 (F := Ideal) V c).arrAt 2 cfg4.N
abbrev sqsOut4 (c : Dev nD) : S1x128.Idx → EReal := (dat4 (F := Ideal) V c).arrAt 3 cfg4.N

theorem stats_final4_sum (c : Dev nD) (k : Fin 128) :
    sumsOut4 V c (ix2 (0 : Fin 1) k) = ∑ i : Fin 50000, (rows4 V c (ix2 i k) + bias4 V c (ix2 (0 : Fin 1) k)) :=
  (congrFun (final4_2 V c) _).trans ((outsAt4_apply V c k 9 h9_4).1.trans (sum_blocks4 V id c k))

theorem stats_final4_sq (c : Dev nD) (k : Fin 128) :
    sqsOut4 V c (ix2 (0 : Fin 1) k)
      = ∑ i : Fin 50000, (rows4 V c (ix2 i k) + bias4 V c (ix2 (0 : Fin 1) k)) * (rows4 V c (ix2 i k) + bias4 V c (ix2 (0 : Fin 1) k)) :=
  (congrFun (final4_3 V c) _).trans ((outsAt4_apply V c k 9 h9_4).2.trans (sum_blocks4 V (fun y => y * y) c k))

end Cert.KernelIdeal.Gen

end
-- ==== Proof.Val.Nr5.lean ====
-- sib.js proof/Proof/Val/Nr2.lean proof/Proof/Val/Nr5.lean 2 5
import proofs.«421377_j77326591197791_1_alg».proof.Proof.KI.Reg5
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem nr_hz5 : (![0, 0] : Fin 2 → Nat) = fun _ => 0 := by decide

def nrAt5 (a b mu var g be : EReal) : EReal :=
  max ((((a + b) - mu) * Ideal.rsqrt (var + Ideal.ofBits .f32 0x3727C5AC#32)) * g + be) 0

theorem nr_pay5 (x0 : Vec Ideal S5000x128 .f32) (x1 x5 x4 x2 x3 : Vec Ideal S1x128 .f32) (r : Fin 5000) (k : Fin 128) :
    k5_pay1 (F := Ideal) x0 x1 x5 x4 x2 x3 (ix2 r k)
      = nrAt5 (x0 (ix2 r k)) (x1 (ix2 0 k)) (x4 (ix2 0 k)) (x5 (ix2 0 k)) (x2 (ix2 0 k)) (x3 (ix2 0 k)) := by
  unfold k5_pay1
  simp only [shapeCast_self]
  simp only [maximumf_apply, addf_apply, mulf_apply, subf_apply, broadcast_apply, broadcastTo_1b_ab_apply]
  simp only [Ideal.ofBits_def, Ideal.ofBits_zero_f32]
  rfl

theorem nr_idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

abbrev nrIn5_0 (c : Dev nD) : S50000x128.Idx → EReal := V c (Pipeline.arrRef spec5 0)
abbrev nrIn5_1 (c : Dev nD) : S1x128.Idx → EReal := V c (Pipeline.arrRef spec5 1)
abbrev nrIn5_2 (c : Dev nD) : S1x128.Idx → EReal := V c (Pipeline.arrRef spec5 2)
abbrev nrIn5_3 (c : Dev nD) : S1x128.Idx → EReal := V c (Pipeline.arrRef spec5 3)
abbrev nrIn5_4 (c : Dev nD) : S1x128.Idx → EReal := V c (Pipeline.arrRef spec5 4)
abbrev nrIn5_5 (c : Dev nD) : S1x128.Idx → EReal := V c (Pipeline.arrRef spec5 5)

def nrG5 (c : Dev nD) : S50000x128.Idx → EReal := fun j =>
  nrAt5 (nrIn5_0 V c j) (nrIn5_1 V c (ix2 0 (j 1))) (nrIn5_4 V c (ix2 0 (j 1))) (nrIn5_5 V c (ix2 0 (j 1)))
    (nrIn5_2 V c (ix2 0 (j 1))) (nrIn5_3 V c (ix2 0 (j 1)))

theorem nr_flushed5 (c : Dev nD) (t : Fin cfg5.N) :
    (dat5 (F := Ideal) V c).flushed 6 t = ((cfg5.win 6).blk t).view.read (Elt Ideal) (nrG5 V c) := by
  show (cfg5.win 6).cut (grid5.coords t) ((dat5 (F := Ideal) V c).after 6 t) = _
  rw [after5_6]
  unfold out5_6
  rw [View.canon_unit_zero nr_hz5]
  simp only [View.ld_unit_zero (S := S5000x128) nr_hz5, View.ld_unit_zero (S := S1x128) nr_hz5]
  obtain ⟨e00, e01, e10, e11, e20, e21, e30, e31, e40, e41, e50, e51, e60, e61⟩ := nr_idx5 t
  funext y
  obtain ⟨p, q, rfl⟩ : ∃ (p : Fin 5000) (q : Fin 128), y = ix2 p q := ⟨y 0, y 1, eq_ix2 y⟩
  show k5_pay1 (F := Ideal) (iblk5 V c 0 t) (iblk5 V c 1 t) (iblk5 V c 5 t) (iblk5 V c 4 t) (iblk5 V c 2 t) (iblk5 V c 3 t) _
    = nrG5 V c (((cfg5.win 6).blk t).view.emb _)
  have row : ∀ {a b : ℕ}, a = 0 → b = 0 → a * 1 + 1 * 0 = 0 ∧ b * 128 + 1 * q.val = win5_6.index t (1 : Fin 2) * 128 + 1 * q.val :=
    fun ha hb => by rw [ha, hb, e61]; exact ⟨rfl, rfl⟩
  refine (nr_pay5 _ _ _ _ _ _ p q).trans ?_
  unfold nrG5
  congr 1
  · exact congrArg (nrIn5_1 V c) (Shape.idx_ext₂ (by exact (row e10 e11).1) (by exact (row e10 e11).2))
  · exact congrArg (nrIn5_4 V c) (Shape.idx_ext₂ (by exact (row e40 e41).1) (by exact (row e40 e41).2))
  · exact congrArg (nrIn5_5 V c) (Shape.idx_ext₂ (by exact (row e50 e51).1) (by exact (row e50 e51).2))
  · exact congrArg (nrIn5_2 V c) (Shape.idx_ext₂ (by exact (row e20 e21).1) (by exact (row e20 e21).2))
  · exact congrArg (nrIn5_3 V c) (Shape.idx_ext₂ (by exact (row e30 e31).1) (by exact (row e30 e31).2))

theorem nr_cover5 (i : S50000x128.Idx) : ∃ t : Fin cfg5.N, (cfg5.win 6).flush t = true ∧ i ∈ ((cfg5.win 6).blk t).view.set := by
  have hi0 := idx2_lt0 i
  have hi1 := idx2_lt1 i
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, -, -, -, -, e60, e61⟩ := nr_idx5 t
  refine ⟨t, flush5_6 t, ?_⟩
  show i ∈ ((View.whole (Pipeline.arrRef spec5 6)).slice (win5_6.rect t)).set
  rw [View.set_slice_whole, Rect.mem_set_unit]
  refine Fin.forall_fin_two.mpr ⟨?_, ?_⟩
  · show win5_6.index t (0 : Fin 2) * 5000 ≤ (i 0).val ∧ (i 0).val < win5_6.index t (0 : Fin 2) * 5000 + 5000
    rw [e60]; omega
  · show win5_6.index t (1 : Fin 2) * 128 ≤ (i 1).val ∧ (i 1).val < win5_6.index t (1 : Fin 2) * 128 + 128
    rw [e61]; omega

theorem nr_final5 (c : Dev nD) (i : Fin 50000) (k : Fin 128) :
    ((dat5 (F := Ideal) V c).arrAt 6 cfg5.N : S50000x128.Idx → EReal) (ix2 i k)
      = max ((((nrIn5_0 V c (ix2 i k) + nrIn5_1 V c (ix2 0 k)) - nrIn5_4 V c (ix2 0 k))
            * Ideal.rsqrt (nrIn5_5 V c (ix2 0 k) + Ideal.ofBits .f32 0x3727C5AC#32))
          * nrIn5_2 V c (ix2 0 k) + nrIn5_3 V c (ix2 0 k)) 0 :=
  congrFun ((dat5 (F := Ideal) V c).arrAt_eq_of_cover 6 (nrG5 V c) (fun t _ => nr_flushed5 V c t) nr_cover5) (ix2 i k)

end Cert.KernelIdeal.Gen

end
-- ==== Proof.Val.Layer2.lean ====
import proofs.«421377_j77326591197791_1_alg».proof.Proof.KI.FrameDefs
import proofs.«421377_j77326591197791_1_alg».proof.Proof.Val.HostK
import proofs.«421377_j77326591197791_1_alg».proof.Proof.Val.Link0
import proofs.«421377_j77326591197791_1_alg».proof.Proof.Val.Mat3
import proofs.«421377_j77326591197791_1_alg».proof.Proof.Val.Stats4
import proofs.«421377_j77326591197791_1_alg».proof.Proof.Val.Nr5
import proofs.«421377_j77326591197791_1_alg».proof.Proof.Val.LayerAlg
import proofs.«421377_j77326591197791_1_alg».proof.Proof.Val.RefFin
import proofs.«421377_j77326591197791_1_alg».proof.Proof.Val.RefLayer
import proofs.«421377_j77326591197791_1_alg».proof.Proof.RefRead

set_option maxRecDepth 16384

noncomputable section

namespace Cert.KernelIdeal.Gen

open Idealize.ShloMosaic Idealize.ShloMosaic.TcCoe Idealize.SL.Sem Idealize.ShloMosaic.ValueIdx
open Cert.Val.Alg Cert.Val.FinOps
open Cert.ReferenceIdeal (ReadP.val_main_v71 ReadP.val_main_v72 ReadP.val_main_v86 ReadP.val_main_v115)

variable (m : (ℓ : Loc nD τ sig) → Buf (Elt Ideal) ℓ) (c : Dev nD)

set_option quotPrecheck false

local notation "ξ0" => m ((c.tc : Thread nD τ).loc main_arg0)
local notation "ξ1" => m ((c.tc : Thread nD τ).loc main_arg1)
local notation "ξ3" => m ((c.tc : Thread nD τ).loc main_arg3)
local notation "ξ4" => m ((c.tc : Thread nD τ).loc main_arg4)
local notation "ξ5" => m ((c.tc : Thread nD τ).loc main_arg5)
local notation "ξ6" => m ((c.tc : Thread nD τ).loc main_arg6)
local notation "ξ7" => m ((c.tc : Thread nD τ).loc main_arg7)
local notation "ξ8" => m ((c.tc : Thread nD τ).loc main_arg8)
local notation "ξ9" => m ((c.tc : Thread nD τ).loc main_arg9)
local notation "ξ10" => m ((c.tc : Thread nD τ).loc main_arg10)

theorem layer2_h_eq (hprev : o8 m c = ReadP.val_main_v71 (F := Ideal) ξ0 ξ1 ξ3 ξ4 ξ5 ξ6) :
    o9 m c = ReadP.val_main_v72 (F := Ideal) ξ0 ξ1 ξ3 ξ4 ξ5 ξ6 ξ7 :=
  matmul_eq (mat_final3 (T8 m) c) ((X8_at m c).trans hprev) ((X8_keep m c main_arg7 (by decide)).trans (V3_keep m c main_arg7 (by decide) (by decide) (by decide)))

theorem layer2_agg_eq (hprev : o8 m c = ReadP.val_main_v71 (F := Ideal) ξ0 ξ1 ξ3 ξ4 ξ5 ξ6) :
    X10 m c main_v68 = ReadP.val_main_v86 (F := Ideal) ξ0 ξ1 ξ3 ξ4 ξ5 ξ6 ξ7 := by
  refine (hostOps4_main_v68 (X9 m c)).trans ?_
  rw [(X9_keep m c main_v28 (by decide)).trans (V3_main_v28 m c), (X9_at m c).trans (layer2_h_eq m c hprev),
    (X9_keep m c main_v1 (by decide)).trans (V3_main_v1 m c), (X9_keep m c main_v3 (by decide)).trans (V3_main_v3 m c)]
  rfl

theorem layer2_cur_eq (hprev : o8 m c = ReadP.val_main_v71 (F := Ideal) ξ0 ξ1 ξ3 ξ4 ξ5 ξ6)
    (h0 : AllReal (S := S50000x128) ξ0) (h3 : AllReal (S := S128x128) ξ3) (h4 : AllReal (S := S128) ξ4) (h5 : AllReal (S := S128) ξ5)
    (h6 : AllReal (S := S128) ξ6) (h7 : AllReal (S := S128x128) ξ7) (h8 : AllReal (S := S128) ξ8) :
    o13 m c = ReadP.val_main_v115 (F := Ideal) ξ0 ξ1 ξ3 ξ4 ξ5 ξ6 ξ7 ξ8 ξ9 ξ10 :=
  layer_eq (nr_final5 (T12 m) c)
    ((X12_of m c main_v68 (by decide)).trans ((X11_of m c main_v68 (by decide)).trans (layer2_agg_eq m c hprev)))
    ((hostOps5_main_v77 (X11 m c)).trans (congrArg rowOf ((X11_keep m c main_arg8 (by decide)).trans (V3_keep m c main_arg8 (by decide) (by decide) (by decide)))))
    ((hostOps5_main_v78 (X11 m c)).trans (congrArg rowOf ((X11_keep m c main_arg9 (by decide)).trans (V3_keep m c main_arg9 (by decide) (by decide) (by decide)))))
    ((hostOps5_main_v79 (X11 m c)).trans (congrArg rowOf ((X11_keep m c main_arg10 (by decide)).trans (V3_keep m c main_arg10 (by decide) (by decide) (by decide)))))
    ((hostOps5_main_v72 (X11 m c)).trans (congrArg meanOf (X11_at_0 m c)))
    ((hostOps5_main_v76 (X11 m c)).trans (congrArg₂ varOf (X11_at_0 m c) (X11_at_1 m c)))
    (layer2_agg_eq m c hprev) ((hostOps4_main_v69 (X9 m c)).trans (congrArg rowOf ((X9_keep m c main_arg8 (by decide)).trans (V3_keep m c main_arg8 (by decide) (by decide) (by decide)))))
    (stats_final4_sum (T10 m) c) (stats_final4_sq (T10 m) c)
    (Cert.Val.RefFin.real_v89 ξ0 ξ1 ξ3 ξ4 ξ5 ξ6 ξ7 ξ8 h0 h3 h4 h5 h6 h7 h8)
    (Cert.ReferenceIdeal.RefLayer.ref_layer2 ξ0 ξ1 ξ3 ξ4 ξ5 ξ6 ξ7 ξ8 ξ9 ξ10)

end Cert.KernelIdeal.Gen

end
-- ==== Proof.Val.Mat6.lean ====
-- sib.js proof/Proof/Val/Mat3.lean proof/Proof/Val/Mat6.lean 3 6
import proofs.«421377_j77326591197791_1_alg».proof.Proof.KI.Reg6
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem pay_mat6 (x0 : FVec Ideal S5000x128 .f32) (x1 : FVec Ideal S128x128 .f32) (r : Fin 5000) (k : Fin 128) :
    k6_pay1 (F := Ideal) x0 x1 (ix2 r k) = ∑ j : Fin 128, x0 (ix2 r j) * x1 (ix2 j k) :=
  (congrFun (matmul_zero_eq_dotGeneral _ none _ x1) _).trans
    ((StackMember.dotGeneral_plain_apply none _ x1 r k).trans (by simp only [shapeCast_self]))

theorem hz_mat6 : (![0, 0] : Fin 2 → Nat) = fun _ => 0 := by decide

theorem idx_mat6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

abbrev xarr6 (c : Dev nD) : S50000x128.Idx → EReal := V c (Pipeline.arrRef spec6 0)
abbrev warr6 (c : Dev nD) : S128x128.Idx → EReal := V c (Pipeline.arrRef spec6 1)
abbrev oarr6 (c : Dev nD) : S50000x128.Idx → EReal := (dat6 (F := Ideal) V c).arrAt 2 cfg6.N

abbrev matG6 (c : Dev nD) : S50000x128.Idx → EReal :=
  fun i => ∑ j : Fin 128, xarr6 V c (ix2 (i 0) j) * warr6 V c (ix2 j (i 1))

theorem flushed_mat6 (c : Dev nD) (t : Fin cfg6.N) :
    (dat6 (F := Ideal) V c).flushed 2 t = ((cfg6.win 2).blk t).view.read (Elt Ideal) (matG6 V c) := by
  show (cfg6.win 2).cut (grid6.coords t) ((dat6 (F := Ideal) V c).after 2 t) = _
  rw [after6_2]
  unfold out6_2
  rw [View.canon_unit_zero hz_mat6]
  simp only [View.ld_unit_zero (S := S5000x128) hz_mat6, View.ld_unit_zero (S := S128x128) hz_mat6]
  obtain ⟨e0, e1, e2, e3, e4, e5⟩ := idx_mat6 t
  funext y
  obtain ⟨r, k, rfl⟩ : ∃ (r : Fin 5000) (k : Fin 128), y = ix2 r k := ⟨y 0, y 1, eq_ix2 y⟩
  show k6_pay1 (F := Ideal) (iblk6 V c 0 t) (iblk6 V c 1 t) _ = matG6 V c (((cfg6.win 2).blk t).view.emb _)
  refine (pay_mat6 _ _ r k).trans (Finset.sum_congr rfl fun j _ => congrArg₂ (· * ·) ?_ ?_)
  · refine congrArg (xarr6 V c) (Shape.idx_ext₂ ?_ ?_)
    · show win6_0.index t (0 : Fin 2) * 5000 + 1 * r.val = win6_2.index t (0 : Fin 2) * 5000 + 1 * r.val; rw [e0, e4]
    · show win6_0.index t (1 : Fin 2) * 128 + 1 * j.val = j.val; rw [e1]; omega
  · refine congrArg (warr6 V c) (Shape.idx_ext₂ ?_ ?_)
    · show win6_1.index t (0 : Fin 2) * 128 + 1 * j.val = j.val; rw [e2]; omega
    · show win6_1.index t (1 : Fin 2) * 128 + 1 * k.val = win6_2.index t (1 : Fin 2) * 128 + 1 * k.val; rw [e3, e5]

theorem cover_mat6 (i : S50000x128.Idx) :
    ∃ t : Fin cfg6.N, (cfg6.win 2).flush t = true ∧ i ∈ ((cfg6.win 2).blk t).view.set := by
  have hi0 := idx2_lt0 i
  have hi1 := idx2_lt1 i
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, e4, e5⟩ := idx_mat6 t
  refine ⟨t, flush6_2 t, ?_⟩
  show i ∈ ((View.whole (Pipeline.arrRef spec6 2)).slice (win6_2.rect t)).set
  rw [View.set_slice_whole, Rect.mem_set_unit]
  refine Fin.forall_fin_two.mpr ⟨?_, ?_⟩
  · show win6_2.index t (0 : Fin 2) * 5000 ≤ (i 0).val ∧ (i 0).val < win6_2.index t (0 : Fin 2) * 5000 + 5000
    rw [e4]; omega
  · show win6_2.index t (1 : Fin 2) * 128 ≤ (i 1).val ∧ (i 1).val < win6_2.index t (1 : Fin 2) * 128 + 128
    rw [e5]; omega

theorem mat_final6 (c : Dev nD) (i : Fin 50000) (k : Fin 128) :
    oarr6 V c (ix2 i k) = ∑ j : Fin 128, xarr6 V c (ix2 i j) * warr6 V c (ix2 j k) :=
  congrFun ((dat6 (F := Ideal) V c).arrAt_eq_of_cover 2 (matG6 V c) (fun t _ => flushed_mat6 V c t) cover_mat6) (ix2 i k)

end Cert.KernelIdeal.Gen
-- ==== Proof.Val.Stats7.lean ====
-- sib.js proof/Proof/Val/Stats1.lean proof/Proof/Val/Stats7.lean 1 7
import proofs.«421377_j77326591197791_1_alg».proof.Proof.KI.Reg7
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe
open Idealize.ShloMosaic.Pipeline (Dat Cfg Window)
open Idealize.ShloMosaic.ValueIdx
open scoped BigOperators

variable (V : (c : Dev nD) → (b : Ref sig .tc) → Buf (Elt Ideal) ((c : Thread nD τ).loc b))

theorem colsum7_apply (x : FVec Ideal S5000x128 .f32) (k : Fin 128) :
    shapeCast S1x128 (multiReduction (F := Ideal) .add [0] S128 x 0x00000000#32 reduces_S5000x128_S128 (.inl rfl) rfl)
        shapeCasts_S128_S1x128 (ix2 (0 : Fin 1) k)
      = ∑ r : Fin 5000, x (ix2 r k) :=
  (shapeCast_a_1a_apply _ shapeCasts_S128_S1x128 (0 : Fin 1) k).trans
    ((Ideal.multiReduction_add_single x 0x00000000#32 reduces_S5000x128_S128 (.inl rfl) rfl (ix1 k)).trans
      (Finset.sum_congr rfl fun r _ => congrArg x (Shape.idx_ext₂ rfl rfl)))

abbrev rows7 (c : Dev nD) : S50000x128.Idx → EReal := V c (Pipeline.arrRef spec7 0)
abbrev bias7 (c : Dev nD) : S1x128.Idx → EReal := V c (Pipeline.arrRef spec7 1)

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

theorem k7_pay3_apply (c : Dev nD) (t : Fin cfg7.N) (ht : t.val < 10) (r : Fin 5000) (k : Fin 128) :
    k7_pay3 (iblk7 V c 0 t) (iblk7 V c 1 t) (ix2 r k)
      = rows7 V c (ix2 (⟨5000 * t.val + r.val, by omega⟩ : Fin 50000) k) + bias7 V c (ix2 (0 : Fin 1) k) := by
  obtain ⟨e0, e1, e2, e3, -⟩ := idx_facts7 t
  unfold k7_pay3
  rw [addf_apply, shapeCast_self, shapeCast_self, broadcastTo_1b_ab_apply]
  refine congrArg₂ (· + ·) (congrArg (rows7 V c) (Shape.idx_ext₂ ?_ ?_)) (congrArg (bias7 V c) (Shape.idx_ext₂ ?_ ?_))
  · show win7_0.index t (0 : Fin 2) * 5000 + 1 * r.val = 5000 * t.val + r.val; rw [e0]; omega
  · show win7_0.index t (1 : Fin 2) * 128 + 1 * k.val = k.val; rw [e1]; omega
  · show win7_1.index t (0 : Fin 2) * 1 + 1 * 0 = 0; rw [e2]
  · show win7_1.index t (1 : Fin 2) * 128 + 1 * k.val = k.val; rw [e3]; omega

def blockSum7 (g : EReal → EReal) (c : Dev nD) (k : Fin 128) (t : ℕ) : EReal :=
  if h : t < 10 then
    ∑ r : Fin 5000, g (rows7 V c (ix2 (⟨5000 * t + r.val, by omega⟩ : Fin 50000) k) + bias7 V c (ix2 (0 : Fin 1) k))
  else 0

theorem point7_sum (c : Dev nD) (t : Fin cfg7.N) (v9 : Vec Ideal S1x128 .f32) (k : Fin 128) :
    k7_pay4 (iblk7 V c 0 t) (iblk7 V c 1 t) v9 (ix2 (0 : Fin 1) k) = v9 (ix2 (0 : Fin 1) k) + blockSum7 V id c k t.val := by
  have ht : t.val < 10 := lt_of_lt_of_eq t.isLt N_7
  unfold blockSum7 k7_pay4
  rw [dif_pos ht, addf_apply, shapeCast_self, colsum7_apply]
  exact congrArg (v9 (ix2 (0 : Fin 1) k) + ·) (Finset.sum_congr rfl fun r _ => k7_pay3_apply V c t ht r k)

theorem point7_sq (c : Dev nD) (t : Fin cfg7.N) (v15 : Vec Ideal S1x128 .f32) (k : Fin 128) :
    k7_pay5 (iblk7 V c 0 t) (iblk7 V c 1 t) v15 (ix2 (0 : Fin 1) k)
      = v15 (ix2 (0 : Fin 1) k) + blockSum7 V (fun y => y * y) c k t.val := by
  have ht : t.val < 10 := lt_of_lt_of_eq t.isLt N_7
  unfold blockSum7 k7_pay5
  rw [dif_pos ht, addf_apply, shapeCast_self, colsum7_apply]
  exact congrArg (v15 (ix2 (0 : Fin 1) k) + ·) (Finset.sum_congr rfl fun r _ => congrArg (fun y => y * y) (k7_pay3_apply V c t ht r k))

theorem outsAt7_apply (c : Dev nD) (k : Fin 128) : ∀ (n : ℕ) (h : n < cfg7.N),
    (outsAt7 V c n h).1 (ix2 (0 : Fin 1) k) = ∑ t ∈ Finset.range (n + 1), blockSum7 V id c k t
    ∧ (outsAt7 V c n h).2 (ix2 (0 : Fin 1) k) = ∑ t ∈ Finset.range (n + 1), blockSum7 V (fun y => y * y) c k t
  | 0, h => by
    rw [outsAt7_zero V c h, Finset.sum_range_one, Finset.sum_range_one]
    exact ⟨(point7_sum V c ⟨0, h⟩ _ k).trans (congrArg (· + _) Ideal.ofBits_zero_f32 |>.trans (zero_add _)),
      (point7_sq V c ⟨0, h⟩ _ k).trans (congrArg (· + _) Ideal.ofBits_zero_f32 |>.trans (zero_add _))⟩
  | n + 1, h => by
    obtain ⟨ih1, ih2⟩ := outsAt7_apply c k n (Nat.lt_of_succ_lt h)
    rw [outsAt7_succ V c n h, Finset.sum_range_succ _ (n + 1), Finset.sum_range_succ _ (n + 1), ← ih1, ← ih2]
    exact ⟨point7_sum V c ⟨n + 1, h⟩ _ k, point7_sq V c ⟨n + 1, h⟩ _ k⟩

theorem sum_rows7 {M : Type*} [AddCommMonoid M] (f : Fin 50000 → M) :
    ∑ i, f i = ∑ t : Fin 10, ∑ r : Fin 5000, f ⟨5000 * t.val + r.val, by omega⟩ := by
  rw [← (finProdFinEquiv.trans (finCongr (by norm_num : 10 * 5000 = 50000))).sum_comp, Fintype.sum_prod_type]
  exact Finset.sum_congr rfl fun t _ => Finset.sum_congr rfl fun r _ => congrArg f (Fin.ext (Nat.add_comm _ _))

theorem sum_blocks7 (g : EReal → EReal) (c : Dev nD) (k : Fin 128) :
    ∑ t ∈ Finset.range 10, blockSum7 V g c k t
      = ∑ i : Fin 50000, g (rows7 V c (ix2 i k) + bias7 V c (ix2 (0 : Fin 1) k)) := by
  rw [Finset.sum_range (fun t => blockSum7 V g c k t),
    sum_rows7 (fun i : Fin 50000 => g (rows7 V c (ix2 i k) + bias7 V c (ix2 (0 : Fin 1) k)))]
  exact Finset.sum_congr rfl fun t _ => dif_pos t.isLt

theorem h9_7 : 9 < cfg7.N := by rw [show cfg7.N = 10 from N_7]; decide

theorem hz7 (w : Fin 2 → ℕ) (h0 : w 0 = 0) (h1 : w 1 = 0) : (fun a => w a * S1x128.size a) = fun _ => 0 :=
  funext (Fin.forall_fin_two.mpr ⟨by rw [h0]; rfl, by rw [h1]; rfl⟩)

theorem final7_2 (c : Dev nD) : (dat7 (F := Ideal) V c).arrAt 2 cfg7.N = (outsAt7 V c 9 h9_7).1 := by
  obtain ⟨-, -, -, -, e0, e1, -⟩ := idx_facts7 t7_9
  have hz := hz7 _ e0 e1
  refine (dat7 (F := Ideal) V c).arrAt_eq_of_cover 2 _ (fun t hf => ?_) fun i => ⟨t7_9, (flush7_2 t7_9).mpr rfl, ?_⟩
  · obtain rfl : t = t7_9 := Fin.ext (show t.val = 9 by have := (flush7_2 t).mp hf; have := lt_of_lt_of_eq t.isLt N_7; omega)
    show (cfg7.win 2).cut (grid7.coords t7_9) ((dat7 (F := Ideal) V c).after 2 t7_9) = _
    rw [after7_2]
    exact (Memref.read_access_unit_zero (Elt Ideal) (Pipeline.arrRef spec7 2) hz (fun a => by rw [congrFun hz a]; simp) _).symm
  · show i ∈ ((View.whole (Pipeline.arrRef spec7 2)).slice (win7_2.rect t7_9)).set
    rw [View.set_slice_whole]
    exact View.mem_set_unit_zero hz _ i

theorem final7_3 (c : Dev nD) : (dat7 (F := Ideal) V c).arrAt 3 cfg7.N = (outsAt7 V c 9 h9_7).2 := by
  obtain ⟨-, -, -, -, -, -, e0, e1⟩ := idx_facts7 t7_9
  have hz := hz7 _ e0 e1
  refine (dat7 (F := Ideal) V c).arrAt_eq_of_cover 3 _ (fun t hf => ?_) fun i => ⟨t7_9, (flush7_3 t7_9).mpr rfl, ?_⟩
  · obtain rfl : t = t7_9 := Fin.ext (show t.val = 9 by have := (flush7_3 t).mp hf; have := lt_of_lt_of_eq t.isLt N_7; omega)
    show (cfg7.win 3).cut (grid7.coords t7_9) ((dat7 (F := Ideal) V c).after 3 t7_9) = _
    rw [after7_3]
    exact (Memref.read_access_unit_zero (Elt Ideal) (Pipeline.arrRef spec7 3) hz (fun a => by rw [congrFun hz a]; simp) _).symm
  · show i ∈ ((View.whole (Pipeline.arrRef spec7 3)).slice (win7_3.rect t7_9)).set
    rw [View.set_slice_whole]
    exact View.mem_set_unit_zero hz _ i

abbrev sumsOut7 (c : Dev nD) : S1x128.Idx → EReal := (dat7 (F := Ideal) V c).arrAt 2 cfg7.N
abbrev sqsOut7 (c : Dev nD) : S1x128.Idx → EReal := (dat7 (F := Ideal) V c).arrAt 3 cfg7.N

theorem stats_final7_sum (c : Dev nD) (k : Fin 128) :
    sumsOut7 V c (ix2 (0 : Fin 1) k) = ∑ i : Fin 50000, (rows7 V c (ix2 i k) + bias7 V c (ix2 (0 : Fin 1) k)) :=
  (congrFun (final7_2 V c) _).trans ((outsAt7_apply V c k 9 h9_7).1.trans (sum_blocks7 V id c k))

theorem stats_final7_sq (c : Dev nD) (k : Fin 128) :
    sqsOut7 V c (ix2 (0 : Fin 1) k)
      = ∑ i : Fin 50000, (rows7 V c (ix2 i k) + bias7 V c (ix2 (0 : Fin 1) k)) * (rows7 V c (ix2 i k) + bias7 V c (ix2 (0 : Fin 1) k)) :=
  (congrFun (final7_3 V c) _).trans ((outsAt7_apply V c k 9 h9_7).2.trans (sum_blocks7 V (fun y => y * y) c k))

end Cert.KernelIdeal.Gen

end
-- ==== Proof.Val.Nr8.lean ====
-- sib.js proof/Proof/Val/Nr2.lean proof/Proof/Val/Nr8.lean 2 8
import proofs.«421377_j77326591197791_1_alg».proof.Proof.KI.Reg8
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem nr_hz8 : (![0, 0] : Fin 2 → Nat) = fun _ => 0 := by decide

def nrAt8 (a b mu var g be : EReal) : EReal :=
  max ((((a + b) - mu) * Ideal.rsqrt (var + Ideal.ofBits .f32 0x3727C5AC#32)) * g + be) 0

theorem nr_pay8 (x0 : Vec Ideal S5000x128 .f32) (x1 x5 x4 x2 x3 : Vec Ideal S1x128 .f32) (r : Fin 5000) (k : Fin 128) :
    k8_pay1 (F := Ideal) x0 x1 x5 x4 x2 x3 (ix2 r k)
      = nrAt8 (x0 (ix2 r k)) (x1 (ix2 0 k)) (x4 (ix2 0 k)) (x5 (ix2 0 k)) (x2 (ix2 0 k)) (x3 (ix2 0 k)) := by
  unfold k8_pay1
  simp only [shapeCast_self]
  simp only [maximumf_apply, addf_apply, mulf_apply, subf_apply, broadcast_apply, broadcastTo_1b_ab_apply]
  simp only [Ideal.ofBits_def, Ideal.ofBits_zero_f32]
  rfl

theorem nr_idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

abbrev nrIn8_0 (c : Dev nD) : S50000x128.Idx → EReal := V c (Pipeline.arrRef spec8 0)
abbrev nrIn8_1 (c : Dev nD) : S1x128.Idx → EReal := V c (Pipeline.arrRef spec8 1)
abbrev nrIn8_2 (c : Dev nD) : S1x128.Idx → EReal := V c (Pipeline.arrRef spec8 2)
abbrev nrIn8_3 (c : Dev nD) : S1x128.Idx → EReal := V c (Pipeline.arrRef spec8 3)
abbrev nrIn8_4 (c : Dev nD) : S1x128.Idx → EReal := V c (Pipeline.arrRef spec8 4)
abbrev nrIn8_5 (c : Dev nD) : S1x128.Idx → EReal := V c (Pipeline.arrRef spec8 5)

def nrG8 (c : Dev nD) : S50000x128.Idx → EReal := fun j =>
  nrAt8 (nrIn8_0 V c j) (nrIn8_1 V c (ix2 0 (j 1))) (nrIn8_4 V c (ix2 0 (j 1))) (nrIn8_5 V c (ix2 0 (j 1)))
    (nrIn8_2 V c (ix2 0 (j 1))) (nrIn8_3 V c (ix2 0 (j 1)))

theorem nr_flushed8 (c : Dev nD) (t : Fin cfg8.N) :
    (dat8 (F := Ideal) V c).flushed 6 t = ((cfg8.win 6).blk t).view.read (Elt Ideal) (nrG8 V c) := by
  show (cfg8.win 6).cut (grid8.coords t) ((dat8 (F := Ideal) V c).after 6 t) = _
  rw [after8_6]
  unfold out8_6
  rw [View.canon_unit_zero nr_hz8]
  simp only [View.ld_unit_zero (S := S5000x128) nr_hz8, View.ld_unit_zero (S := S1x128) nr_hz8]
  obtain ⟨e00, e01, e10, e11, e20, e21, e30, e31, e40, e41, e50, e51, e60, e61⟩ := nr_idx8 t
  funext y
  obtain ⟨p, q, rfl⟩ : ∃ (p : Fin 5000) (q : Fin 128), y = ix2 p q := ⟨y 0, y 1, eq_ix2 y⟩
  show k8_pay1 (F := Ideal) (iblk8 V c 0 t) (iblk8 V c 1 t) (iblk8 V c 5 t) (iblk8 V c 4 t) (iblk8 V c 2 t) (iblk8 V c 3 t) _
    = nrG8 V c (((cfg8.win 6).blk t).view.emb _)
  have row : ∀ {a b : ℕ}, a = 0 → b = 0 → a * 1 + 1 * 0 = 0 ∧ b * 128 + 1 * q.val = win8_6.index t (1 : Fin 2) * 128 + 1 * q.val :=
    fun ha hb => by rw [ha, hb, e61]; exact ⟨rfl, rfl⟩
  refine (nr_pay8 _ _ _ _ _ _ p q).trans ?_
  unfold nrG8
  congr 1
  · exact congrArg (nrIn8_1 V c) (Shape.idx_ext₂ (by exact (row e10 e11).1) (by exact (row e10 e11).2))
  · exact congrArg (nrIn8_4 V c) (Shape.idx_ext₂ (by exact (row e40 e41).1) (by exact (row e40 e41).2))
  · exact congrArg (nrIn8_5 V c) (Shape.idx_ext₂ (by exact (row e50 e51).1) (by exact (row e50 e51).2))
  · exact congrArg (nrIn8_2 V c) (Shape.idx_ext₂ (by exact (row e20 e21).1) (by exact (row e20 e21).2))
  · exact congrArg (nrIn8_3 V c) (Shape.idx_ext₂ (by exact (row e30 e31).1) (by exact (row e30 e31).2))

theorem nr_cover8 (i : S50000x128.Idx) : ∃ t : Fin cfg8.N, (cfg8.win 6).flush t = true ∧ i ∈ ((cfg8.win 6).blk t).view.set := by
  have hi0 := idx2_lt0 i
  have hi1 := idx2_lt1 i
  have hN : cfg8.N = 10 := N_8
  obtain ⟨t, ht⟩ : ∃ t : Fin cfg8.N, t.val = (i 0).val / 5000 := ⟨⟨(i 0).val / 5000, by rw [hN]; omega⟩, rfl⟩
  obtain ⟨-, -, -, -, -, -, -, -, -, -, -, -, e60, e61⟩ := nr_idx8 t
  refine ⟨t, flush8_6 t, ?_⟩
  show i ∈ ((View.whole (Pipeline.arrRef spec8 6)).slice (win8_6.rect t)).set
  rw [View.set_slice_whole, Rect.mem_set_unit]
  refine Fin.forall_fin_two.mpr ⟨?_, ?_⟩
  · show win8_6.index t (0 : Fin 2) * 5000 ≤ (i 0).val ∧ (i 0).val < win8_6.index t (0 : Fin 2) * 5000 + 5000
    rw [e60]; omega
  · show win8_6.index t (1 : Fin 2) * 128 ≤ (i 1).val ∧ (i 1).val < win8_6.index t (1 : Fin 2) * 128 + 128
    rw [e61]; omega

theorem nr_final8 (c : Dev nD) (i : Fin 50000) (k : Fin 128) :
    ((dat8 (F := Ideal) V c).arrAt 6 cfg8.N : S50000x128.Idx → EReal) (ix2 i k)
      = max ((((nrIn8_0 V c (ix2 i k) + nrIn8_1 V c (ix2 0 k)) - nrIn8_4 V c (ix2 0 k))
            * Ideal.rsqrt (nrIn8_5 V c (ix2 0 k) + Ideal.ofBits .f32 0x3727C5AC#32))
          * nrIn8_2 V c (ix2 0 k) + nrIn8_3 V c (ix2 0 k)) 0 :=
  congrFun ((dat8 (F := Ideal) V c).arrAt_eq_of_cover 6 (nrG8 V c) (fun t _ => nr_flushed8 V c t) nr_cover8) (ix2 i k)

end Cert.KernelIdeal.Gen

end
-- ==== Proof.Val.Layer3.lean ====
import proofs.«421377_j77326591197791_1_alg».proof.Proof.KI.FrameDefs
import proofs.«421377_j77326591197791_1_alg».proof.Proof.Val.HostK
import proofs.«421377_j77326591197791_1_alg».proof.Proof.Val.Link0
import proofs.«421377_j77326591197791_1_alg».proof.Proof.Val.Mat6
import proofs.«421377_j77326591197791_1_alg».proof.Proof.Val.Stats7
import proofs.«421377_j77326591197791_1_alg».proof.Proof.Val.Nr8
import proofs.«421377_j77326591197791_1_alg».proof.Proof.Val.LayerAlg
import proofs.«421377_j77326591197791_1_alg».proof.Proof.Val.RefFin
import proofs.«421377_j77326591197791_1_alg».proof.Proof.Val.RefLayer
import proofs.«421377_j77326591197791_1_alg».proof.Proof.RefRead

set_option maxRecDepth 16384

noncomputable section

namespace Cert.KernelIdeal.Gen

open Idealize.ShloMosaic Idealize.ShloMosaic.TcCoe Idealize.SL.Sem Idealize.ShloMosaic.ValueIdx
open Cert.ReferenceIdeal (ReadP.val_main_v115 ReadP.val_main_v116 ReadP.val_main_v130 ReadP.val_main_v159)

variable (m : (ℓ : Loc nD τ sig) → Buf (Elt Ideal) ℓ) (c : Dev nD)

set_option quotPrecheck false

local notation "𝔵0" => m ((c : Thread nD τ).loc main_arg0)
local notation "𝔵1" => m ((c : Thread nD τ).loc main_arg1)
local notation "𝔵3" => m ((c : Thread nD τ).loc main_arg3)
local notation "𝔵4" => m ((c : Thread nD τ).loc main_arg4)
local notation "𝔵5" => m ((c : Thread nD τ).loc main_arg5)
local notation "𝔵6" => m ((c : Thread nD τ).loc main_arg6)
local notation "𝔵7" => m ((c : Thread nD τ).loc main_arg7)
local notation "𝔵8" => m ((c : Thread nD τ).loc main_arg8)
local notation "𝔵9" => m ((c : Thread nD τ).loc main_arg9)
local notation "𝔵10" => m ((c : Thread nD τ).loc main_arg10)
local notation "𝔵11" => m ((c : Thread nD τ).loc main_arg11)
local notation "𝔵12" => m ((c : Thread nD τ).loc main_arg12)
local notation "𝔵13" => m ((c : Thread nD τ).loc main_arg13)
local notation "𝔵14" => m ((c : Thread nD τ).loc main_arg14)

theorem l3_h_eq (hprev : o13 m c = ReadP.val_main_v115 (F := Ideal) 𝔵0 𝔵1 𝔵3 𝔵4 𝔵5 𝔵6 𝔵7 𝔵8 𝔵9 𝔵10) :
    o14 m c = ReadP.val_main_v116 (F := Ideal) 𝔵0 𝔵1 𝔵3 𝔵4 𝔵5 𝔵6 𝔵7 𝔵8 𝔵9 𝔵10 𝔵11 :=
  matmul_eq (mat_final6 (T13 m) c) ((X13_at m c).trans hprev) (X13_main_arg11 m c)

theorem l3_agg_eq (hprev : o13 m c = ReadP.val_main_v115 (F := Ideal) 𝔵0 𝔵1 𝔵3 𝔵4 𝔵5 𝔵6 𝔵7 𝔵8 𝔵9 𝔵10) :
    X15 m c main_v94 = ReadP.val_main_v130 (F := Ideal) 𝔵0 𝔵1 𝔵3 𝔵4 𝔵5 𝔵6 𝔵7 𝔵8 𝔵9 𝔵10 𝔵11 := by
  refine (hostOps7_main_v94 (X14 m c)).trans ?_
  rw [X14_main_v28, X14_at, X14_main_v1, X14_main_v3, l3_h_eq m c hprev]
  rfl

theorem l3_cur_eq (hprev : o13 m c = ReadP.val_main_v115 (F := Ideal) 𝔵0 𝔵1 𝔵3 𝔵4 𝔵5 𝔵6 𝔵7 𝔵8 𝔵9 𝔵10)
    (h0 : Cert.Val.FinOps.AllReal (𝔵0 : S50000x128.Idx → EReal)) (h3 : Cert.Val.FinOps.AllReal (𝔵3 : S128x128.Idx → EReal))
    (h4 : Cert.Val.FinOps.AllReal (𝔵4 : S128.Idx → EReal)) (h5 : Cert.Val.FinOps.AllReal (𝔵5 : S128.Idx → EReal))
    (h6 : Cert.Val.FinOps.AllReal (𝔵6 : S128.Idx → EReal)) (h7 : Cert.Val.FinOps.AllReal (𝔵7 : S128x128.Idx → EReal))
    (h8 : Cert.Val.FinOps.AllReal (𝔵8 : S128.Idx → EReal)) (h9 : Cert.Val.FinOps.AllReal (𝔵9 : S128.Idx → EReal))
    (h10 : Cert.Val.FinOps.AllReal (𝔵10 : S128.Idx → EReal)) (h11 : Cert.Val.FinOps.AllReal (𝔵11 : S128x128.Idx → EReal))
    (h12 : Cert.Val.FinOps.AllReal (𝔵12 : S128.Idx → EReal)) :
    o18 m c = ReadP.val_main_v159 (F := Ideal) 𝔵0 𝔵1 𝔵3 𝔵4 𝔵5 𝔵6 𝔵7 𝔵8 𝔵9 𝔵10 𝔵11 𝔵12 𝔵13 𝔵14 :=
  layer_eq (nr_final8 (T17 m) c)
    ((X17_of m c main_v94 (by decide)).trans ((X16_of m c main_v94 (by decide)).trans (l3_agg_eq m c hprev)))
    ((hostOps8_main_v103 (X16 m c)).trans (congrArg rowOf (X16_main_arg12 m c)))
    ((hostOps8_main_v104 (X16 m c)).trans (congrArg rowOf (X16_main_arg13 m c)))
    ((hostOps8_main_v105 (X16 m c)).trans (congrArg rowOf (X16_main_arg14 m c)))
    ((hostOps8_main_v98 (X16 m c)).trans (congrArg meanOf (X16_at_0 m c)))
    ((hostOps8_main_v102 (X16 m c)).trans (congrArg₂ varOf (X16_at_0 m c) (X16_at_1 m c)))
    (l3_agg_eq m c hprev) ((hostOps7_main_v95 (X14 m c)).trans (congrArg rowOf (X14_main_arg12 m c)))
    (stats_final7_sum (T15 m) c) (stats_final7_sq (T15 m) c)
    (Cert.Val.RefFin.real_v133 𝔵0 𝔵1 𝔵3 𝔵4 𝔵5 𝔵6 𝔵7 𝔵8 𝔵9 𝔵10 𝔵11 𝔵12 h0 h3 h4 h5 h6 h7 h8 h9 h10 h11 h12)
    (Cert.ReferenceIdeal.RefLayer.ref_layer3 𝔵0 𝔵1 𝔵3 𝔵4 𝔵5 𝔵6 𝔵7 𝔵8 𝔵9 𝔵10 𝔵11 𝔵12 𝔵13 𝔵14)

end Cert.KernelIdeal.Gen

end
-- ==== Proof.Val.Pool9.lean ====
import proofs.«421377_j77326591197791_1_alg».proof.Proof.KI.Reg9Defs
import proofs.«421377_j77326591197791_1_alg».proof.Proof.Val.Alg
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem cmpi_eq_real9 (a b : BitVec 32) :
    ((((IntOp.cmpi .eq a b).setWidth 32).toInt : ℝ) : EReal) = if a = b then (1 : EReal) else 0 := by
  unfold IntOp.cmpi
  by_cases h : a = b
  · rw [if_pos h, show (a == b) = true by simpa using h, show ((BitVec.ofBool true).setWidth 32).toInt = 1 by decide]; norm_num
  · rw [if_neg h, show (a == b) = false by simpa using h, show ((BitVec.ofBool false).setWidth 32).toInt = 0 by decide]; norm_num

theorem onehot9_apply (v3 : Vec Ideal S5000x1 .i32) (r : Fin 5000) (g : Fin 64) :
    k9_pay3 (F := Ideal) v3 (ix2 r g) = if v3 (ix2 r (0 : Fin 1)) = BitVec.ofNat 32 g.val then (1 : EReal) else 0 := by
  unfold k9_pay3
  dsimp only
  rw [sitofp_apply, extui_apply]
  show FloatOps.sitofp .f32 ((IntOp.cmpi .eq (broadcastTo S5000x64 (shapeCast S5000x1 v3 shapeCasts_S5000x1_S5000x1) broadcasts_S5000x1_S5000x64 (ix2 r g))
    (iota .tc S5000x64 32 [1] iota_S5000x64_d1_w32 (ix2 r g))).setWidth 32) = _
  rw [iota_single_apply, shapeCast_self]
  rw [broadcastTo_apply v3 broadcasts_S5000x1_S5000x64 (ix2 r g) (ix2 r (0 : Fin 1)) (fun a => by
    match a with
    | ⟨0, _⟩ => show r.val = if (5000 : Nat) = 1 then 0 else r.val; rw [if_neg (by decide)]
    | ⟨1, _⟩ => show 0 = if (1 : Nat) = 1 then 0 else g.val; rw [if_pos rfl])]
  exact cmpi_eq_real9 (v3 (ix2 r (0 : Fin 1))) (BitVec.ofNat 32 g.val)

theorem lhs_nc9 {sl sr so : Shape} (D : DotDims sl sr so) (j : so.Idx) (q : D.contr.Idx) (a : Fin sl.rank) (hb : a ∉ D.lhsBatch)
    (hn : a ∈ D.lhsNonContracting) : (D.lhsIdx j q a).val = (j ⟨D.lhsBatch.length + D.lhsNonContracting.idxOf a, by
      have := List.idxOf_lt_length_iff.2 hn; rw [D.rank_out]; omega⟩).val := by
  unfold DotDims.lhsIdx; rw [dif_neg hb, dif_pos hn]; rfl

theorem rhs_nc9 {sl sr so : Shape} (D : DotDims sl sr so) (j : so.Idx) (q : D.contr.Idx) (a : Fin sr.rank) (hb : a ∉ D.rhsBatch)
    (hn : a ∈ D.rhsNonContracting) : (D.rhsIdx j q a).val = (j ⟨D.lhsBatch.length + D.lhsNonContracting.length + D.rhsNonContracting.idxOf a, by
      have := List.idxOf_lt_length_iff.2 hn; rw [D.rank_out]; omega⟩).val := by
  unfold DotDims.rhsIdx; rw [dif_neg hb, dif_pos hn]; rfl

theorem matmul9_apply {sl sr so : Shape} (D : DotDims sl sr so) (n : ℕ) (hr : D.contr.rank = 1) (hs : D.contr.size ⟨0, by omega⟩ = n)
    (a : FVec Ideal sl .f32) (b : FVec Ideal sr .f32) (j : so.Idx) (L : Fin n → sl.Idx) (R : Fin n → sr.Idx)
    (hl : ∀ k, D.lhsIdx j ((contrEquiv1 D n hr hs).symm k) = L k) (hR : ∀ k, D.rhsIdx j ((contrEquiv1 D n hr hs).symm k) = R k) :
    matmul (F := Ideal) D none a b (constant so .f32 0x00000000#32) j = ∑ k, a (L k) * b (R k) := by
  simp only [matmul]
  rw [Ideal.matmul_constant_zero_apply, ← Equiv.sum_comp (contrEquiv1 D n hr hs).symm]
  exact Finset.sum_congr rfl fun k _ => by rw [hl, hR]

theorem matmul_sum9_apply (a : FVec Ideal S5000x64 .f32) (b : FVec Ideal S5000x128 .f32) (g : Fin 64) (d : Fin 128) :
    matmul (F := Ideal) dot_S5000x64_S5000x128_S64x128_0_0_1_1_n_n none a b (constant S64x128 .f32 0x00000000#32) (ix2 g d)
      = ∑ r : Fin 5000, a (ix2 r g) * b (ix2 r d) :=
  matmul9_apply _ 5000 rfl rfl a b _ _ _
    (fun k => funext fun x => Fin.ext (by
      match x with
      | ⟨0, _⟩ => exact (DotDims.lhsIdx_val_of_single _ rfl _ _).trans (contrEquiv1_symm_val _ 5000 rfl rfl k)
      | ⟨1, _⟩ => refine lhs_nc9 _ _ _ 1 ?_ ?_ <;> decide))
    (fun k => funext fun x => Fin.ext (by
      match x with
      | ⟨0, _⟩ => exact (DotDims.rhsIdx_val_of_single _ rfl _ _).trans (contrEquiv1_symm_val _ 5000 rfl rfl k)
      | ⟨1, _⟩ => refine rhs_nc9 _ _ _ 1 ?_ ?_ <;> decide))

theorem matmul_cnt9_apply (a : FVec Ideal S5000x64 .f32) (b : FVec Ideal S5000x1 .f32) (g : Fin 64) :
    matmul (F := Ideal) dot_S5000x64_S5000x1_S64x1_0_0_1_1_n_n none a b (constant S64x1 .f32 0x00000000#32) (ix2 g (0 : Fin 1))
      = ∑ r : Fin 5000, a (ix2 r g) * b (ix2 r (0 : Fin 1)) :=
  matmul9_apply _ 5000 rfl rfl a b _ _ _
    (fun k => funext fun x => Fin.ext (by
      match x with
      | ⟨0, _⟩ => exact (DotDims.lhsIdx_val_of_single _ rfl _ _).trans (contrEquiv1_symm_val _ 5000 rfl rfl k)
      | ⟨1, _⟩ => refine lhs_nc9 _ _ _ 1 ?_ ?_ <;> decide))
    (fun k => funext fun x => Fin.ext (by
      match x with
      | ⟨0, _⟩ => exact (DotDims.rhsIdx_val_of_single _ rfl _ _).trans (contrEquiv1_symm_val _ 5000 rfl rfl k)
      | ⟨1, _⟩ => refine rhs_nc9 _ _ _ 1 ?_ ?_ <;> decide))

theorem sums9_apply (v3 : IVec S5000x1 32) (v10 : FVec Ideal S64x128 .f32) (v11 : FVec Ideal S5000x128 .f32) (g : Fin 64) (d : Fin 128) :
    k9_pay4 (F := Ideal) v3 v10 v11 (ix2 g d)
      = v10 (ix2 g d) + ∑ r : Fin 5000, (if v3 (ix2 r (0 : Fin 1)) = BitVec.ofNat 32 g.val then v11 (ix2 r d) else 0) := by
  unfold k9_pay4
  rw [shapeCast_self, shapeCast_self, addf_apply, matmul_sum9_apply]
  refine congrArg (v10 (ix2 g d) + ·) ?_
  refine Finset.sum_congr rfl fun r _ => ?_
  rw [onehot9_apply]
  exact Cert.Val.Alg.indicator_mul _ _

theorem counts9_apply (v3 : IVec S5000x1 32) (v19 : FVec Ideal S64x1 .f32) (g : Fin 64) :
    k9_pay5 (F := Ideal) v3 v19 (ix2 g (0 : Fin 1))
      = v19 (ix2 g (0 : Fin 1)) + ∑ r : Fin 5000, (if v3 (ix2 r (0 : Fin 1)) = BitVec.ofNat 32 g.val then (1 : EReal) else 0) := by
  unfold k9_pay5
  rw [shapeCast_self, addf_apply, matmul_cnt9_apply]
  refine congrArg (v19 (ix2 g (0 : Fin 1)) + ·) ?_
  refine Finset.sum_congr rfl fun r _ => ?_
  rw [onehot9_apply, broadcast_apply]
  show _ * Ideal.ofBits .f32 0x3F800000#32 = _
  rw [Ideal.ofBits_one_f32, mul_one]

theorem matmul_head9_apply (a : FVec Ideal S64x128 .f32) (b : FVec Ideal S128x8 .f32) (g : Fin 64) (o : Fin 8) :
    matmul (F := Ideal) dot_S64x128_S128x8_S64x8_1_0_0_1_n_n none a b (constant S64x8 .f32 0x00000000#32) (ix2 g o)
      = ∑ d : Fin 128, a (ix2 g d) * b (ix2 d o) :=
  matmul9_apply _ 128 rfl rfl a b _ _ _
    (fun k => funext fun x => Fin.ext (by
      match x with
      | ⟨0, _⟩ => refine lhs_nc9 _ _ _ 0 ?_ ?_ <;> decide
      | ⟨1, _⟩ => exact (DotDims.lhsIdx_val_of_single _ rfl _ _).trans (contrEquiv1_symm_val _ 128 rfl rfl k)))
    (fun k => funext fun x => Fin.ext (by
      match x with
      | ⟨0, _⟩ => exact (DotDims.rhsIdx_val_of_single _ rfl _ _).trans (contrEquiv1_symm_val _ 128 rfl rfl k)
      | ⟨1, _⟩ => refine rhs_nc9 _ _ _ 1 ?_ ?_ <;> decide))

theorem bcast_col9_apply (v : FVec Ideal S64x1 .f32) (g : Fin 64) (d : Fin 128) :
    broadcastTo S64x128 v broadcasts_S64x1_S64x128 (ix2 g d) = v (ix2 g (0 : Fin 1)) :=
  broadcastTo_apply v broadcasts_S64x1_S64x128 (ix2 g d) (ix2 g (0 : Fin 1)) (fun a => by
    match a with
    | ⟨0, _⟩ => show g.val = if (64 : Nat) = 1 then 0 else g.val; rw [if_neg (by decide)]
    | ⟨1, _⟩ => show 0 = if (1 : Nat) = 1 then 0 else d.val; rw [if_pos rfl])

theorem head9_apply (v28 : FVec Ideal S64x128 .f32) (v29 : FVec Ideal S64x1 .f32) (v34 : FVec Ideal S128x8 .f32) (v36 : FVec Ideal S1x8 .f32)
    (g : Fin 64) (o : Fin 8) :
    k9_pay6 (F := Ideal) v28 v29 v34 v36 (ix2 g o)
      = (∑ d : Fin 128, Ideal.div (v28 (ix2 g d)) (max (v29 (ix2 g (0 : Fin 1))) 1) * v34 (ix2 d o)) + v36 (ix2 (0 : Fin 1) o) := by
  unfold k9_pay6
  rw [addf_apply, matmul_head9_apply, shapeCast_self, broadcastTo_1b_ab_apply]
  refine congrArg (· + v36 (ix2 (0 : Fin 1) o)) ?_
  refine Finset.sum_congr rfl fun d _ => ?_
  rw [divf_apply, bcast_col9_apply, maximumf_apply, broadcast_apply]
  show Ideal.div _ (max _ (Ideal.ofBits .f32 0x3F800000#32)) * _ = _
  rw [Ideal.ofBits_one_f32]

variable (V : (c : Dev nD) → (b : Ref sig .tc) → Buf (Elt Ideal) ((c : Thread nD τ).loc b))

abbrev x9 (c : Dev nD) : S50000x128.Idx → EReal := V c (Pipeline.arrRef spec9 0)
abbrev bt9 (c : Dev nD) : S50000x1.Idx → BitVec 32 := V c (Pipeline.arrRef spec9 1)
abbrev wh9 (c : Dev nD) : S128x8.Idx → EReal := V c (Pipeline.arrRef spec9 2)
abbrev bh9 (c : Dev nD) : S1x8.Idx → EReal := V c (Pipeline.arrRef spec9 3)

abbrev row9 (t : ℕ) (ht : t < 10) (r : Fin 5000) : Fin 50000 := ⟨t * 5000 + r.val, by have := r.isLt; omega⟩

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

abbrev xblk9 (c : Dev nD) (t : Fin cfg9.N) : FVec Ideal S5000x128 .f32 := iblk9 (F := Ideal) V c 0 t
abbrev btblk9 (c : Dev nD) (t : Fin cfg9.N) : IVec S5000x1 32 := iblk9 (F := Ideal) V c 1 t
abbrev whblk9 (c : Dev nD) (t : Fin cfg9.N) : FVec Ideal S128x8 .f32 := iblk9 (F := Ideal) V c 2 t
abbrev bhblk9 (c : Dev nD) (t : Fin cfg9.N) : FVec Ideal S1x8 .f32 := iblk9 (F := Ideal) V c 3 t

theorem lt10_9 (t : Fin cfg9.N) : t.val < 10 := t.isLt.trans_eq (show cfg9.N = 10 from N_9)

theorem xblk9_apply (c : Dev nD) (t : Fin cfg9.N) (r : Fin 5000) (d : Fin 128) :
    xblk9 V c t (ix2 r d) = x9 V c (ix2 (row9 t.val (lt10_9 t) r) d) := by
  obtain ⟨e0, e1, -⟩ := idx_facts9 t
  unfold xblk9 iblk9
  rw [View.read_apply]
  show V c main_v106 (((cfg9.win 0).blk t).view.emb (ix2 r d)) = V c main_v106 (ix2 (row9 t.val (lt10_9 t) r) d)
  refine congrArg (V c main_v106) (funext fun a => Fin.ext ?_)
  match a with
  | ⟨0, _⟩ => show win9_0.index t (0 : Fin 2) * 5000 + 1 * r.val = t.val * 5000 + r.val; omega
  | ⟨1, _⟩ => show win9_0.index t (1 : Fin 2) * 128 + 1 * d.val = d.val; omega

theorem btblk9_apply (c : Dev nD) (t : Fin cfg9.N) (r : Fin 5000) :
    btblk9 V c t (ix2 r (0 : Fin 1)) = bt9 V c (ix2 (row9 t.val (lt10_9 t) r) (0 : Fin 1)) := by
  obtain ⟨-, -, e0, e1, -⟩ := idx_facts9 t
  unfold btblk9 iblk9
  rw [View.read_apply]
  show V c main_v107 (((cfg9.win 1).blk t).view.emb (ix2 r (0 : Fin 1))) = V c main_v107 (ix2 (row9 t.val (lt10_9 t) r) (0 : Fin 1))
  refine congrArg (V c main_v107) (funext fun a => Fin.ext ?_)
  match a with
  | ⟨0, _⟩ => show win9_1.index t (0 : Fin 2) * 5000 + 1 * r.val = t.val * 5000 + r.val; omega
  | ⟨1, _⟩ => show win9_1.index t (1 : Fin 2) * 1 + 1 * 0 = 0; rw [e1]

theorem whblk9_eq (c : Dev nD) (t : Fin cfg9.N) : whblk9 V c t = wh9 V c := by
  obtain ⟨-, -, -, -, e0, e1, -⟩ := idx_facts9 t
  funext j
  unfold whblk9 iblk9
  rw [View.read_apply]
  show V c main_arg15 (((cfg9.win 2).blk t).view.emb j) = V c main_arg15 j
  refine congrArg (V c main_arg15) (funext fun a => Fin.ext ?_)
  match a with
  | ⟨0, _⟩ => show win9_2.index t (0 : Fin 2) * 128 + 1 * (j 0).val = (j 0).val; omega
  | ⟨1, _⟩ => show win9_2.index t (1 : Fin 2) * 8 + 1 * (j 1).val = (j 1).val; omega

theorem bhblk9_eq (c : Dev nD) (t : Fin cfg9.N) : bhblk9 V c t = bh9 V c := by
  obtain ⟨-, -, -, -, -, -, e0, e1, -⟩ := idx_facts9 t
  funext j
  unfold bhblk9 iblk9
  rw [View.read_apply]
  show V c main_v108 (((cfg9.win 3).blk t).view.emb j) = V c main_v108 j
  refine congrArg (V c main_v108) (funext fun a => Fin.ext ?_)
  match a with
  | ⟨0, _⟩ => show win9_3.index t (0 : Fin 2) * 1 + 1 * (j 0).val = (j 0).val; omega
  | ⟨1, _⟩ => show win9_3.index t (1 : Fin 2) * 8 + 1 * (j 1).val = (j 1).val; omega

def blk9 (c : Dev nD) (g : Fin 64) (f : Fin 50000 → EReal) (t : ℕ) : EReal :=
  if ht : t < 10 then ∑ r : Fin 5000, (if bt9 V c (ix2 (row9 t ht r) (0 : Fin 1)) = BitVec.ofNat 32 g.val then f (row9 t ht r) else 0) else 0

theorem run9 (c : Dev nD) (g : Fin 64) (f : Fin 50000 → EReal) (a : Fin (cfg9.N + 1) → EReal) (h0 : a 0 = 0)
    (hs : ∀ t : Fin cfg9.N, a t.succ = a t.castSucc
      + ∑ r : Fin 5000, (if btblk9 V c t (ix2 r (0 : Fin 1)) = BitVec.ofNat 32 g.val then f (row9 t.val (lt10_9 t) r) else 0)) :
    a (Fin.last _) = ∑ n : Fin 50000, (if bt9 V c (ix2 n (0 : Fin 1)) = BitVec.ofNat 32 g.val then f n else 0) := by
  have h : ∀ n : Fin (cfg9.N + 1), a n = ∑ t ∈ Finset.range n.val, blk9 V c g f t := fun n => by
    induction n using Fin.induction with
    | zero => exact h0.trans (Finset.sum_range_zero _).symm
    | succ t ih =>
      rw [hs, ih, Fin.val_succ, Finset.sum_range_succ]
      refine congrArg (_ + ·) ?_
      unfold blk9; rw [dif_pos (lt10_9 t)]
      exact Finset.sum_congr rfl fun r _ => by rw [btblk9_apply]
  rw [h, Cert.Val.Alg.sum_fin_50000]
  show ∑ t ∈ Finset.range 10, blk9 V c g f t = _
  rw [Finset.sum_range]
  exact Finset.sum_congr rfl fun t _ => by unfold blk9; rw [dif_pos t.isLt]

theorem zero_sums9_apply (j : S64x128.Idx) : k9_pay1 (F := Ideal) j = 0 := by
  unfold k9_pay1
  rw [shapeCast_self, broadcast_apply]
  exact Ideal.ofBits_zero_f32
theorem zero_counts9_apply (j : S64x1.Idx) : k9_pay2 (F := Ideal) j = 0 := by
  unfold k9_pay2
  rw [shapeCast_self, broadcast_apply]
  exact Ideal.ofBits_zero_f32

theorem sums9_total (c : Dev nD) (g : Fin 64) (d : Fin 128) :
    (scr9 (F := Ideal) V c (Fin.last _)).1 (ix2 g d)
      = ∑ n : Fin 50000, (if bt9 V c (ix2 n (0 : Fin 1)) = BitVec.ofNat 32 g.val then x9 V c (ix2 n d) else 0) :=
  run9 V c g (fun n => x9 V c (ix2 n d)) (fun n => (scr9 (F := Ideal) V c n).1 (ix2 g d)) (zero_sums9_apply (ix2 g d)) fun t =>
    (sums9_apply (btblk9 V c t) (scr9 (F := Ideal) V c t.castSucc).1 (xblk9 V c t) g d).trans
      (congrArg (_ + ·) (Finset.sum_congr rfl fun r _ => by rw [xblk9_apply]))

theorem counts9_total (c : Dev nD) (g : Fin 64) :
    (scr9 (F := Ideal) V c (Fin.last _)).2 (ix2 g (0 : Fin 1))
      = ∑ n : Fin 50000, (if bt9 V c (ix2 n (0 : Fin 1)) = BitVec.ofNat 32 g.val then (1 : EReal) else 0) :=
  run9 V c g (fun _ => 1) (fun n => (scr9 (F := Ideal) V c n).2 (ix2 g (0 : Fin 1))) (zero_counts9_apply (ix2 g (0 : Fin 1))) fun t =>
    counts9_apply (btblk9 V c t) (scr9 (F := Ideal) V c t.castSucc).2 g

def pool9 (c : Dev nD) : S64x8.Idx → EReal := fun j =>
  (∑ d : Fin 128, Ideal.div (∑ n : Fin 50000, (if bt9 V c (ix2 n (0 : Fin 1)) = BitVec.ofNat 32 (j 0).val then x9 V c (ix2 n d) else 0))
      (max (∑ n : Fin 50000, (if bt9 V c (ix2 n (0 : Fin 1)) = BitVec.ofNat 32 (j 0).val then (1 : EReal) else 0)) 1) * wh9 V c (ix2 d (j 1)))
    + bh9 V c (ix2 (0 : Fin 1) (j 1))

theorem out9_eq (c : Dev nD) (t : Fin cfg9.N) (h : t.val = 9) : (out9 (F := Ideal) V c t : S64x8.Idx → EReal) = pool9 V c := by
  funext j
  obtain ⟨g, o, rfl⟩ : ∃ (g : Fin 64) (o : Fin 8), j = ix2 g o := ⟨j 0, j 1, eq_ix2 j⟩
  unfold out9
  rw [show t.succ = Fin.last _ from Fin.ext (congrArg (· + 1) h)]
  refine (head9_apply _ _ (whblk9 V c t) (bhblk9 V c t) g o).trans ?_
  rw [whblk9_eq V c t, bhblk9_eq V c t, counts9_total V c g]
  refine congrArg (· + bh9 V c (ix2 (0 : Fin 1) o)) (Finset.sum_congr rfl fun d _ => ?_)
  rw [sums9_total V c g d]

theorem flushed9_4_eq (c : Dev nD) (t : Fin cfg9.N) (hf : (cfg9.win 4).flush t = true) :
    (dat9 (F := Ideal) V c).flushed 4 t = ((cfg9.win 4).blk t).view.read (Elt Ideal) (pool9 V c) := by
  obtain ⟨-, -, -, -, -, -, -, -, e0, e1⟩ := idx_facts9 t
  show (cfg9.win 4).cut (grid9.coords t) ((dat9 (F := Ideal) V c).after 4 t) = _
  dsimp only [dat9]
  rw [out9_eq V c t (by have := (flush9_4 t).mp hf; have := lt10_9 t; omega)]
  funext j
  rw [View.read_apply]
  show pool9 V c ((cfg9.win 4).xinj (grid9.coords t) j) = pool9 V c (((cfg9.win 4).blk t).view.emb j)
  refine congrArg (pool9 V c) (funext fun a => Fin.ext ?_)
  match a with
  | ⟨0, _⟩ => show (j 0).val = win9_4.index t (0 : Fin 2) * 64 + 1 * (j 0).val; omega
  | ⟨1, _⟩ => show (j 1).val = win9_4.index t (1 : Fin 2) * 8 + 1 * (j 1).val; omega

theorem final9_4 (c : Dev nD) : (dat9 (F := Ideal) V c).arrAt 4 cfg9.N = pool9 V c :=
  (dat9 (F := Ideal) V c).arrAt_eq_of_cover 4 (pool9 V c) (flushed9_4_eq V c) fun i => by
    obtain ⟨-, -, -, -, -, -, -, -, e0, e1⟩ := idx_facts9 t9_9
    refine ⟨t9_9, (flush9_4 t9_9).mpr rfl, ?_⟩
    show i ∈ ((View.whole main_v109).slice (win9_4.rect t9_9)).set
    rw [View.set_slice_whole, Rect.mem_set_unit]
    intro a
    have h0 : (i 0).val < 64 := (i 0).isLt
    have h1 : (i 1).val < 8 := (i 1).isLt
    match a with
    | ⟨0, _⟩ => show win9_4.index t9_9 (0 : Fin 2) * 64 ≤ (i 0).val ∧ (i 0).val < win9_4.index t9_9 (0 : Fin 2) * 64 + 64; omega
    | ⟨1, _⟩ => show win9_4.index t9_9 (1 : Fin 2) * 8 ≤ (i 1).val ∧ (i 1).val < win9_4.index t9_9 (1 : Fin 2) * 8 + 8; omega

theorem pool_final9 (c : Dev nD) (g : Fin 64) (o : Fin 8) :
    ((dat9 (F := Ideal) V c).arrAt 4 cfg9.N : S64x8.Idx → EReal) (ix2 g o)
      = (∑ d : Fin 128, Ideal.div (∑ n : Fin 50000, (if bt9 V c (ix2 n (0 : Fin 1)) = BitVec.ofNat 32 g.val then x9 V c (ix2 n d) else 0))
          (max (∑ n : Fin 50000, (if bt9 V c (ix2 n (0 : Fin 1)) = BitVec.ofNat 32 g.val then (1 : EReal) else 0)) 1) * wh9 V c (ix2 d o))
        + bh9 V c (ix2 (0 : Fin 1) o) := by
  rw [final9_4]
  rfl

end Cert.KernelIdeal.Gen

end
-- ==== Proof.Val.PoolAsm.lean ====
import proofs.«421377_j77326591197791_1_alg».proof.Proof.KI.FrameDefs
import proofs.«421377_j77326591197791_1_alg».proof.Proof.Val.HostK
import proofs.«421377_j77326591197791_1_alg».proof.Proof.Val.Link0
import proofs.«421377_j77326591197791_1_alg».proof.Proof.Val.Pool9
import proofs.«421377_j77326591197791_1_alg».proof.Proof.RefRead
import proofs.«421377_j77326591197791_1_alg».proof.Proof.Val.RefLayer
import Idealize.ShloMosaic.Lib.Pipeline.Value
import Idealize.ShloMosaic.Lib.ValueIdx
import Idealize.ShloMosaic.PureOps.Ideal
import Idealize.ShloMosaic.Lib.StableHlo.Predicate

set_option maxRecDepth 16384

noncomputable section

namespace Cert.KernelIdeal.Gen

open Idealize.ShloMosaic Idealize.ShloMosaic.TcCoe
open Idealize.SL Idealize.SL.Sem
open Idealize.ShloMosaic.ValueIdx (ix1 ix2)
theorem colOf_apply {F : FTy → Type} [FloatOps F] (b : (⟨S50000, .i32⟩ : BufTy).Contents (Elt F)) (n : Fin 50000) :
    colOf (F := F) b (ix2 n (0 : Fin 1)) = b (ix1 n) := by
  unfold colOf
  exact shapeCast_apply b shapeCasts_S50000_S50000x1 (ix2 n (0 : Fin 1)) (ix1 n)
    (by rewrite [Shape.rowMajor_val_two, Shape.rowMajor_val_one]; show n.val = n.val * 1 + 0; omega)

theorem row8Of_apply {F : FTy → Type} [FloatOps F] (b : (⟨S8, .f32⟩ : BufTy).Contents (Elt F)) (o : Fin 8) :
    row8Of (F := F) b (ix2 (0 : Fin 1) o) = b (ix1 o) := by
  unfold row8Of
  exact shapeCast_apply b shapeCasts_S8_S1x8 (ix2 (0 : Fin 1) o) (ix1 o)
    (by rewrite [Shape.rowMajor_val_two, Shape.rowMajor_val_one]; show o.val = 0 * 8 + o.val; omega)

theorem word_eq_iff_toInt (w : BitVec 32) (g : Fin 64) : w = BitVec.ofNat 32 g.val ↔ w.toInt = (g.val : Int) := by
  have hg : g.val < 64 := g.isLt
  have e : (BitVec.ofNat 32 g.val).toInt = (g.val : Int) := StableHlo.Predicate.toInt_ofNat_small g.val (by omega)
  constructor
  · rintro rfl; exact e
  · intro h; exact BitVec.eq_of_toInt_eq (h.trans e.symm)
variable (m : (ℓ : Loc nD τ sig) → Buf (Elt Ideal) ℓ) (c : Dev nD)

abbrev ref159 := Cert.ReferenceIdeal.ReadP.val_main_v159 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

abbrev ref175 := Cert.ReferenceIdeal.ReadP.val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The pooling region's result is the reference's last stage, given that its main operand is the reference's stage before. -/
theorem out_eq (hcur : o18 m c = ref159 m c) : o20 m c = ref175 m c := by
  funext i
  obtain ⟨g, o, rfl⟩ : ∃ (g : Fin 64) (o : Fin 8), i = ix2 g o := ⟨i 0, i 1, Idealize.ShloMosaic.ValueIdx.eq_ix2 i⟩
  refine (pool_final9 (T19 m) c g o).trans (Eq.trans ?_ (Cert.ReferenceIdeal.RefLayer.ref_pool _ _ _ _ _ _ _ _ _ _ _ _ _ _ _ _ _ g o).symm)
  rw [show x9 (T19 m) c = ref159 m c from ((StableHlo.after_of_writes_sub hostOps9 _ hostOps9_writes (by decide)).trans (X18_at m c)).trans hcur,
    show bt9 (T19 m) c = _ from (hostOps9_main_v107 _).trans (congrArg colOf (X18_main_arg2 m c)),
    show wh9 (T19 m) c = _ from (StableHlo.after_of_writes_sub hostOps9 _ hostOps9_writes (by decide)).trans (X18_main_arg15 m c),
    show bh9 (T19 m) c = _ from (hostOps9_main_v108 _).trans (congrArg row8Of (X18_main_arg16 m c))]
  simp only [colOf_apply, row8Of_apply, word_eq_iff_toInt, zero_add]

end Cert.KernelIdeal.Gen

end
-- ==== Proof.Val.PreFin.lean ====
import proofs.«421377_j77326591197791_1_alg».proof.Defs
import proofs.«421377_j77326591197791_1_alg».proof.Proof.Val.Alg
import Idealize.ShloMosaic.Lib.ReduceAll
import Idealize.ShloMosaic.Lib.ValueIdx
import Idealize.ShloMosaic.Lib.StableHlo.Predicate

noncomputable section

namespace Cert.Val.PreFin

open Idealize.ShloMosaic Idealize.SL.Sem
open Cert.Val.Alg
open Cert.Pre_finite_inputs (S_)
open Cert.KernelIdeal (nD τ sig main_arg0 main_arg3 main_arg4 main_arg5 main_arg6 main_arg7 main_arg8 main_arg9 main_arg10 main_arg11 main_arg12
  main_arg13 main_arg14 main_arg15 main_arg16)

instance subsingleton_S_ : Subsingleton S_.Idx := ⟨fun a b => funext fun d => d.elim0⟩

theorem isReal_of_abs_lt (x : Ideal .f32)
    (h : FloatOps.cmpf .olt (FloatOps.hostAbsf x) (FloatOps.ofBits (F := Ideal) .f32 0x7F800000#32) = 1#1) : IsReal x := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  simp only [Ideal.cmp] at h
  rw [StableHlo.Predicate.ofBool_eq_one_iff, decide_eq_true_eq, max_lt_iff] at h
  refine isReal_of_ne (ne_of_lt h.1) ?_
  intro hb
  rw [hb, EReal.neg_bot] at h
  exact lt_irrefl _ h.2

theorem all_real {s : Shape} {axes : List (Fin s.rank)} {hb : S_.BroadcastsInDim s (![] : Fin 0 → Fin s.rank)}
    {hr : s.ReducesTo axes S_} {h0 : 0 < S_.numel} {x : FVec Ideal s .f32} {j : S_.Idx}
    (e : Host.reduce IntOp.andi (cmpf .olt (Host.absf x) (broadcastInDim s ![] hb (constant S_ .f32 0x7F800000#32)))
          (constantI S_ 1 1#1) hr h0 j = 1#1) (i : s.Idx) : IsReal (x i) :=
  isReal_of_abs_lt (x i) (Host.reduce_andi_all _ _ hr h0 j e i)

theorem inputs_real [hP : Cert.Pre_finite_inputs.Facts]
    (m : (ℓ : Loc nD τ sig) → Buf (Elt Ideal) ℓ)
    (h : Cert.Pre_KernelIdeal m) (c : Dev nD) :
    (∀ i, IsReal (m ((c.tc : Thread nD τ).loc main_arg0) i))
    ∧ (∀ i, IsReal (m ((c.tc : Thread nD τ).loc main_arg3) i))
    ∧ (∀ i, IsReal (m ((c.tc : Thread nD τ).loc main_arg4) i))
    ∧ (∀ i, IsReal (m ((c.tc : Thread nD τ).loc main_arg5) i))
    ∧ (∀ i, IsReal (m ((c.tc : Thread nD τ).loc main_arg6) i))
    ∧ (∀ i, IsReal (m ((c.tc : Thread nD τ).loc main_arg7) i))
    ∧ (∀ i, IsReal (m ((c.tc : Thread nD τ).loc main_arg8) i))
    ∧ (∀ i, IsReal (m ((c.tc : Thread nD τ).loc main_arg9) i))
    ∧ (∀ i, IsReal (m ((c.tc : Thread nD τ).loc main_arg10) i))
    ∧ (∀ i, IsReal (m ((c.tc : Thread nD τ).loc main_arg11) i))
    ∧ (∀ i, IsReal (m ((c.tc : Thread nD τ).loc main_arg12) i))
    ∧ (∀ i, IsReal (m ((c.tc : Thread nD τ).loc main_arg13) i))
    ∧ (∀ i, IsReal (m ((c.tc : Thread nD τ).loc main_arg14) i))
    ∧ (∀ i, IsReal (m ((c.tc : Thread nD τ).loc main_arg15) i))
    ∧ (∀ i, IsReal (m ((c.tc : Thread nD τ).loc main_arg16) i)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩ := e
  exact ⟨all_real h0,
    all_real h3,
    all_real h4,
    all_real h5,
    all_real h6,
    all_real h7,
    all_real h8,
    all_real h9,
    all_real h10,
    all_real h11,
    all_real h12,
    all_real h13,
    all_real h14,
    all_real h15,
    all_real h16⟩

end Cert.Val.PreFin

end
-- ==== Proof.Val.KernelValue.lean ====
import proofs.«421377_j77326591197791_1_alg».proof.Proof.Val.Layer1
import proofs.«421377_j77326591197791_1_alg».proof.Proof.Val.Layer2
import proofs.«421377_j77326591197791_1_alg».proof.Proof.Val.Layer3
import proofs.«421377_j77326591197791_1_alg».proof.Proof.Val.PoolAsm
import proofs.«421377_j77326591197791_1_alg».proof.Proof.Val.PreFin

set_option maxRecDepth 16384

noncomputable section

namespace Cert.KernelIdeal.Gen

open Idealize.ShloMosaic Idealize.ShloMosaic.TcCoe Idealize.SL.Sem

theorem kernel_value [hP : Cert.Pre_finite_inputs.Facts] (m : (ℓ : Loc nD τ sig) → Buf (Elt Ideal) ℓ)
    (hpre : Cert.Pre_KernelIdeal m) (c : Dev nD) :
    V20 m (outs m) c main_v109 = ref175 m c := by
  obtain ⟨h0, h3, h4, h5, h6, h7, h8, h9, h10, h11, h12, h13, h14, h15, h16⟩ := Cert.Val.PreFin.inputs_real m hpre c
  have e1 := cur1_eq m c h0 h3 h4
  have e2 := layer2_cur_eq m c e1 h0 h3 h4 h5 h6 h7 h8
  have e3 := l3_cur_eq m c e2 h0 h3 h4 h5 h6 h7 h8 h9 h10 h11 h12
  exact (V20_result m c).trans (out_eq m c e3)

end Cert.KernelIdeal.Gen

end
-- ==== Proof.Claims.lean ====
import proofs.«421377_j77326591197791_1_alg».proof.Defs
import proofs.«421377_j77326591197791_1_alg».proof.Proof.Gen.Kernel
import proofs.«421377_j77326591197791_1_alg».proof.Proof.Gen.KernelIdeal
import proofs.«421377_j77326591197791_1_alg».proof.Proof.Gen.ReferenceIdeal
import proofs.«421377_j77326591197791_1_alg».proof.Proof.Gen.Pre_finite_inputs
import proofs.«421377_j77326591197791_1_alg».proof.Proof.RefRun
import proofs.«421377_j77326591197791_1_alg».proof.Proof.RefRead
import proofs.«421377_j77326591197791_1_alg».proof.Proof.Val.RefVal
import proofs.«421377_j77326591197791_1_alg».proof.Proof.K.Frame
import proofs.«421377_j77326591197791_1_alg».proof.Proof.KI.Frame
import proofs.«421377_j77326591197791_1_alg».proof.Proof.Val.KernelValue

noncomputable section

namespace Cert.Proof.Claims

open Idealize.ShloMosaic Idealize.ShloMosaic.TcCoe Idealize.SL.Sem

theorem frame_p : Cert.frame_Kernel := fun m ρ _ => Cert.Kernel.Gen.frame (F := Bits) m ρ

theorem frame_pi : Cert.frame_KernelIdeal := fun m ρ _ => Cert.KernelIdeal.Gen.frame (F := Ideal) m ρ

theorem frame_ri : Cert.frame_ReferenceIdeal := fun m ρ _ =>
  (θ_run Cert.ReferenceIdeal.defs _ _).mono (fun _ h c => (h c).2) (Cert.ReferenceIdeal.RunP.run (F := Ideal) m ρ)

theorem algebraic : Cert.algebraic_KernelIdeal_ReferenceIdeal := by
  intro m ρ m' ρ' hpre hagree
  refine ⟨_, Cert.KernelIdeal.Gen.run_value (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9, h10, h11, h12, h13, h14, h15, h16⟩ := hagree c
  rw [Cert.ReferenceIdeal.RefVal.ref_result, h0, h1, h2, h3, h4, h5, h6, h7, h8, h9, h10, h11, h12, h13, h14, h15, h16]
  exact (Cert.KernelIdeal.Gen.kernel_value m hpre c).symm

end Cert.Proof.Claims

end
-- ==== Proof.lean ====
import proofs.«421377_j77326591197791_1_alg».proof.Defs
import proofs.«421377_j77326591197791_1_alg».proof.Proof.Gen.Kernel
import proofs.«421377_j77326591197791_1_alg».proof.Proof.Gen.Kernel.Skeleton
import proofs.«421377_j77326591197791_1_alg».proof.Proof.Gen.Kernel.Launch
import proofs.«421377_j77326591197791_1_alg».proof.Proof.Gen.Kernel.Regions
import proofs.«421377_j77326591197791_1_alg».proof.Proof.Gen.Kernel.Points
import proofs.«421377_j77326591197791_1_alg».proof.Proof.Gen.KernelIdeal
import proofs.«421377_j77326591197791_1_alg».proof.Proof.Gen.KernelIdeal.Skeleton
import proofs.«421377_j77326591197791_1_alg».proof.Proof.Gen.KernelIdeal.Launch
import proofs.«421377_j77326591197791_1_alg».proof.Proof.Gen.KernelIdeal.Regions
import proofs.«421377_j77326591197791_1_alg».proof.Proof.Gen.KernelIdeal.Points
import proofs.«421377_j77326591197791_1_alg».proof.Proof.Gen.ReferenceIdeal
import proofs.«421377_j77326591197791_1_alg».proof.Proof.Gen.Pre_finite_inputs
import Idealize.ShloMosaic.Adequacy
import Idealize.ShloMosaic.Init
import proofs.«421377_j77326591197791_1_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, trivial, Cert.Proof.Claims.algebraic⟩

end Cert.Proof

end
